-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S100000 : Shape := ⟨1, ![100000]⟩
abbrev S20000 : Shape := ⟨1, ![20000]⟩
abbrev S2000 : Shape := ⟨1, ![2000]⟩
abbrev S5x100x64 : Shape := ⟨3, ![5, 100, 64]⟩
abbrev S4x128x64 : Shape := ⟨3, ![4, 128, 64]⟩
abbrev S4x64 : Shape := ⟨2, ![4, 64]⟩
abbrev S5x64x64 : Shape := ⟨3, ![5, 64, 64]⟩
abbrev S5x64x192 : Shape := ⟨3, ![5, 64, 192]⟩
abbrev S5x192 : Shape := ⟨2, ![5, 192]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S5x100x64 : S_.BroadcastsInDim S5x100x64 (![] : Fin 0 → Fin S5x100x64.rank)
  reducesTo_S5x100x64_S_d0_1_2 : S5x100x64.ReducesTo [0, 1, 2] S_
  h_S_ : 0 < S_.numel
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S5x64x192 : S_.BroadcastsInDim S5x64x192 (![] : Fin 0 → Fin S5x64x192.rank)
  reducesTo_S5x64x192_S_d0_1_2 : S5x64x192.ReducesTo [0, 1, 2] S_
  bcast_S_S5x192 : S_.BroadcastsInDim S5x192 (![] : Fin 0 → Fin S5x192.rank)
  reducesTo_S5x192_S_d0_1 : S5x192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S100000x2 : S_.BroadcastsInDim S100000x2 (![] : Fin 0 → Fin S100000x2.rank)
  reducesTo_S100000x2_S_d0_1 : S100000x2.ReducesTo [0, 1] S_

variable [Facts]

def fn_part6 {F : FTy → Type} [FloatOps F] (main_arg0 : IVec S100000x2 32) (main_arg26 : FVec F S1 .f32) (main_v98 : IVec S_ 1) (main_v101 : IVec S16x1 1) (main_c_39 : IVec S_ 1) : IVec S_ 1 :=
  let main_v102 : IVec S_ 1 := (fun x v => Host.reduce IntOp.andi x v reducesTo_S16x1_S_d0_1 h_S_) main_v101 main_c_39
  let main_v103 : IVec S_ 1 := andi main_v98 main_v102
  let main_v104 : FVec F S1 .f32 := Host.absf main_arg26
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S100000x2 32 := broadcastInDim S100000x2 ![] bcast_S_S100000x2 main_c_42
  let main_v110 : IVec S100000x2 1 := cmpi .sge main_arg0 main_v109
  let main_c_43 : IVec S_ 32 := constantI S_ 32 100#32
  let main_v111 : IVec S100000x2 32 := broadcastInDim S100000x2 ![] bcast_S_S100000x2 main_c_43
  let main_v112 : IVec S100000x2 1 := cmpi .slt main_arg0 main_v111
  let main_v113 : IVec S100000x2 1 := andi main_v110 main_v112
  let main_c_44 : IVec S_ 1 := constantI S_ 1 1#1
  let main_v114 : IVec S_ 1 := (fun x v => Host.reduce IntOp.andi x v reducesTo_S100000x2_S_d0_1 h_S_) main_v113 main_c_44
  let main_v115 : IVec S_ 1 := andi main_v108 main_v114
  main_v115

def fn_part5 {F : FTy → Type} [FloatOps F] (main_arg0 : IVec S100000x2 32) (main_arg23 : FVec F S32x16 .f32) (main_arg24 : FVec F S16 .f32) (main_arg25 : FVec F S16x1 .f32) (main_arg26 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x16 .f32 := Host.absf main_arg23
  let main_cst_34 : FVec F S_ .f32 := constant S_ .f32 0x7F800000#32
  let main_v90 : FVec F S32x16 .f32 := broadcastInDim S32x16 ![] bcast_S_S32x16 main_cst_34
  let main_v91 : IVec S32x16 1 := cmpf .olt main_v89 main_v90
  let main_c_35 : IVec S_ 1 := constantI S_ 1 1#1
  let main_v92 : IVec S_ 1 := (fun x v => Host.reduce IntOp.andi x v reducesTo_S32x16_S_d0_1 h_S_) main_v91 main_c_35
  let main_v93 : IVec S_ 1 := andi main_v88 main_v92
  let main_v94 : FVec F S16 .f32 := Host.absf main_arg24
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16x1 .f32 := Host.absf main_arg25
  let main_cst_38 : FVec F S_ .f32 := constant S_ .f32 0x7F800000#32
  let main_v100 : FVec F S16x1 .f32 := broadcastInDim S16x1 ![] bcast_S_S16x1 main_cst_38
  let main_v101 : IVec S16x1 1 := cmpf .olt main_v99 main_v100
  let main_c_39 : IVec S_ 1 := constantI S_ 1 1#1
  fn_part6 (F := F) main_arg0 main_arg26 main_v98 main_v101 main_c_39

def fn_part4 {F : FTy → Type} [FloatOps F] (main_arg0 : IVec S100000x2 32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v63 : IVec S_ 1) (main_v67 : IVec S_ 1) : IVec S_ 1 :=
  let main_v68 : IVec S_ 1 := andi main_v63 main_v67
  let main_v69 : FVec F S64x64 .f32 := Host.absf main_arg19
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg20
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x32 .f32 := Host.absf main_arg21
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg22
  let main_cst_32 : FVec F S_ .f32 := constant S_ .f32 0x7F800000#32
  fn_part5 (F := F) main_arg0 main_arg23 main_arg24 main_arg25 main_arg26 main_v83 main_v84 main_cst_32

def fn_part3 {F : FTy → Type} [FloatOps F] (main_arg0 : IVec S100000x2 32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg16
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg17
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg18
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg19 main_arg20 main_arg21 main_arg22 main_arg23 main_arg24 main_arg25 main_arg26 main_v63 main_v67

def fn_part2 {F : FTy → Type} [FloatOps F] (main_arg0 : IVec S100000x2 32) (main_arg12 : FVec F S5x192 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v33 : IVec S_ 1) : IVec S_ 1 :=
  let main_v34 : FVec F S5x192 .f32 := Host.absf main_arg12
  let main_cst_12 : FVec F S_ .f32 := constant S_ .f32 0x7F800000#32
  let main_v35 : FVec F S5x192 .f32 := broadcastInDim S5x192 ![] bcast_S_S5x192 main_cst_12
  let main_v36 : IVec S5x192 1 := cmpf .olt main_v34 main_v35
  let main_c_13 : IVec S_ 1 := constantI S_ 1 1#1
  let main_v37 : IVec S_ 1 := (fun x v => Host.reduce IntOp.andi x v reducesTo_S5x192_S_d0_1 h_S_) main_v36 main_c_13
  let main_v38 : IVec S_ 1 := andi main_v33 main_v37
  let main_v39 : FVec F S64x64 .f32 := Host.absf main_arg13
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg14
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg15
  let main_cst_18 : FVec F S_ .f32 := constant S_ .f32 0x7F800000#32
  let main_v50 : FVec F S64x64 .f32 := broadcastInDim S64x64 ![] bcast_S_S64x64 main_cst_18
  fn_part3 (F := F) main_arg0 main_arg16 main_arg17 main_arg18 main_arg19 main_arg20 main_arg21 main_arg22 main_arg23 main_arg24 main_arg25 main_arg26 main_v48 main_v49 main_v50

def fn_part1 {F : FTy → Type} [FloatOps F] (main_arg0 : IVec S100000x2 32) (main_arg9 : FVec F S5x64x192 .f32) (main_arg10 : FVec F S5x192 .f32) (main_arg11 : FVec F S5x64x192 .f32) (main_arg12 : FVec F S5x192 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S5x64x192 .f32 := Host.absf main_arg9
  let main_cst_6 : FVec F S_ .f32 := constant S_ .f32 0x7F800000#32
  let main_v20 : FVec F S5x64x192 .f32 := broadcastInDim S5x64x192 ![] bcast_S_S5x64x192 main_cst_6
  let main_v21 : IVec S5x64x192 1 := cmpf .olt main_v19 main_v20
  let main_c_7 : IVec S_ 1 := constantI S_ 1 1#1
  let main_v22 : IVec S_ 1 := (fun x v => Host.reduce IntOp.andi x v reducesTo_S5x64x192_S_d0_1_2 h_S_) main_v21 main_c_7
  let main_v23 : IVec S_ 1 := andi main_v18 main_v22
  let main_v24 : FVec F S5x192 .f32 := Host.absf main_arg10
  let main_cst_8 : FVec F S_ .f32 := constant S_ .f32 0x7F800000#32
  let main_v25 : FVec F S5x192 .f32 := broadcastInDim S5x192 ![] bcast_S_S5x192 main_cst_8
  let main_v26 : IVec S5x192 1 := cmpf .olt main_v24 main_v25
  let main_c_9 : IVec S_ 1 := constantI S_ 1 1#1
  let main_v27 : IVec S_ 1 := (fun x v => Host.reduce IntOp.andi x v reducesTo_S5x192_S_d0_1 h_S_) main_v26 main_c_9
  let main_v28 : IVec S_ 1 := andi main_v23 main_v27
  let main_v29 : FVec F S5x64x192 .f32 := Host.absf main_arg11
  let main_cst_10 : FVec F S_ .f32 := constant S_ .f32 0x7F800000#32
  let main_v30 : FVec F S5x64x192 .f32 := broadcastInDim S5x64x192 ![] bcast_S_S5x64x192 main_cst_10
  let main_v31 : IVec S5x64x192 1 := cmpf .olt main_v29 main_v30
  let main_c_11 : IVec S_ 1 := constantI S_ 1 1#1
  let main_v32 : IVec S_ 1 := (fun x v => Host.reduce IntOp.andi x v reducesTo_S5x64x192_S_d0_1_2 h_S_) main_v31 main_c_11
  let main_v33 : IVec S_ 1 := andi main_v28 main_v32
  fn_part2 (F := F) main_arg0 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S100000x2 32) (main_arg1 : IVec S2x1600000 32) (main_arg2 : IVec S100000 32) (main_arg3 : IVec S20000 32) (main_arg4 : IVec S2000 32) (main_arg5 : FVec F S5x100x64 .f32) (main_arg6 : FVec F S4x128x64 .f32) (main_arg7 : FVec F S4x64 .f32) (main_arg8 : FVec F S5x64x64 .f32) (main_arg9 : FVec F S5x64x192 .f32) (main_arg10 : FVec F S5x192 .f32) (main_arg11 : FVec F S5x64x192 .f32) (main_arg12 : FVec F S5x192 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) : IVec S_ 1 :=
  let main_v0 : FVec F S5x100x64 .f32 := Host.absf main_arg5
  let main_cst : FVec F S_ .f32 := constant S_ .f32 0x7F800000#32
  let main_v1 : FVec F S5x100x64 .f32 := broadcastInDim S5x100x64 ![] bcast_S_S5x100x64 main_cst
  let main_v2 : IVec S5x100x64 1 := cmpf .olt main_v0 main_v1
  let main_c : IVec S_ 1 := constantI S_ 1 1#1
  let main_v3 : IVec S_ 1 := (fun x v => Host.reduce IntOp.andi x v reducesTo_S5x100x64_S_d0_1_2 h_S_) main_v2 main_c
  let main_v4 : FVec F S4x128x64 .f32 := Host.absf main_arg6
  let main_cst_0 : FVec F S_ .f32 := constant S_ .f32 0x7F800000#32
  let main_v5 : FVec F S4x128x64 .f32 := broadcastInDim S4x128x64 ![] bcast_S_S4x128x64 main_cst_0
  let main_v6 : IVec S4x128x64 1 := cmpf .olt main_v4 main_v5
  let main_c_1 : IVec S_ 1 := constantI S_ 1 1#1
  let main_v7 : IVec S_ 1 := (fun x v => Host.reduce IntOp.andi x v reducesTo_S4x128x64_S_d0_1_2 h_S_) main_v6 main_c_1
  let main_v8 : IVec S_ 1 := andi main_v3 main_v7
  let main_v9 : FVec F S4x64 .f32 := Host.absf main_arg7
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S5x64x64 .f32 := Host.absf main_arg8
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg0 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x2 : Shape := ⟨2, ![100000, 2]⟩
abbrev S2x1600000 : Shape := ⟨2, ![2, 1600000]⟩
abbrev S100000 : Shape := ⟨1, ![100000]⟩
abbrev S20000 : Shape := ⟨1, ![20000]⟩
abbrev S2000 : Shape := ⟨1, ![2000]⟩
abbrev S5x100x64 : Shape := ⟨3, ![5, 100, 64]⟩
abbrev S4x128x64 : Shape := ⟨3, ![4, 128, 64]⟩
abbrev S4x64 : Shape := ⟨2, ![4, 64]⟩
abbrev S5x64x64 : Shape := ⟨3, ![5, 64, 64]⟩
abbrev S5x64x192 : Shape := ⟨3, ![5, 64, 192]⟩
abbrev S5x192 : Shape := ⟨2, ![5, 192]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1x100x64 : Shape := ⟨3, ![1, 100, 64]⟩
abbrev S100x64 : Shape := ⟨2, ![100, 64]⟩
abbrev S100000x64 : Shape := ⟨2, ![100000, 64]⟩
abbrev S2000x2 : Shape := ⟨2, ![2000, 2]⟩
abbrev S2000x64 : Shape := ⟨2, ![2000, 64]⟩
abbrev S2000x100 : Shape := ⟨2, ![2000, 100]⟩
abbrev S2000x1 : Shape := ⟨2, ![2000, 1]⟩
abbrev S_ : Shape := ⟨0, ![]⟩
abbrev S1600000x1 : Shape := ⟨2, ![1600000, 1]⟩
abbrev S1600000x64 : Shape := ⟨2, ![1600000, 64]⟩
abbrev S1x192 : Shape := ⟨2, ![1, 192]⟩
abbrev S192 : Shape := ⟨1, ![192]⟩
abbrev S1x64 : Shape := ⟨2, ![1, 64]⟩
abbrev S1x64x192 : Shape := ⟨3, ![1, 64, 192]⟩
abbrev S64x192 : Shape := ⟨2, ![64, 192]⟩
abbrev S1x128x64 : Shape := ⟨3, ![1, 128, 64]⟩
abbrev S128x64 : Shape := ⟨2, ![128, 64]⟩
abbrev S2000x192 : Shape := ⟨2, ![2000, 192]⟩
abbrev S2000x128 : Shape := ⟨2, ![2000, 128]⟩
abbrev S20000x64 : Shape := ⟨2, ![20000, 64]⟩
abbrev S100000x1 : Shape := ⟨2, ![100000, 1]⟩
abbrev S4000x64 : Shape := ⟨2, ![4000, 64]⟩
abbrev S20000x1 : Shape := ⟨2, ![20000, 1]⟩
abbrev S1x32 : Shape := ⟨2, ![1, 32]⟩
abbrev S1x16 : Shape := ⟨2, ![1, 16]⟩
abbrev S1x1 : Shape := ⟨2, ![1, 1]⟩
abbrev S64x1 : Shape := ⟨2, ![64, 1]⟩
abbrev S64x16 : Shape := ⟨2, ![64, 16]⟩

abbrev nBuf : Space → Nat
  | .hbm => 205
  | .vmem => 97
  | .smem => 0
  | _ => 0

abbrev hbmTy0_0 (i : Nat) : BufTy := match i % 128 with
  | 0 => ⟨S100000x2, .i32⟩
  | 1 => ⟨S2x1600000, .i32⟩
  | 2 => ⟨S100000, .i32⟩
  | 3 => ⟨S20000, .i32⟩
  | 4 => ⟨S2000, .i32⟩
  | 5 => ⟨S5x100x64, .f32⟩
  | 6 => ⟨S4x128x64, .f32⟩
  | 7 => ⟨S4x64, .f32⟩
  | 8 => ⟨S5x64x64, .f32⟩
  | 9 => ⟨S5x64x192, .f32⟩
  | 10 => ⟨S5x192, .f32⟩
  | 11 => ⟨S5x64x192, .f32⟩
  | 12 => ⟨S5x192, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x32, .f32⟩
  | 22 => ⟨S32, .f32⟩
  | 23 => ⟨S32x16, .f32⟩
  | 24 => ⟨S16, .f32⟩
  | 25 => ⟨S16x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S5x64x192, .f32⟩
  | 32 => ⟨S1x100x64, .f32⟩
  | 33 => ⟨S100x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S1x192, .f32⟩
  | 49 => ⟨S192, .f32⟩
  | 50 => ⟨S1x192, .f32⟩
  | 51 => ⟨S1x192, .f32⟩
  | 52 => ⟨S192, .f32⟩
  | 53 => ⟨S1x192, .f32⟩
  | 54 => ⟨S1x64, .f32⟩
  | 55 => ⟨S64, .f32⟩
  | 56 => ⟨S1x64, .f32⟩
  | 57 => ⟨S1x64x192, .f32⟩
  | 58 => ⟨S64x192, .f32⟩
  | 59 => ⟨S1x64x192, .f32⟩
  | 60 => ⟨S64x192, .f32⟩
  | 61 => ⟨S1x100x64, .f32⟩
  | 62 => ⟨S100x64, .f32⟩
  | 63 => ⟨S1x128x64, .f32⟩
  | 64 => ⟨S128x64, .f32⟩
  | 65 => ⟨S100000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1x192, .f32⟩
  | 80 => ⟨S192, .f32⟩
  | 81 => ⟨S1x192, .f32⟩
  | 82 => ⟨S1x192, .f32⟩
  | 83 => ⟨S192, .f32⟩
  | 84 => ⟨S1x192, .f32⟩
  | 85 => ⟨S1x64, .f32⟩
  | 86 => ⟨S64, .f32⟩
  | 87 => ⟨S1x64, .f32⟩
  | 88 => ⟨S1x64x192, .f32⟩
  | 89 => ⟨S64x192, .f32⟩
  | 90 => ⟨S1x64x192, .f32⟩
  | 91 => ⟨S64x192, .f32⟩
  | 92 => ⟨S1x100x64, .f32⟩
  | 93 => ⟨S100x64, .f32⟩
  | 94 => ⟨S1x128x64, .f32⟩
  | 95 => ⟨S128x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S1x192, .f32⟩
  | 111 => ⟨S192, .f32⟩
  | 112 => ⟨S1x192, .f32⟩
  | 113 => ⟨S1x192, .f32⟩
  | 114 => ⟨S192, .f32⟩
  | 115 => ⟨S1x192, .f32⟩
  | 116 => ⟨S1x64, .f32⟩
  | 117 => ⟨S64, .f32⟩
  | 118 => ⟨S1x64, .f32⟩
  | 119 => ⟨S1x64x192, .f32⟩
  | 120 => ⟨S64x192, .f32⟩
  | 121 => ⟨S1x64x192, .f32⟩
  | 122 => ⟨S64x192, .f32⟩
  | 123 => ⟨S1x100x64, .f32⟩
  | 124 => ⟨S100x64, .f32⟩
  | 125 => ⟨S1x128x64, .f32⟩
  | 126 => ⟨S128x64, .f32⟩
  | 127 => ⟨S100000x64, .f32⟩
  | _ => ⟨S100000x2, .i32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S1x192, .f32⟩
  | 14 => ⟨S192, .f32⟩
  | 15 => ⟨S1x192, .f32⟩
  | 16 => ⟨S1x192, .f32⟩
  | 17 => ⟨S192, .f32⟩
  | 18 => ⟨S1x192, .f32⟩
  | 19 => ⟨S1x64, .f32⟩
  | 20 => ⟨S64, .f32⟩
  | 21 => ⟨S1x64, .f32⟩
  | 22 => ⟨S1x64x192, .f32⟩
  | 23 => ⟨S64x192, .f32⟩
  | 24 => ⟨S1x64x192, .f32⟩
  | 25 => ⟨S64x192, .f32⟩
  | 26 => ⟨S1x100x64, .f32⟩
  | 27 => ⟨S100x64, .f32⟩
  | 28 => ⟨S1x128x64, .f32⟩
  | 29 => ⟨S128x64, .f32⟩
  | 30 => ⟨S100000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S1x192, .f32⟩
  | 45 => ⟨S192, .f32⟩
  | 46 => ⟨S1x192, .f32⟩
  | 47 => ⟨S1x192, .f32⟩
  | 48 => ⟨S192, .f32⟩
  | 49 => ⟨S1x192, .f32⟩
  | 50 => ⟨S1x64x192, .f32⟩
  | 51 => ⟨S64x192, .f32⟩
  | 52 => ⟨S1x64x192, .f32⟩
  | 53 => ⟨S64x192, .f32⟩
  | 54 => ⟨S100000x64, .f32⟩
  | 55 => ⟨S_, .f32⟩
  | 56 => ⟨S20000x64, .f32⟩
  | 57 => ⟨S100000x1, .i32⟩
  | 58 => ⟨S20000x64, .f32⟩
  | 59 => ⟨S1x64, .f32⟩
  | 60 => ⟨S1x64, .f32⟩
  | 61 => ⟨S20000x64, .f32⟩
  | 62 => ⟨S_, .f32⟩
  | 63 => ⟨S2000x64, .f32⟩
  | 64 => ⟨S20000x1, .i32⟩
  | 65 => ⟨S2000x64, .f32⟩
  | 66 => ⟨S1x64, .f32⟩
  | 67 => ⟨S1x64, .f32⟩
  | 68 => ⟨S2000x64, .f32⟩
  | 69 => ⟨S_, .f32⟩
  | 70 => ⟨S64x64, .f32⟩
  | 71 => ⟨S2000x1, .i32⟩
  | 72 => ⟨S64x64, .f32⟩
  | 73 => ⟨S1x32, .f32⟩
  | 74 => ⟨S1x16, .f32⟩
  | 75 => ⟨S1x1, .f32⟩
  | 76 => ⟨S64x1, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | .local _ .vmem, ⟨0, _⟩ => ⟨S2000x2, .i32⟩
  | .local _ .vmem, ⟨1, _⟩ => ⟨S2000x2, .i32⟩
  | .local _ .vmem, ⟨2, _⟩ => ⟨S100x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S64x192, .f32⟩
  | .local _ .vmem, ⟨10, _⟩ => ⟨S1x192, .f32⟩
  | .local _ .vmem, ⟨11, _⟩ => ⟨S64x192, .f32⟩
  | .local _ .vmem, ⟨12, _⟩ => ⟨S1x192, .f32⟩
  | .local _ .vmem, ⟨13, _⟩ => ⟨S2000x2, .i32⟩
  | .local _ .vmem, ⟨14, _⟩ => ⟨S2000x2, .i32⟩
  | .local _ .vmem, ⟨15, _⟩ => ⟨S100x64, .f32⟩
  | .local _ .vmem, ⟨16, _⟩ => ⟨S128x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x192, .f32⟩
  | .local _ .vmem, ⟨25, _⟩ => ⟨S1x192, .f32⟩
  | .local _ .vmem, ⟨26, _⟩ => ⟨S64x192, .f32⟩
  | .local _ .vmem, ⟨27, _⟩ => ⟨S1x192, .f32⟩
  | .local _ .vmem, ⟨28, _⟩ => ⟨S2000x2, .i32⟩
  | .local _ .vmem, ⟨29, _⟩ => ⟨S2000x2, .i32⟩
  | .local _ .vmem, ⟨30, _⟩ => ⟨S100x64, .f32⟩
  | .local _ .vmem, ⟨31, _⟩ => ⟨S128x64, .f32⟩
  | .local _ .vmem, ⟨32, _⟩ => ⟨S1x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S64x192, .f32⟩
  | .local _ .vmem, ⟨40, _⟩ => ⟨S1x192, .f32⟩
  | .local _ .vmem, ⟨41, _⟩ => ⟨S64x192, .f32⟩
  | .local _ .vmem, ⟨42, _⟩ => ⟨S1x192, .f32⟩
  | .local _ .vmem, ⟨43, _⟩ => ⟨S2000x2, .i32⟩
  | .local _ .vmem, ⟨44, _⟩ => ⟨S2000x2, .i32⟩
  | .local _ .vmem, ⟨45, _⟩ => ⟨S100x64, .f32⟩
  | .local _ .vmem, ⟨46, _⟩ => ⟨S128x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S64x192, .f32⟩
  | .local _ .vmem, ⟨55, _⟩ => ⟨S1x192, .f32⟩
  | .local _ .vmem, ⟨56, _⟩ => ⟨S64x192, .f32⟩
  | .local _ .vmem, ⟨57, _⟩ => ⟨S1x192, .f32⟩
  | .local _ .vmem, ⟨58, _⟩ => ⟨S2000x2, .i32⟩
  | .local _ .vmem, ⟨59, _⟩ => ⟨S2000x2, .i32⟩
  | .local _ .vmem, ⟨60, _⟩ => ⟨S100x64, .f32⟩
  | .local _ .vmem, ⟨61, _⟩ => ⟨S128x64, .f32⟩
  | .local _ .vmem, ⟨62, _⟩ => ⟨S1x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S64x192, .f32⟩
  | .local _ .vmem, ⟨70, _⟩ => ⟨S1x192, .f32⟩
  | .local _ .vmem, ⟨71, _⟩ => ⟨S64x192, .f32⟩
  | .local _ .vmem, ⟨72, _⟩ => ⟨S1x192, .f32⟩
  | .local _ .vmem, ⟨73, _⟩ => ⟨S2000x64, .f32⟩
  | .local _ .vmem, ⟨74, _⟩ => ⟨S2000x64, .f32⟩
  | .local _ .vmem, ⟨75, _⟩ => ⟨S4000x64, .f32⟩
  | .local _ .vmem, ⟨76, _⟩ => ⟨S4000x64, .f32⟩
  | .local _ .vmem, ⟨77, _⟩ => ⟨S64x64, .f32⟩
  | .local _ .vmem, ⟨78, _⟩ => ⟨S1x64, .f32⟩
  | .local _ .vmem, ⟨79, _⟩ => ⟨S64x64, .f32⟩
  | .local _ .vmem, ⟨80, _⟩ => ⟨S1x64, .f32⟩
  | .local _ .vmem, ⟨81, _⟩ => ⟨S4000x64, .f32⟩
  | .local _ .vmem, ⟨82, _⟩ => ⟨S4000x64, .f32⟩
  | .local _ .vmem, ⟨83, _⟩ => ⟨S2000x64, .f32⟩
  | .local _ .vmem, ⟨84, _⟩ => ⟨S64x64, .f32⟩
  | .local _ .vmem, ⟨85, _⟩ => ⟨S1x64, .f32⟩
  | .local _ .vmem, ⟨86, _⟩ => ⟨S64x64, .f32⟩
  | .local _ .vmem, ⟨87, _⟩ => ⟨S1x64, .f32⟩
  | .local _ .vmem, ⟨88, _⟩ => ⟨S2000x64, .f32⟩
  | .local _ .vmem, ⟨89, _⟩ => ⟨S64x64, .f32⟩
  | .local _ .vmem, ⟨90, _⟩ => ⟨S64x32, .f32⟩
  | .local _ .vmem, ⟨91, _⟩ => ⟨S1x32, .f32⟩
  | .local _ .vmem, ⟨92, _⟩ => ⟨S32x16, .f32⟩
  | .local _ .vmem, ⟨93, _⟩ => ⟨S1x16, .f32⟩
  | .local _ .vmem, ⟨94, _⟩ => ⟨S16x1, .f32⟩
  | .local _ .vmem, ⟨95, _⟩ => ⟨S1x1, .f32⟩
  | .local _ .vmem, ⟨96, _⟩ => ⟨S64x1, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_v8 : Ref sig .tc := ⟨.hbm, 36, rfl⟩
abbrev main_v9 : Ref sig .tc := ⟨.hbm, 37, rfl⟩
abbrev main_c_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_1 : Ref sig .tc := ⟨.hbm, 66, rfl⟩
abbrev main_v36 : Ref sig .tc := ⟨.hbm, 67, rfl⟩
abbrev main_v37 : Ref sig .tc := ⟨.hbm, 68, rfl⟩
abbrev main_c_2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_3 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_4 : Ref sig .tc := ⟨.hbm, 97, rfl⟩
abbrev main_v64 : Ref sig .tc := ⟨.hbm, 98, rfl⟩
abbrev main_v65 : Ref sig .tc := ⟨.hbm, 99, rfl⟩
abbrev main_c_5 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_6 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_7 : Ref sig .tc := ⟨.hbm, 128, rfl⟩
abbrev main_v92 : Ref sig .tc := ⟨.hbm, 129, rfl⟩
abbrev main_v93 : Ref sig .tc := ⟨.hbm, 130, rfl⟩
abbrev main_c_8 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_9 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_10 : Ref sig .tc := ⟨.hbm, 159, rfl⟩
abbrev main_v120 : Ref sig .tc := ⟨.hbm, 160, rfl⟩
abbrev main_v121 : Ref sig .tc := ⟨.hbm, 161, rfl⟩
abbrev main_c_11 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_12 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_13 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_14 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_15 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg10_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg10_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg6_1 : Ref sig .tc := ⟨.vmem, 59, rfl⟩
abbrev cc4_stg7_0 : Ref sig .tc := ⟨.vmem, 60, rfl⟩
abbrev cc4_stg8_0 : Ref sig .tc := ⟨.vmem, 61, rfl⟩
abbrev cc4_stg9_0 : Ref sig .tc := ⟨.vmem, 62, rfl⟩
abbrev cc4_stg10_0 : Ref sig .tc := ⟨.vmem, 63, rfl⟩
abbrev cc4_stg10_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg6_1 : Ref sig .tc := ⟨.vmem, 74, rfl⟩
abbrev cc6_stg0_0 : Ref sig .tc := ⟨.vmem, 75, rfl⟩
abbrev cc6_stg0_1 : Ref sig .tc := ⟨.vmem, 76, rfl⟩
abbrev cc6_stg1_0 : Ref sig .tc := ⟨.vmem, 77, rfl⟩
abbrev cc6_stg2_0 : Ref sig .tc := ⟨.vmem, 78, rfl⟩
abbrev cc6_stg3_0 : Ref sig .tc := ⟨.vmem, 79, rfl⟩
abbrev cc6_stg4_0 : Ref sig .tc := ⟨.vmem, 80, rfl⟩
abbrev cc6_stg5_0 : Ref sig .tc := ⟨.vmem, 81, rfl⟩
abbrev cc6_stg5_1 : Ref sig .tc := ⟨.vmem, 82, rfl⟩
abbrev cc7_stg0_0 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc8_stg0_0 : Ref sig .tc := ⟨.vmem, 89, rfl⟩
abbrev cc8_stg1_0 : Ref sig .tc := ⟨.vmem, 90, rfl⟩
abbrev cc8_stg2_0 : Ref sig .tc := ⟨.vmem, 91, rfl⟩
abbrev cc8_stg3_0 : Ref sig .tc := ⟨.vmem, 92, rfl⟩
abbrev cc8_stg4_0 : Ref sig .tc := ⟨.vmem, 93, rfl⟩
abbrev cc8_stg5_0 : Ref sig .tc := ⟨.vmem, 94, rfl⟩
abbrev cc8_stg6_0 : Ref sig .tc := ⟨.vmem, 95, rfl⟩
abbrev cc8_stg7_0 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem10_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem6_1 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem10_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem6_1 : DmaSem sig := 59
abbrev cc4_sem7_0 : DmaSem sig := 60
abbrev cc4_sem8_0 : DmaSem sig := 61
abbrev cc4_sem9_0 : DmaSem sig := 62
abbrev cc4_sem10_0 : DmaSem sig := 63
abbrev cc4_sem10_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem6_1 : DmaSem sig := 74
abbrev cc6_sem0_0 : DmaSem sig := 75
abbrev cc6_sem0_1 : DmaSem sig := 76
abbrev cc6_sem1_0 : DmaSem sig := 77
abbrev cc6_sem2_0 : DmaSem sig := 78
abbrev cc6_sem3_0 : DmaSem sig := 79
abbrev cc6_sem4_0 : DmaSem sig := 80
abbrev cc6_sem5_0 : DmaSem sig := 81
abbrev cc6_sem5_1 : DmaSem sig := 82
abbrev cc7_sem0_0 : DmaSem sig := 83
abbrev cc7_sem1_0 : DmaSem sig := 84
abbrev cc7_sem2_0 : DmaSem sig := 85
abbrev cc7_sem3_0 : DmaSem sig := 86
abbrev cc7_sem4_0 : DmaSem sig := 87
abbrev cc7_sem5_0 : DmaSem sig := 88
abbrev cc8_sem0_0 : DmaSem sig := 89
abbrev cc8_sem1_0 : DmaSem sig := 90
abbrev cc8_sem2_0 : DmaSem sig := 91
abbrev cc8_sem3_0 : DmaSem sig := 92
abbrev cc8_sem4_0 : DmaSem sig := 93
abbrev cc8_sem5_0 : DmaSem sig := 94
abbrev cc8_sem6_0 : DmaSem sig := 95
abbrev cc8_sem7_0 : DmaSem sig := 96

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x2 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S100x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x2 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S100x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x2 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S100x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x2 .i32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S100x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x64 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S2000x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S2000x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S16x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S64x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x100x64_S1x100x64_0_0_0 : S5x100x64.Slices ![0, 0, 0] S1x100x64
  shapeCasts_S1x100x64_S100x64 : S1x100x64.ShapeCasts S100x64
  inb_S2000x2_S2000x2_0_0 : ∀ a, (![0, 0] : Fin 2 → Nat) a + S2000x2.size a ≤ S2000x2.size a
  h_S2000x2 : 0 < S2000x2.numel
  inb_S100x64_S100x64_0_0 : ∀ a, (![0, 0] : Fin 2 → Nat) a + S100x64.size a ≤ S100x64.size a
  h_S100x64 : 0 < S100x64.numel
  shapeCasts_S100x64_S100x64 : S100x64.ShapeCasts S100x64
  iota_S2000x100_d1_w32 : S2000x100.Iotas .tc 32 [1]
  slices_S2000x2_o0_0_S2000x1 : S2000x2.Slices ![0, 0] S2000x1
  slices_S2000x2_o0_1_S2000x1 : S2000x2.Slices ![0, 1] S2000x1
  broadcasts_S2000x1_S2000x100 : S2000x1.Broadcasts S2000x100
  natLt_1_32 : 1 < 32
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S5x192_S1x192_0_0 : S5x192.Slices ![0, 0] S1x192
  shapeCasts_S1x192_S192 : S1x192.ShapeCasts S192
  shapeCasts_S192_S1x192 : S192.ShapeCasts S1x192
  slices_S4x64_S1x64_0_0 : S4x64.Slices ![0, 0] S1x64
  shapeCasts_S1x64_S64 : S1x64.ShapeCasts S64
  shapeCasts_S64_S1x64 : S64.ShapeCasts S1x64
  slices_S5x64x192_S1x64x192_0_0_0 : S5x64x192.Slices ![0, 0, 0] S1x64x192
  shapeCasts_S1x64x192_S64x192 : S1x64x192.ShapeCasts S64x192
  slices_S5x100x64_S1x100x64_1_0_0 : S5x100x64.Slices ![1, 0, 0] S1x100x64
  slices_S4x128x64_S1x128x64_0_0_0 : S4x128x64.Slices ![0, 0, 0] S1x128x64
  shapeCasts_S1x128x64_S128x64 : S1x128x64.ShapeCasts S128x64
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S5x192_S1x192_1_0 : S5x192.Slices ![1, 0] S1x192
  slices_S4x64_S1x64_1_0 : S4x64.Slices ![1, 0] S1x64
  slices_S5x64x192_S1x64x192_1_0_0 : S5x64x192.Slices ![1, 0, 0] S1x64x192
  slices_S5x100x64_S1x100x64_2_0_0 : S5x100x64.Slices ![2, 0, 0] S1x100x64
  slices_S4x128x64_S1x128x64_1_0_0 : S4x128x64.Slices ![1, 0, 0] S1x128x64
  slices_S5x192_S1x192_2_0 : S5x192.Slices ![2, 0] S1x192
  slices_S4x64_S1x64_2_0 : S4x64.Slices ![2, 0] S1x64
  slices_S5x64x192_S1x64x192_2_0_0 : S5x64x192.Slices ![2, 0, 0] S1x64x192
  slices_S5x100x64_S1x100x64_3_0_0 : S5x100x64.Slices ![3, 0, 0] S1x100x64
  slices_S4x128x64_S1x128x64_2_0_0 : S4x128x64.Slices ![2, 0, 0] S1x128x64
  slices_S5x192_S1x192_3_0 : S5x192.Slices ![3, 0] S1x192
  slices_S4x64_S1x64_3_0 : S4x64.Slices ![3, 0] S1x64
  slices_S5x64x192_S1x64x192_3_0_0 : S5x64x192.Slices ![3, 0, 0] S1x64x192
  slices_S5x100x64_S1x100x64_4_0_0 : S5x100x64.Slices ![4, 0, 0] S1x100x64
  slices_S4x128x64_S1x128x64_3_0_0 : S4x128x64.Slices ![3, 0, 0] S1x128x64
  slices_S5x192_S1x192_4_0 : S5x192.Slices ![4, 0] S1x192
  slices_S5x64x192_S1x64x192_4_0_0 : S5x64x192.Slices ![4, 0, 0] S1x64x192
  bcast_S_S20000x64 : S_.BroadcastsInDim S20000x64 (![] : Fin 0 → Fin S20000x64.rank)
  bcast_S100000_S100000x1_0 : S100000.BroadcastsInDim S100000x1 (![0] : Fin 1 → Fin S100000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  broadcasts_S1x64_S4000x64 : S1x64.Broadcasts S4000x64
  bcast_S_S2000x64 : S_.BroadcastsInDim S2000x64 (![] : Fin 0 → Fin S2000x64.rank)
  bcast_S20000_S20000x1_0 : S20000.BroadcastsInDim S20000x1 (![0] : Fin 1 → Fin S20000x1.rank)
  bcast_S_S64x64 : S_.BroadcastsInDim S64x64 (![] : Fin 0 → Fin S64x64.rank)
  bcast_S2000_S2000x1_0 : S2000.BroadcastsInDim S2000x1 (![0] : Fin 1 → Fin S2000x1.rank)
  shapeCasts_S32_S1x32 : S32.ShapeCasts S1x32
  shapeCasts_S16_S1x16 : S16.ShapeCasts S1x16
  shapeCasts_S1_S1x1 : S1.ShapeCasts S1x1
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S5x64x64_S5x64x192_S5x64x192_2_1_1_2_0_0_wf : DotDims.WF S5x64x64 S5x64x192 S5x64x192 [2] [1] [1] [2] [0] [0]
  dot_S2000x100_S100x64_S2000x64_1_0_0_1_n_n_wf : DotDims.WF S2000x100 S100x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x192_S2000x192_1_0_0_1_n_n_wf : DotDims.WF S2000x64 S64x192 S2000x192 [1] [0] [0] [1] [] []
  dot_S2000x128_S128x64_S2000x64_1_0_0_1_n_n_wf : DotDims.WF S2000x128 S128x64 S2000x64 [1] [0] [0] [1] [] []
  scatter_S20000x64_S100000x1_S100000x64_1_0_0_1_wf : ScatterDims.WF S20000x64 S100000x1 S100000x64 [1] [0] [0] 1
  dot_S4000x64_S64x64_S4000x64_1_0_0_1_n_n_wf : DotDims.WF S4000x64 S64x64 S4000x64 [1] [0] [0] [1] [] []
  scatter_S2000x64_S20000x1_S20000x64_1_0_0_1_wf : ScatterDims.WF S2000x64 S20000x1 S20000x64 [1] [0] [0] 1
  dot_S2000x64_S64x64_S2000x64_1_0_0_1_n_n_wf : DotDims.WF S2000x64 S64x64 S2000x64 [1] [0] [0] [1] [] []
  scatter_S64x64_S2000x1_S2000x64_1_0_0_1_wf : ScatterDims.WF S64x64 S2000x1 S2000x64 [1] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S100000x2.size a
  hwx0_0 : ∀ i : grid0.Coords, EltTy.bits .i32 = 32 ∨ (Rect.block (s := S100000x2) S2000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x192.size a ≤ S64x192.size a
  hwx1_4 : ∀ i : grid1.Coords, EltTy.bits .f32 = 32 ∨ (Rect.block (s := S64x192) S64x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x2.size a ≤ S100000x2.size a
  hwx1_6 : ∀ i : grid1.Coords, EltTy.bits .i32 = 32 ∨ (Rect.block (s := S100000x2) S2000x2.size (cc1_transform_6 i) (hinb1_6 i)).WholeWords (EltTy.packing .i32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100x64.size a ≤ S100x64.size a
  hwx1_7 : ∀ i : grid1.Coords, EltTy.bits .f32 = 32 ∨ (Rect.block (s := S100x64) S100x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x64.size a ≤ S100000x64.size a
  hwx1_10 : ∀ i : grid1.Coords, EltTy.bits .f32 = 32 ∨ (Rect.block (s := S100000x64) S2000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x192.size a ≤ S64x192.size a
  hwx2_2 : ∀ i : grid2.Coords, EltTy.bits .f32 = 32 ∨ (Rect.block (s := S64x192) S64x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x192.size a ≤ S1x192.size a
  hwx2_3 : ∀ i : grid2.Coords, EltTy.bits .f32 = 32 ∨ (Rect.block (s := S1x192) S1x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x192.size a ≤ S64x192.size a
  hwx2_4 : ∀ i : grid2.Coords, EltTy.bits .f32 = 32 ∨ (Rect.block (s := S64x192) S64x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x192.size a ≤ S1x192.size a
  hwx2_5 : ∀ i : grid2.Coords, EltTy.bits .f32 = 32 ∨ (Rect.block (s := S1x192) S1x192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x2.size a ≤ S100000x2.size a
  hwx2_6 : ∀ i : grid2.Coords, EltTy.bits .i32 = 32 ∨ (Rect.block (s := S100000x2) S2000x2.size (cc2_transform_6 i) (hinb2_6 i)).WholeWords (EltTy.packing .i32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S100x64.size a ≤ S100x64.size a
  hwx2_7 : ∀ i : grid2.Coords, EltTy.bits .f32 = 32 ∨ (Rect.block (s := S100x64) S100x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x64.size a ≤ S100000x64.size a
  hwx2_10 : ∀ i : grid2.Coords, EltTy.bits .f32 = 32 ∨ (Rect.block (s := S100000x64) S2000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x192.size a ≤ S1x192.size a
  hwx3_3 : ∀ i : grid3.Coords, EltTy.bits .f32 = 32 ∨ (Rect.block (s := S1x192) S1x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x192.size a ≤ S64x192.size a
  hwx3_4 : ∀ i : grid3.Coords, EltTy.bits .f32 = 32 ∨ (Rect.block (s := S64x192) S64x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x2.size a ≤ S100000x2.size a
  hwx3_6 : ∀ i : grid3.Coords, EltTy.bits .i32 = 32 ∨ (Rect.block (s := S100000x2) S2000x2.size (cc3_transform_6 i) (hinb3_6 i)).WholeWords (EltTy.packing .i32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S100x64.size a ≤ S100x64.size a
  hwx3_7 : ∀ i : grid3.Coords, EltTy.bits .f32 = 32 ∨ (Rect.block (s := S100x64) S100x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x64.size a ≤ S128x64.size a
  hwx3_8 : ∀ i : grid3.Coords, EltTy.bits .f32 = 32 ∨ (Rect.block (s := S128x64) S128x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x64.size a ≤ S100000x64.size a
  hwx3_10 : ∀ i : grid3.Coords, EltTy.bits .f32 = 32 ∨ (Rect.block (s := S100000x64) S2000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x192.size a ≤ S64x192.size a
  hwx4_2 : ∀ i : grid4.Coords, EltTy.bits .f32 = 32 ∨ (Rect.block (s := S64x192) S64x192.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x192.size a ≤ S1x192.size a
  hwx4_3 : ∀ i : grid4.Coords, EltTy.bits .f32 = 32 ∨ (Rect.block (s := S1x192) S1x192.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x192.size a ≤ S64x192.size a
  hwx4_4 : ∀ i : grid4.Coords, EltTy.bits .f32 = 32 ∨ (Rect.block (s := S64x192) S64x192.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x192.size a ≤ S1x192.size a
  hwx4_5 : ∀ i : grid4.Coords, EltTy.bits .f32 = 32 ∨ (Rect.block (s := S1x192) S1x192.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x2.size a ≤ S100000x2.size a
  hwx4_6 : ∀ i : grid4.Coords, EltTy.bits .i32 = 32 ∨ (Rect.block (s := S100000x2) S2000x2.size (cc4_transform_6 i) (hinb4_6 i)).WholeWords (EltTy.packing .i32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S100x64.size a ≤ S100x64.size a
  hwx4_7 : ∀ i : grid4.Coords, EltTy.bits .f32 = 32 ∨ (Rect.block (s := S100x64) S100x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x64.size a ≤ S128x64.size a
  hwx4_8 : ∀ i : grid4.Coords, EltTy.bits .f32 = 32 ∨ (Rect.block (s := S128x64) S128x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x64.size a ≤ S100000x64.size a
  hwx4_10 : ∀ i : grid4.Coords, EltTy.bits .f32 = 32 ∨ (Rect.block (s := S100000x64) S2000x64.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .f32 = 32 ∨ (Rect.block (s := S64x192) S64x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x192.size a ≤ S1x192.size a
  hwx5_3 : ∀ i : grid5.Coords, EltTy.bits .f32 = 32 ∨ (Rect.block (s := S1x192) S1x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x192.size a ≤ S64x192.size a
  hwx5_4 : ∀ i : grid5.Coords, EltTy.bits .f32 = 32 ∨ (Rect.block (s := S64x192) S64x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S100000x64.size a
  hwx5_6 : ∀ i : grid5.Coords, EltTy.bits .f32 = 32 ∨ (Rect.block (s := S100000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S20000x64.size a
  hwx6_0 : ∀ i : grid6.Coords, EltTy.bits .f32 = 32 ∨ (Rect.block (s := S20000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x64.size a ≤ S20000x64.size a
  hwx6_5 : ∀ i : grid6.Coords, EltTy.bits .f32 = 32 ∨ (Rect.block (s := S20000x64) S4000x64.size (cc6_transform_5 i) (hinb6_5 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S2000x64.size a
  hwx7_0 : ∀ i : grid7.Coords, EltTy.bits .f32 = 32 ∨ (Rect.block (s := S2000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S2000x64.size a ≤ S2000x64.size a
  hwx7_5 : ∀ i : grid7.Coords, EltTy.bits .f32 = 32 ∨ (Rect.block (s := S2000x64) S2000x64.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x64.size a ≤ S64x64.size a
  hwx8_0 : ∀ i : grid8.Coords, EltTy.bits .f32 = 32 ∨ (Rect.block (s := S64x64) S64x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x16.size a ≤ S32x16.size a
  hwx8_3 : ∀ i : grid8.Coords, EltTy.bits .f32 = 32 ∨ (Rect.block (s := S32x16) S32x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x16.size a ≤ S1x16.size a
  hwx8_4 : ∀ i : grid8.Coords, EltTy.bits .f32 = 32 ∨ (Rect.block (s := S1x16) S1x16.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S16x1.size a ≤ S16x1.size a
  hwx8_5 : ∀ i : grid8.Coords, EltTy.bits .f32 = 32 ∨ (Rect.block (s := S16x1) S16x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x1.size a ≤ S1x1.size a
  hwx8_6 : ∀ i : grid8.Coords, EltTy.bits .f32 = 32 ∨ (Rect.block (s := S1x1) S1x1.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S64x1.size a ≤ S64x1.size a
  hwx8_7 : ∀ i : grid8.Coords, EltTy.bits .f32 = 32 ∨ (Rect.block (s := S64x1) S64x1.size (cc8_transform_7 i) (hinb8_7 i)).WholeWords (EltTy.packing .f32)

variable [Facts₀]

def dot_S5x64x64_S5x64x192_S5x64x192_2_1_1_2_0_0 : DotDims S5x64x64 S5x64x192 S5x64x192 where
  lhsContracting := [2]
  rhsContracting := [1]
  lhsNonContracting := [1]
  rhsNonContracting := [2]
  lhsBatch := [0]
  rhsBatch := [0]
  wf := dot_S5x64x64_S5x64x192_S5x64x192_2_1_1_2_0_0_wf
def dot_S2000x100_S100x64_S2000x64_1_0_0_1_n_n : DotDims S2000x100 S100x64 S2000x64 where
  lhsContracting := [1]
  rhsContracting := [0]
  lhsNonContracting := [0]
  rhsNonContracting := [1]
  lhsBatch := []
  rhsBatch := []
  wf := dot_S2000x100_S100x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S20000x64_S100000x1_S100000x64_1_0_0_1 : ScatterDims S20000x64 S100000x1 S100000x64 where
  updateWindowDims := [1]
  insertedWindowDims := [0]
  scatterDimsToOperandDims := [0]
  indexVectorDim := 1
  wf := scatter_S20000x64_S100000x1_S100000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S2000x64_S20000x1_S20000x64_1_0_0_1 : ScatterDims S2000x64 S20000x1 S20000x64 where
  updateWindowDims := [1]
  insertedWindowDims := [0]
  scatterDimsToOperandDims := [0]
  indexVectorDim := 1
  wf := scatter_S2000x64_S20000x1_S20000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64x64_S2000x1_S2000x64_1_0_0_1 : ScatterDims S64x64 S2000x1 S2000x64 where
  updateWindowDims := [1]
  insertedWindowDims := [0]
  scatterDimsToOperandDims := [0]
  indexVectorDim := 1
  wf := scatter_S64x64_S2000x1_S2000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S64x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S2000x2.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32) S100x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v35) S2000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S64x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S64x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg0) S2000x2.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v60) S100x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v54) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v63) S2000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v73) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S64x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg0) S2000x2.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v88) S100x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v90) S128x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v82) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v91) S2000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v101) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v112) S64x192.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x192.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v114) S64x192.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v107) S1x192.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg0) S2000x2.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v116) S100x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v118) S128x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v110) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v119) S2000x64.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v129) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v137) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v132) S1x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v139) S64x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v135) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v140) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v143) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v144) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v145) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v146) S4000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v149) S2000x64.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg17) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v150) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg19) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v151) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v152) S2000x64.size cc7_transform_5 reads7_5 true false 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v155) S64x64.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg21) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v156) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg23) S32x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v157) S1x16.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg25) S16x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v158) S1x1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v159) S64x1.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S100000 : Shape := ⟨1, ![100000]⟩
abbrev S20000 : Shape := ⟨1, ![20000]⟩
abbrev S2000 : Shape := ⟨1, ![2000]⟩
abbrev S5x100x64 : Shape := ⟨3, ![5, 100, 64]⟩
abbrev S4x128x64 : Shape := ⟨3, ![4, 128, 64]⟩
abbrev S4x64 : Shape := ⟨2, ![4, 64]⟩
abbrev S5x64x64 : Shape := ⟨3, ![5, 64, 64]⟩
abbrev S5x64x192 : Shape := ⟨3, ![5, 64, 192]⟩
abbrev S5x192 : Shape := ⟨2, ![5, 192]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1x100x64 : Shape := ⟨3, ![1, 100, 64]⟩
abbrev S100x64 : Shape := ⟨2, ![100, 64]⟩
abbrev S_ : Shape := ⟨0, ![]⟩
abbrev S100000x2x1 : Shape := ⟨3, ![100000, 2, 1]⟩
abbrev S100000x2x64 : Shape := ⟨3, ![100000, 2, 64]⟩
abbrev S100000x64 : Shape := ⟨2, ![100000, 64]⟩
abbrev S1x64x64 : Shape := ⟨3, ![1, 64, 64]⟩
abbrev S1x64x192 : Shape := ⟨3, ![1, 64, 192]⟩
abbrev S64x192 : Shape := ⟨2, ![64, 192]⟩
abbrev S1x192 : Shape := ⟨2, ![1, 192]⟩
abbrev S192 : Shape := ⟨1, ![192]⟩
abbrev S1600000x1 : Shape := ⟨2, ![1600000, 1]⟩
abbrev S1600000x64 : Shape := ⟨2, ![1600000, 64]⟩
abbrev S100000x192 : Shape := ⟨2, ![100000, 192]⟩
abbrev S100000x128 : Shape := ⟨2, ![100000, 128]⟩
abbrev S1x128x64 : Shape := ⟨3, ![1, 128, 64]⟩
abbrev S128x64 : Shape := ⟨2, ![128, 64]⟩
abbrev S1x64 : Shape := ⟨2, ![1, 64]⟩
abbrev S20000x64 : Shape := ⟨2, ![20000, 64]⟩
abbrev S100000x1 : Shape := ⟨2, ![100000, 1]⟩
abbrev S2000x64 : Shape := ⟨2, ![2000, 64]⟩
abbrev S20000x1 : Shape := ⟨2, ![20000, 1]⟩
abbrev S2000x1 : Shape := ⟨2, ![2000, 1]⟩
abbrev S1x32 : Shape := ⟨2, ![1, 32]⟩
abbrev S64x16 : Shape := ⟨2, ![64, 16]⟩
abbrev S1x16 : Shape := ⟨2, ![1, 16]⟩
abbrev S64x1 : Shape := ⟨2, ![64, 1]⟩
abbrev S1x1 : Shape := ⟨2, ![1, 1]⟩

abbrev nBuf : Space → Nat
  | .hbm => 533
  | .vmem => 0
  | .smem => 0
  | _ => 0

abbrev hbmTy0_0 (i : Nat) : BufTy := match i % 128 with
  | 0 => ⟨S100000x2, .i32⟩
  | 1 => ⟨S2x1600000, .i32⟩
  | 2 => ⟨S100000, .i32⟩
  | 3 => ⟨S20000, .i32⟩
  | 4 => ⟨S2000, .i32⟩
  | 5 => ⟨S5x100x64, .f32⟩
  | 6 => ⟨S4x128x64, .f32⟩
  | 7 => ⟨S4x64, .f32⟩
  | 8 => ⟨S5x64x64, .f32⟩
  | 9 => ⟨S5x64x192, .f32⟩
  | 10 => ⟨S5x192, .f32⟩
  | 11 => ⟨S5x64x192, .f32⟩
  | 12 => ⟨S5x192, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x32, .f32⟩
  | 22 => ⟨S32, .f32⟩
  | 23 => ⟨S32x16, .f32⟩
  | 24 => ⟨S16, .f32⟩
  | 25 => ⟨S16x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S1x100x64, .f32⟩
  | 32 => ⟨S100x64, .f32⟩
  | 33 => ⟨S_, .i32⟩
  | 34 => ⟨S100000x2, .i32⟩
  | 35 => ⟨S100000x2, .i1⟩
  | 36 => ⟨S_, .i32⟩
  | 37 => ⟨S100000x2, .i32⟩
  | 38 => ⟨S100000x2, .i32⟩
  | 39 => ⟨S100000x2, .i32⟩
  | 40 => ⟨S100000x2x1, .i32⟩
  | 41 => ⟨S100000x2x64, .f32⟩
  | 42 => ⟨S_, .f32⟩
  | 43 => ⟨S100000x64, .f32⟩
  | 44 => ⟨S1x64x64, .f32⟩
  | 45 => ⟨S64x64, .f32⟩
  | 46 => ⟨S1x64x192, .f32⟩
  | 47 => ⟨S64x192, .f32⟩
  | 48 => ⟨S1x192, .f32⟩
  | 49 => ⟨S192, .f32⟩
  | 50 => ⟨S1x64x192, .f32⟩
  | 51 => ⟨S64x192, .f32⟩
  | 52 => ⟨S1x192, .f32⟩
  | 53 => ⟨S192, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x192, .f32⟩
  | 69 => ⟨S1x192, .f32⟩
  | 70 => ⟨S100000x192, .f32⟩
  | 71 => ⟨S100000x192, .f32⟩
  | 72 => ⟨S100000x192, .f32⟩
  | 73 => ⟨S1x192, .f32⟩
  | 74 => ⟨S100000x192, .f32⟩
  | 75 => ⟨S100000x192, .f32⟩
  | 76 => ⟨S100000x64, .f32⟩
  | 77 => ⟨S100000x64, .f32⟩
  | 78 => ⟨S100000x64, .f32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S1x100x64, .f32⟩
  | 110 => ⟨S100x64, .f32⟩
  | 111 => ⟨S_, .i32⟩
  | 112 => ⟨S100000x2, .i32⟩
  | 113 => ⟨S100000x2, .i1⟩
  | 114 => ⟨S_, .i32⟩
  | 115 => ⟨S100000x2, .i32⟩
  | 116 => ⟨S100000x2, .i32⟩
  | 117 => ⟨S100000x2, .i32⟩
  | 118 => ⟨S100000x2x1, .i32⟩
  | 119 => ⟨S100000x2x64, .f32⟩
  | 120 => ⟨S_, .f32⟩
  | 121 => ⟨S100000x64, .f32⟩
  | 122 => ⟨S100000x128, .f32⟩
  | 123 => ⟨S1x128x64, .f32⟩
  | 124 => ⟨S128x64, .f32⟩
  | 125 => ⟨S100000x64, .f32⟩
  | 126 => ⟨S1x64, .f32⟩
  | 127 => ⟨S64, .f32⟩
  | _ => ⟨S100000x2, .i32⟩

abbrev hbmTy0_1 (i : Nat) : BufTy := match i % 128 with
  | 0 => ⟨S1x64, .f32⟩
  | 1 => ⟨S100000x64, .f32⟩
  | 2 => ⟨S100000x64, .f32⟩
  | 3 => ⟨S1x64x64, .f32⟩
  | 4 => ⟨S64x64, .f32⟩
  | 5 => ⟨S1x64x192, .f32⟩
  | 6 => ⟨S64x192, .f32⟩
  | 7 => ⟨S1x192, .f32⟩
  | 8 => ⟨S192, .f32⟩
  | 9 => ⟨S1x64x192, .f32⟩
  | 10 => ⟨S64x192, .f32⟩
  | 11 => ⟨S1x192, .f32⟩
  | 12 => ⟨S192, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000x192, .f32⟩
  | 28 => ⟨S1x192, .f32⟩
  | 29 => ⟨S100000x192, .f32⟩
  | 30 => ⟨S100000x192, .f32⟩
  | 31 => ⟨S100000x192, .f32⟩
  | 32 => ⟨S1x192, .f32⟩
  | 33 => ⟨S100000x192, .f32⟩
  | 34 => ⟨S100000x192, .f32⟩
  | 35 => ⟨S100000x64, .f32⟩
  | 36 => ⟨S100000x64, .f32⟩
  | 37 => ⟨S100000x64, .f32⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S1x100x64, .f32⟩
  | 69 => ⟨S100x64, .f32⟩
  | 70 => ⟨S_, .i32⟩
  | 71 => ⟨S100000x2, .i32⟩
  | 72 => ⟨S100000x2, .i1⟩
  | 73 => ⟨S_, .i32⟩
  | 74 => ⟨S100000x2, .i32⟩
  | 75 => ⟨S100000x2, .i32⟩
  | 76 => ⟨S100000x2, .i32⟩
  | 77 => ⟨S100000x2x1, .i32⟩
  | 78 => ⟨S100000x2x64, .f32⟩
  | 79 => ⟨S_, .f32⟩
  | 80 => ⟨S100000x64, .f32⟩
  | 81 => ⟨S100000x128, .f32⟩
  | 82 => ⟨S1x128x64, .f32⟩
  | 83 => ⟨S128x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S1x64x64, .f32⟩
  | 91 => ⟨S64x64, .f32⟩
  | 92 => ⟨S1x64x192, .f32⟩
  | 93 => ⟨S64x192, .f32⟩
  | 94 => ⟨S1x192, .f32⟩
  | 95 => ⟨S192, .f32⟩
  | 96 => ⟨S1x64x192, .f32⟩
  | 97 => ⟨S64x192, .f32⟩
  | 98 => ⟨S1x192, .f32⟩
  | 99 => ⟨S192, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000x192, .f32⟩
  | 115 => ⟨S1x192, .f32⟩
  | 116 => ⟨S100000x192, .f32⟩
  | 117 => ⟨S100000x192, .f32⟩
  | 118 => ⟨S100000x192, .f32⟩
  | 119 => ⟨S1x192, .f32⟩
  | 120 => ⟨S100000x192, .f32⟩
  | 121 => ⟨S100000x192, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S100000x2, .i32⟩

abbrev hbmTy0_2 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S100000x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S100000x64, .f32⟩
  | 26 => ⟨S100000x64, .f32⟩
  | 27 => ⟨S1x100x64, .f32⟩
  | 28 => ⟨S100x64, .f32⟩
  | 29 => ⟨S_, .i32⟩
  | 30 => ⟨S100000x2, .i32⟩
  | 31 => ⟨S100000x2, .i1⟩
  | 32 => ⟨S_, .i32⟩
  | 33 => ⟨S100000x2, .i32⟩
  | 34 => ⟨S100000x2, .i32⟩
  | 35 => ⟨S100000x2, .i32⟩
  | 36 => ⟨S100000x2x1, .i32⟩
  | 37 => ⟨S100000x2x64, .f32⟩
  | 38 => ⟨S_, .f32⟩
  | 39 => ⟨S100000x64, .f32⟩
  | 40 => ⟨S100000x128, .f32⟩
  | 41 => ⟨S1x128x64, .f32⟩
  | 42 => ⟨S128x64, .f32⟩
  | 43 => ⟨S100000x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S1x64x64, .f32⟩
  | 50 => ⟨S64x64, .f32⟩
  | 51 => ⟨S1x64x192, .f32⟩
  | 52 => ⟨S64x192, .f32⟩
  | 53 => ⟨S1x192, .f32⟩
  | 54 => ⟨S192, .f32⟩
  | 55 => ⟨S1x64x192, .f32⟩
  | 56 => ⟨S64x192, .f32⟩
  | 57 => ⟨S1x192, .f32⟩
  | 58 => ⟨S192, .f32⟩
  | 59 => ⟨S100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000x192, .f32⟩
  | 74 => ⟨S1x192, .f32⟩
  | 75 => ⟨S100000x192, .f32⟩
  | 76 => ⟨S100000x192, .f32⟩
  | 77 => ⟨S100000x192, .f32⟩
  | 78 => ⟨S1x192, .f32⟩
  | 79 => ⟨S100000x192, .f32⟩
  | 80 => ⟨S100000x192, .f32⟩
  | 81 => ⟨S100000x64, .f32⟩
  | 82 => ⟨S100000x64, .f32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S1x100x64, .f32⟩
  | 115 => ⟨S100x64, .f32⟩
  | 116 => ⟨S_, .i32⟩
  | 117 => ⟨S100000x2, .i32⟩
  | 118 => ⟨S100000x2, .i1⟩
  | 119 => ⟨S_, .i32⟩
  | 120 => ⟨S100000x2, .i32⟩
  | 121 => ⟨S100000x2, .i32⟩
  | 122 => ⟨S100000x2, .i32⟩
  | 123 => ⟨S100000x2x1, .i32⟩
  | 124 => ⟨S100000x2x64, .f32⟩
  | 125 => ⟨S_, .f32⟩
  | 126 => ⟨S100000x64, .f32⟩
  | 127 => ⟨S100000x128, .f32⟩
  | _ => ⟨S100000x2, .i32⟩

abbrev hbmTy0_3 (i : Nat) : BufTy := match i % 128 with
  | 0 => ⟨S1x128x64, .f32⟩
  | 1 => ⟨S128x64, .f32⟩
  | 2 => ⟨S100000x64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S1x64x64, .f32⟩
  | 9 => ⟨S64x64, .f32⟩
  | 10 => ⟨S1x64x192, .f32⟩
  | 11 => ⟨S64x192, .f32⟩
  | 12 => ⟨S1x192, .f32⟩
  | 13 => ⟨S192, .f32⟩
  | 14 => ⟨S1x64x192, .f32⟩
  | 15 => ⟨S64x192, .f32⟩
  | 16 => ⟨S1x192, .f32⟩
  | 17 => ⟨S192, .f32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x192, .f32⟩
  | 33 => ⟨S1x192, .f32⟩
  | 34 => ⟨S100000x192, .f32⟩
  | 35 => ⟨S100000x192, .f32⟩
  | 36 => ⟨S100000x192, .f32⟩
  | 37 => ⟨S1x192, .f32⟩
  | 38 => ⟨S100000x192, .f32⟩
  | 39 => ⟨S100000x192, .f32⟩
  | 40 => ⟨S100000x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S20000x64, .f32⟩
  | 75 => ⟨S100000x1, .i32⟩
  | 76 => ⟨S20000x64, .f32⟩
  | 77 => ⟨S20000x64, .f32⟩
  | 78 => ⟨S1x64, .f32⟩
  | 79 => ⟨S20000x64, .f32⟩
  | 80 => ⟨S20000x64, .f32⟩
  | 81 => ⟨S_, .f32⟩
  | 82 => ⟨S20000x64, .f32⟩
  | 83 => ⟨S20000x64, .f32⟩
  | 84 => ⟨S20000x64, .f32⟩
  | 85 => ⟨S1x64, .f32⟩
  | 86 => ⟨S20000x64, .f32⟩
  | 87 => ⟨S20000x64, .f32⟩
  | 88 => ⟨S_, .f32⟩
  | 89 => ⟨S2000x64, .f32⟩
  | 90 => ⟨S20000x1, .i32⟩
  | 91 => ⟨S2000x64, .f32⟩
  | 92 => ⟨S2000x64, .f32⟩
  | 93 => ⟨S1x64, .f32⟩
  | 94 => ⟨S2000x64, .f32⟩
  | 95 => ⟨S2000x64, .f32⟩
  | 96 => ⟨S_, .f32⟩
  | 97 => ⟨S2000x64, .f32⟩
  | 98 => ⟨S2000x64, .f32⟩
  | 99 => ⟨S2000x64, .f32⟩
  | 100 => ⟨S1x64, .f32⟩
  | 101 => ⟨S2000x64, .f32⟩
  | 102 => ⟨S2000x64, .f32⟩
  | 103 => ⟨S_, .f32⟩
  | 104 => ⟨S64x64, .f32⟩
  | 105 => ⟨S2000x1, .i32⟩
  | 106 => ⟨S64x64, .f32⟩
  | 107 => ⟨S64x32, .f32⟩
  | 108 => ⟨S1x32, .f32⟩
  | 109 => ⟨S64x32, .f32⟩
  | 110 => ⟨S64x32, .f32⟩
  | 111 => ⟨S_, .f32⟩
  | 112 => ⟨S64x32, .f32⟩
  | 113 => ⟨S64x32, .i1⟩
  | 114 => ⟨S_, .f32⟩
  | 115 => ⟨S64x32, .f32⟩
  | 116 => ⟨S64x32, .i1⟩
  | 117 => ⟨S_, .f32⟩
  | 118 => ⟨S_, .f32⟩
  | 119 => ⟨S64x32, .f32⟩
  | 120 => ⟨S64x32, .f32⟩
  | 121 => ⟨S64x32, .f32⟩
  | 122 => ⟨S_, .f32⟩
  | 123 => ⟨S64x32, .f32⟩
  | 124 => ⟨S64x32, .f32⟩
  | 125 => ⟨S64x32, .f32⟩
  | 126 => ⟨S64x16, .f32⟩
  | 127 => ⟨S1x16, .f32⟩
  | _ => ⟨S100000x2, .i32⟩

abbrev hbmTy0_4 (i : Nat) : BufTy := match i % 128 with
  | 0 => ⟨S64x16, .f32⟩
  | 1 => ⟨S64x16, .f32⟩
  | 2 => ⟨S_, .f32⟩
  | 3 => ⟨S64x16, .f32⟩
  | 4 => ⟨S64x16, .i1⟩
  | 5 => ⟨S_, .f32⟩
  | 6 => ⟨S64x16, .f32⟩
  | 7 => ⟨S64x16, .i1⟩
  | 8 => ⟨S_, .f32⟩
  | 9 => ⟨S_, .f32⟩
  | 10 => ⟨S64x16, .f32⟩
  | 11 => ⟨S64x16, .f32⟩
  | 12 => ⟨S64x16, .f32⟩
  | 13 => ⟨S_, .f32⟩
  | 14 => ⟨S64x16, .f32⟩
  | 15 => ⟨S64x16, .f32⟩
  | 16 => ⟨S64x16, .f32⟩
  | 17 => ⟨S64x1, .f32⟩
  | 18 => ⟨S1x1, .f32⟩
  | 19 => ⟨S64x1, .f32⟩
  | 20 => ⟨S64x1, .f32⟩
  | _ => ⟨S100000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c : Ref sig .tc := ⟨.hbm, 33, rfl⟩
abbrev main_v6 : Ref sig .tc := ⟨.hbm, 34, rfl⟩
abbrev main_v7 : Ref sig .tc := ⟨.hbm, 35, rfl⟩
abbrev main_c_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_1 : Ref sig .tc := ⟨.hbm, 55, rfl⟩
abbrev main_v25 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_4 : Ref sig .tc := ⟨.hbm, 85, rfl⟩
abbrev main_v52 : Ref sig .tc := ⟨.hbm, 86, rfl⟩
abbrev main_v53 : Ref sig .tc := ⟨.hbm, 87, rfl⟩
abbrev main_cst_5 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_6 : Ref sig .tc := ⟨.hbm, 94, rfl⟩
abbrev main_v59 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_9 : Ref sig .tc := ⟨.hbm, 111, rfl⟩
abbrev main_v73 : Ref sig .tc := ⟨.hbm, 112, rfl⟩
abbrev main_v74 : Ref sig .tc := ⟨.hbm, 113, rfl⟩
abbrev main_c_10 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_11 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_12 : Ref sig .tc := ⟨.hbm, 142, rfl⟩
abbrev main_v101 : Ref sig .tc := ⟨.hbm, 143, rfl⟩
abbrev main_v102 : Ref sig .tc := ⟨.hbm, 144, rfl⟩
abbrev main_c_13 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_14 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_15 : Ref sig .tc := ⟨.hbm, 172, rfl⟩
abbrev main_v128 : Ref sig .tc := ⟨.hbm, 173, rfl⟩
abbrev main_v129 : Ref sig .tc := ⟨.hbm, 174, rfl⟩
abbrev main_cst_16 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_17 : Ref sig .tc := ⟨.hbm, 181, rfl⟩
abbrev main_v135 : Ref sig .tc := ⟨.hbm, 182, rfl⟩
abbrev main_v136 : Ref sig .tc := ⟨.hbm, 183, rfl⟩
abbrev main_cst_18 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_19 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_c_20 : Ref sig .tc := ⟨.hbm, 198, rfl⟩
abbrev main_v149 : Ref sig .tc := ⟨.hbm, 199, rfl⟩
abbrev main_v150 : Ref sig .tc := ⟨.hbm, 200, rfl⟩
abbrev main_c_21 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_22 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_c_23 : Ref sig .tc := ⟨.hbm, 229, rfl⟩
abbrev main_v177 : Ref sig .tc := ⟨.hbm, 230, rfl⟩
abbrev main_v178 : Ref sig .tc := ⟨.hbm, 231, rfl⟩
abbrev main_c_24 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_25 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_cst_26 : Ref sig .tc := ⟨.hbm, 259, rfl⟩
abbrev main_v204 : Ref sig .tc := ⟨.hbm, 260, rfl⟩
abbrev main_v205 : Ref sig .tc := ⟨.hbm, 261, rfl⟩
abbrev main_cst_27 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_28 : Ref sig .tc := ⟨.hbm, 268, rfl⟩
abbrev main_v211 : Ref sig .tc := ⟨.hbm, 269, rfl⟩
abbrev main_v212 : Ref sig .tc := ⟨.hbm, 270, rfl⟩
abbrev main_cst_29 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_cst_30 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_c_31 : Ref sig .tc := ⟨.hbm, 285, rfl⟩
abbrev main_v225 : Ref sig .tc := ⟨.hbm, 286, rfl⟩
abbrev main_v226 : Ref sig .tc := ⟨.hbm, 287, rfl⟩
abbrev main_c_32 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_cst_33 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_c_34 : Ref sig .tc := ⟨.hbm, 316, rfl⟩
abbrev main_v253 : Ref sig .tc := ⟨.hbm, 317, rfl⟩
abbrev main_v254 : Ref sig .tc := ⟨.hbm, 318, rfl⟩
abbrev main_c_35 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_36 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_cst_37 : Ref sig .tc := ⟨.hbm, 346, rfl⟩
abbrev main_v280 : Ref sig .tc := ⟨.hbm, 347, rfl⟩
abbrev main_v281 : Ref sig .tc := ⟨.hbm, 348, rfl⟩
abbrev main_cst_38 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_cst_39 : Ref sig .tc := ⟨.hbm, 355, rfl⟩
abbrev main_v287 : Ref sig .tc := ⟨.hbm, 356, rfl⟩
abbrev main_v288 : Ref sig .tc := ⟨.hbm, 357, rfl⟩
abbrev main_cst_40 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_cst_41 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_c_42 : Ref sig .tc := ⟨.hbm, 372, rfl⟩
abbrev main_v301 : Ref sig .tc := ⟨.hbm, 373, rfl⟩
abbrev main_v302 : Ref sig .tc := ⟨.hbm, 374, rfl⟩
abbrev main_c_43 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_cst_44 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_c_45 : Ref sig .tc := ⟨.hbm, 403, rfl⟩
abbrev main_v329 : Ref sig .tc := ⟨.hbm, 404, rfl⟩
abbrev main_v330 : Ref sig .tc := ⟨.hbm, 405, rfl⟩
abbrev main_c_46 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_cst_47 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_cst_48 : Ref sig .tc := ⟨.hbm, 433, rfl⟩
abbrev main_v356 : Ref sig .tc := ⟨.hbm, 434, rfl⟩
abbrev main_v357 : Ref sig .tc := ⟨.hbm, 435, rfl⟩
abbrev main_cst_49 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_cst_50 : Ref sig .tc := ⟨.hbm, 442, rfl⟩
abbrev main_v363 : Ref sig .tc := ⟨.hbm, 443, rfl⟩
abbrev main_v364 : Ref sig .tc := ⟨.hbm, 444, rfl⟩
abbrev main_cst_51 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_v369 : Ref sig .tc := ⟨.hbm, 450, rfl⟩
abbrev main_cst_52 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩
abbrev main_v374 : Ref sig .tc := ⟨.hbm, 456, rfl⟩
abbrev main_cst_53 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_v380 : Ref sig .tc := ⟨.hbm, 463, rfl⟩
abbrev main_v381 : Ref sig .tc := ⟨.hbm, 464, rfl⟩
abbrev main_call0_cst : Ref sig .tc := ⟨.hbm, 465, rfl⟩
abbrev main_call0_v0 : Ref sig .tc := ⟨.hbm, 466, rfl⟩
abbrev main_v382 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_cst_54 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_call1_cst : Ref sig .tc := ⟨.hbm, 480, rfl⟩
abbrev main_call1_v0 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_cst_55 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_v402 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_call2_cst : Ref sig .tc := ⟨.hbm, 495, rfl⟩
abbrev main_call2_v0 : Ref sig .tc := ⟨.hbm, 496, rfl⟩
abbrev main_call2_v1 : Ref sig .tc := ⟨.hbm, 497, rfl⟩
abbrev main_call2_cst_0 : Ref sig .tc := ⟨.hbm, 498, rfl⟩
abbrev main_call2_v2 : Ref sig .tc := ⟨.hbm, 499, rfl⟩
abbrev main_call2_v3 : Ref sig .tc := ⟨.hbm, 500, rfl⟩
abbrev main_call2_cst_1 : Ref sig .tc := ⟨.hbm, 501, rfl⟩
abbrev main_call2_call0_v0 : Ref sig .tc := ⟨.hbm, 502, rfl⟩
abbrev main_call2_call0_v1 : Ref sig .tc := ⟨.hbm, 503, rfl⟩
abbrev main_call2_v4 : Ref sig .tc := ⟨.hbm, 504, rfl⟩
abbrev main_call2_v5 : Ref sig .tc := ⟨.hbm, 505, rfl⟩
abbrev main_call2_cst_2 : Ref sig .tc := ⟨.hbm, 506, rfl⟩
abbrev main_call2_v6 : Ref sig .tc := ⟨.hbm, 507, rfl⟩
abbrev main_call2_v7 : Ref sig .tc := ⟨.hbm, 508, rfl⟩
abbrev main_v406 : Ref sig .tc := ⟨.hbm, 509, rfl⟩
abbrev main_v407 : Ref sig .tc := ⟨.hbm, 510, rfl⟩
abbrev main_v408 : Ref sig .tc := ⟨.hbm, 511, rfl⟩
abbrev main_v409 : Ref sig .tc := ⟨.hbm, 512, rfl⟩
abbrev main_v410 : Ref sig .tc := ⟨.hbm, 513, rfl⟩
abbrev main_call3_cst : Ref sig .tc := ⟨.hbm, 514, rfl⟩
abbrev main_call3_v0 : Ref sig .tc := ⟨.hbm, 515, rfl⟩
abbrev main_call3_v1 : Ref sig .tc := ⟨.hbm, 516, rfl⟩
abbrev main_call3_cst_0 : Ref sig .tc := ⟨.hbm, 517, rfl⟩
abbrev main_call3_v2 : Ref sig .tc := ⟨.hbm, 518, rfl⟩
abbrev main_call3_v3 : Ref sig .tc := ⟨.hbm, 519, rfl⟩
abbrev main_call3_cst_1 : Ref sig .tc := ⟨.hbm, 520, rfl⟩
abbrev main_call3_call0_v0 : Ref sig .tc := ⟨.hbm, 521, rfl⟩
abbrev main_call3_call0_v1 : Ref sig .tc := ⟨.hbm, 522, rfl⟩
abbrev main_call3_v4 : Ref sig .tc := ⟨.hbm, 523, rfl⟩
abbrev main_call3_v5 : Ref sig .tc := ⟨.hbm, 524, rfl⟩
abbrev main_call3_cst_2 : Ref sig .tc := ⟨.hbm, 525, rfl⟩
abbrev main_call3_v6 : Ref sig .tc := ⟨.hbm, 526, rfl⟩
abbrev main_call3_v7 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_v415 : Ref sig .tc := ⟨.hbm, 532, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x100x64_S1x100x64_0_0_0 : S5x100x64.Slices ![0, 0, 0] S1x100x64
  shapeCasts_S1x100x64_S100x64 : S1x100x64.ShapeCasts S100x64
  bcast_S_S100000x2 : S_.BroadcastsInDim S100000x2 (![] : Fin 0 → Fin S100000x2.rank)
  bcast_S100000x2_S100000x2x1_0_1 : S100000x2.BroadcastsInDim S100000x2x1 (![0, 1] : Fin 2 → Fin S100000x2x1.rank)
  reducesTo_S100000x2x64_S100000x64_d1 : S100000x2x64.ReducesTo [1] S100000x64
  h_S_ : 0 < S_.numel
  slices_S5x64x64_S1x64x64_0_0_0 : S5x64x64.Slices ![0, 0, 0] S1x64x64
  shapeCasts_S1x64x64_S64x64 : S1x64x64.ShapeCasts S64x64
  slices_S5x64x192_S1x64x192_0_0_0 : S5x64x192.Slices ![0, 0, 0] S1x64x192
  shapeCasts_S1x64x192_S64x192 : S1x64x192.ShapeCasts S64x192
  slices_S5x192_S1x192_0_0 : S5x192.Slices ![0, 0] S1x192
  shapeCasts_S1x192_S192 : S1x192.ShapeCasts S192
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S5x100x64_S1x100x64_1_0_0 : S5x100x64.Slices ![1, 0, 0] S1x100x64
  concatenates_S100000x64_S100000x64_S100000x128_d1 : Shape.Concatenates [S100000x64, S100000x64] S100000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64x192_S1x64x192_1_0_0 : S5x64x192.Slices ![1, 0, 0] S1x64x192
  slices_S5x192_S1x192_1_0 : S5x192.Slices ![1, 0] S1x192
  slices_S5x100x64_S1x100x64_2_0_0 : S5x100x64.Slices ![2, 0, 0] S1x100x64
  slices_S4x128x64_S1x128x64_1_0_0 : S4x128x64.Slices ![1, 0, 0] S1x128x64
  slices_S4x64_S1x64_1_0 : S4x64.Slices ![1, 0] S1x64
  slices_S5x64x64_S1x64x64_2_0_0 : S5x64x64.Slices ![2, 0, 0] S1x64x64
  slices_S5x64x192_S1x64x192_2_0_0 : S5x64x192.Slices ![2, 0, 0] S1x64x192
  slices_S5x192_S1x192_2_0 : S5x192.Slices ![2, 0] S1x192
  slices_S5x100x64_S1x100x64_3_0_0 : S5x100x64.Slices ![3, 0, 0] S1x100x64
  slices_S4x128x64_S1x128x64_2_0_0 : S4x128x64.Slices ![2, 0, 0] S1x128x64
  slices_S4x64_S1x64_2_0 : S4x64.Slices ![2, 0] S1x64
  slices_S5x64x64_S1x64x64_3_0_0 : S5x64x64.Slices ![3, 0, 0] S1x64x64
  slices_S5x64x192_S1x64x192_3_0_0 : S5x64x192.Slices ![3, 0, 0] S1x64x192
  slices_S5x192_S1x192_3_0 : S5x192.Slices ![3, 0] S1x192
  slices_S5x100x64_S1x100x64_4_0_0 : S5x100x64.Slices ![4, 0, 0] S1x100x64
  slices_S4x128x64_S1x128x64_3_0_0 : S4x128x64.Slices ![3, 0, 0] S1x128x64
  slices_S4x64_S1x64_3_0 : S4x64.Slices ![3, 0] S1x64
  slices_S5x64x64_S1x64x64_4_0_0 : S5x64x64.Slices ![4, 0, 0] S1x64x64
  slices_S5x64x192_S1x64x192_4_0_0 : S5x64x192.Slices ![4, 0, 0] S1x64x192
  slices_S5x192_S1x192_4_0 : S5x192.Slices ![4, 0] S1x192
  bcast_S_S20000x64 : S_.BroadcastsInDim S20000x64 (![] : Fin 0 → Fin S20000x64.rank)
  bcast_S100000_S100000x1_0 : S100000.BroadcastsInDim S100000x1 (![0] : Fin 1 → Fin S100000x1.rank)
  bcast_S1x64_S20000x64_0_1 : S1x64.BroadcastsInDim S20000x64 (![0, 1] : Fin 2 → Fin S20000x64.rank)
  bcast_S_S2000x64 : S_.BroadcastsInDim S2000x64 (![] : Fin 0 → Fin S2000x64.rank)
  bcast_S20000_S20000x1_0 : S20000.BroadcastsInDim S20000x1 (![0] : Fin 1 → Fin S20000x1.rank)
  bcast_S1x64_S2000x64_0_1 : S1x64.BroadcastsInDim S2000x64 (![0, 1] : Fin 2 → Fin S2000x64.rank)
  bcast_S_S64x64 : S_.BroadcastsInDim S64x64 (![] : Fin 0 → Fin S64x64.rank)
  bcast_S2000_S2000x1_0 : S2000.BroadcastsInDim S2000x1 (![0] : Fin 1 → Fin S2000x1.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S100x64_S100000x2x1_S100000x2x64_2_0_n_n_0_2_164_wf : GatherDims.WF S100x64 S100000x2x1 S100000x2x64 [2] [0] [] [0] [] 2 ![1, 64]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x192_S100000x192_1_0_0_1_n_n_wf : DotDims.WF S100000x64 S64x192 S100000x192 [1] [0] [0] [1] [] []
  dot_S100000x128_S128x64_S100000x64_1_0_0_1_n_n_wf : DotDims.WF S100000x128 S128x64 S100000x64 [1] [0] [0] [1] [] []
  scatter_S20000x64_S100000x1_S100000x64_1_0_0_1_wf : ScatterDims.WF S20000x64 S100000x1 S100000x64 [1] [0] [0] 1
  dot_S20000x64_S64x64_S20000x64_1_0_0_1_n_n_wf : DotDims.WF S20000x64 S64x64 S20000x64 [1] [0] [0] [1] [] []
  scatter_S2000x64_S20000x1_S20000x64_1_0_0_1_wf : ScatterDims.WF S2000x64 S20000x1 S20000x64 [1] [0] [0] 1
  dot_S2000x64_S64x64_S2000x64_1_0_0_1_n_n_wf : DotDims.WF S2000x64 S64x64 S2000x64 [1] [0] [0] [1] [] []
  scatter_S64x64_S2000x1_S2000x64_1_0_0_1_wf : ScatterDims.WF S64x64 S2000x1 S2000x64 [1] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []

variable [Facts₀]

def gather_S100x64_S100000x2x1_S100000x2x64_2_0_n_n_0_2_164 : GatherDims S100x64 S100000x2x1 S100000x2x64 where
  offsetDims := [2]
  collapsedSliceDims := [0]
  operandBatchingDims := []
  startIndicesBatchingDims := []
  startIndexMap := [0]
  indexVectorDim := 2
  sliceSizes := ![1, 64]
  wf := gather_S100x64_S100000x2x1_S100000x2x64_2_0_n_n_0_2_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S20000x64_S100000x1_S100000x64_1_0_0_1 : ScatterDims S20000x64 S100000x1 S100000x64 where
  updateWindowDims := [1]
  insertedWindowDims := [0]
  scatterDimsToOperandDims := [0]
  indexVectorDim := 1
  wf := scatter_S20000x64_S100000x1_S100000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S2000x64_S20000x1_S20000x64_1_0_0_1 : ScatterDims S2000x64 S20000x1 S20000x64 where
  updateWindowDims := [1]
  insertedWindowDims := [0]
  scatterDimsToOperandDims := [0]
  indexVectorDim := 1
  wf := scatter_S2000x64_S20000x1_S20000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64x64_S2000x1_S2000x64_1_0_0_1 : ScatterDims S64x64 S2000x1 S2000x64 where
  updateWindowDims := [1]
  insertedWindowDims := [0]
  scatterDimsToOperandDims := [0]
  indexVectorDim := 1
  wf := scatter_S64x64_S2000x1_S2000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) := Fin a → Fin b → EReal
abbrev Vc (a : Nat) := Fin a → EReal

def cur {α : Type} {a b : Nat} (A : (⟨2, ![a, b]⟩ : Shape).Idx → α) : Fin a → Fin b → α := fun i j => A (ix2 i j)
def row {α : Type} {b : Nat} (A : (⟨2, ![1, b]⟩ : Shape).Idx → α) : Fin b → α := fun j => A (ix2 (0 : Fin 1) j)
def vec {α : Type} {a : Nat} (A : (⟨1, ![a]⟩ : Shape).Idx → α) : Fin a → α := fun i => A (ix1 i)
def cur3 {α : Type} {n a b : Nat} (A : (⟨3, ![n, a, b]⟩ : Shape).Idx → α) (l : Fin n) : Fin a → Fin b → α :=
  fun i j => A (ix3 l i j)

def mm {a k b : Nat} (A : Mat a k) (B : Mat k b) : Mat a b := fun i j => ∑ q : Fin k, A i q * B q j
def addRow {a b : Nat} (A : Mat a b) (v : Vc b) : Mat a b := fun i j => A i j + v j
def concat {a : Nat} (A B : Mat a 64) : Mat a 128 :=
  fun i j => if h : j.val < 64 then A i ⟨j.val, h⟩ else B i ⟨j.val - 64, by have := j.isLt; omega⟩
def affine {a k b : Nat} (x : Mat a k) (W : Mat k b) (v : Vc b) : Mat a b := addRow (mm x W) v

def tblRow (z : BitVec 32) : Fin 100 :=
  ⟨min (if z.toInt < 0 then z + 100#32 else z).toInt.toNat 99, by omega⟩
def embR {n : Nat} (z : Fin n → Fin 2 → BitVec 32) (tbl : Mat 100 64) : Mat n 64 :=
  fun i d => tbl (tblRow (z i 0)) d + tbl (tblRow (z i 1)) d
def oneHot (z : BitVec 32) (k : Fin 100) : EReal := if z = BitVec.ofNat 32 k.val then 1 else 0
def embK {n : Nat} (z : Fin n → Fin 2 → BitVec 32) (tbl : Mat 100 64) : Mat n 64 :=
  fun i d => (∑ k : Fin 100, oneHot (z i 0) k * tbl k d) + (∑ k : Fin 100, oneHot (z i 1) k * tbl k d)

def pool {n s : Nat} (x : Mat n 64) (ids : Fin n → BitVec 32) : Mat s 64 :=
  fun v c => ∑ e : Fin n, if (ids e).toInt = (v.val : ℤ) then x e c else 0
def srcRow (n : Nat) (hn : 0 < n) (nw : BitVec 32) (s : BitVec 32) : Fin n :=
  ⟨min (if s.toInt < 0 then s + nw else s).toInt.toNat (n - 1), by omega⟩
def msg {n e : Nat} (hn : 0 < n) (nw : BitVec 32) (x : Mat n 64) (src dst : Fin e → BitVec 32) : Mat n 64 :=
  pool (fun k c => x (srcRow n hn nw (src k)) c) dst

def g0 (d : Fin 64) : Fin 192 := ⟨d.val, by have := d.isLt; omega⟩
def g1 (d : Fin 64) : Fin 192 := ⟨64 + d.val, by have := d.isLt; omega⟩
def g2 (d : Fin 64) : Fin 192 := ⟨128 + d.val, by have := d.isLt; omega⟩

def gru {n : Nat} (G H : Mat n 192) (x : Mat n 64) : Mat n 64 := fun i d =>
  let r := Ideal.logistic (G i (g0 d) + H i (g0 d))
  let u := Ideal.logistic (G i (g1 d) + H i (g1 d))
  let c := Ideal.tanh (G i (g2 d) + r * H i (g2 d))
  (1 - u) * c + u * x i d
def gruStep {n : Nat} (P : Mat n 192) (x : Mat n 64) (bih : Vc 192) (Whh : Mat 64 192) (bhh : Vc 192) : Mat n 64 :=
  gru (addRow P bih) (affine x Whh bhh) x

def fused {n : Nat} (S x : Mat n 64) (weff : Mat 64 192) (bih : Vc 192) (Whh : Mat 64 192) (bhh : Vc 192)
    (z : Fin n → Fin 2 → BitVec 32) (tbl : Mat 100 64) (tW : Mat 128 64) (tb : Vc 64) : Mat n 64 :=
  affine (concat (gruStep (mm S weff) x bih Whh bhh) (embK z tbl)) tW tb

def relu {a b : Nat} (A : Mat a b) : Mat a b := fun i j => max (A i j) 0
def elu {a b : Nat} (A : Mat a b) : Mat a b := fun i j => if 0 < A i j then A i j else Ideal.exp (A i j) - 1
def mlp {n : Nat} (x : Mat n 64) (W1 : Mat 64 64) (b1 : Vc 64) (W2 : Mat 64 64) (b2 : Vc 64) : Mat n 64 :=
  affine (relu (affine x W1 b1)) W2 b2
def head {n : Nat} (x : Mat n 64) (W1 : Mat 64 32) (b1 : Vc 32) (W2 : Mat 32 16) (b2 : Vc 16) (W3 : Mat 16 1)
    (b3 : Vc 1) : Mat n 1 :=
  affine (elu (affine (elu (affine x W1 b1)) W2 b2)) W3 b3

structure Args where
  z : Fin 100000 → Fin 2 → BitVec 32
  src : Fin 1600000 → BitVec 32
  dst : Fin 1600000 → BitVec 32
  n2s : Fin 100000 → BitVec 32
  s2s : Fin 20000 → BitVec 32
  s2g : Fin 2000 → BitVec 32
  zemb : Fin 5 → Mat 100 64
  tW : Fin 4 → Mat 128 64
  tb : Fin 4 → Vc 64
  cW : Fin 5 → Mat 64 64
  Wih : Fin 5 → Mat 64 192
  bih : Fin 5 → Vc 192
  Whh : Fin 5 → Mat 64 192
  bhh : Fin 5 → Vc 192
  eW1 : Mat 64 64
  eb1 : Vc 64
  eW2 : Mat 64 64
  eb2 : Vc 64
  nW1 : Mat 64 64
  nb1 : Vc 64
  nW2 : Mat 64 64
  nb2 : Vc 64
  fW1 : Mat 64 32
  fb1 : Vc 32
  fW2 : Mat 32 16
  fb2 : Vc 16
  fW3 : Mat 16 1
  fb3 : Vc 1

abbrev A2 (α : Type) (a b : Nat) := (⟨2, ![a, b]⟩ : Shape).Idx → α
abbrev A1 (α : Type) (a : Nat) := (⟨1, ![a]⟩ : Shape).Idx → α
abbrev A3 (α : Type) (n a b : Nat) := (⟨3, ![n, a, b]⟩ : Shape).Idx → α

def Args.ofArrays (z : A2 (BitVec 32) 100000 2) (ei : A2 (BitVec 32) 2 1600000) (n2s : A1 (BitVec 32) 100000)
    (s2s : A1 (BitVec 32) 20000) (s2g : A1 (BitVec 32) 2000) (zemb : A3 EReal 5 100 64) (tW : A3 EReal 4 128 64)
    (tb : A2 EReal 4 64) (cW : A3 EReal 5 64 64) (Wih : A3 EReal 5 64 192) (bih : A2 EReal 5 192)
    (Whh : A3 EReal 5 64 192) (bhh : A2 EReal 5 192) (eW1 : A2 EReal 64 64) (eb1 : A1 EReal 64) (eW2 : A2 EReal 64 64)
    (eb2 : A1 EReal 64) (nW1 : A2 EReal 64 64) (nb1 : A1 EReal 64) (nW2 : A2 EReal 64 64) (nb2 : A1 EReal 64)
    (fW1 : A2 EReal 64 32) (fb1 : A1 EReal 32) (fW2 : A2 EReal 32 16) (fb2 : A1 EReal 16) (fW3 : A2 EReal 16 1)
    (fb3 : A1 EReal 1) : Args where
  z := cur z
  src := fun e => ei (ix2 (0 : Fin 2) e)
  dst := fun e => ei (ix2 (1 : Fin 2) e)
  n2s := vec n2s
  s2s := vec s2s
  s2g := vec s2g
  zemb := cur3 zemb
  tW := cur3 tW
  tb := cur tb
  cW := cur3 cW
  Wih := cur3 Wih
  bih := cur bih
  Whh := cur3 Whh
  bhh := cur bhh
  eW1 := cur eW1
  eb1 := vec eb1
  eW2 := cur eW2
  eb2 := vec eb2
  nW1 := cur nW1
  nb1 := vec nb1
  nW2 := cur nW2
  nb2 := vec nb2
  fW1 := cur fW1
  fb1 := vec fb1
  fW2 := cur fW2
  fb2 := vec fb2
  fW3 := cur fW3
  fb3 := vec fb3

structure Args.Finite (a : Args) : Prop where
  zemb : ∀ l k d, ∃ r : ℝ, a.zemb l k d = (r : EReal)
  tW : ∀ l k d, ∃ r : ℝ, a.tW l k d = (r : EReal)
  tb : ∀ l d, ∃ r : ℝ, a.tb l d = (r : EReal)
  cW : ∀ l k d, ∃ r : ℝ, a.cW l k d = (r : EReal)
  Wih : ∀ l k d, ∃ r : ℝ, a.Wih l k d = (r : EReal)
  bih : ∀ l d, ∃ r : ℝ, a.bih l d = (r : EReal)
  Whh : ∀ l k d, ∃ r : ℝ, a.Whh l k d = (r : EReal)
  bhh : ∀ l d, ∃ r : ℝ, a.bhh l d = (r : EReal)

def Args.ZRange (a : Args) : Prop := ∀ i c, 0 ≤ (a.z i c).toInt ∧ (a.z i c).toInt < 100

def msgA (a : Args) (x : Mat 100000 64) : Mat 100000 64 := msg (by decide) 100000#32 x a.src a.dst

def updK (a : Args) (l : Fin 5) (x : Mat 100000 64) : Mat 100000 64 :=
  gruStep (mm (msgA a x) (mm (a.cW l) (a.Wih l))) x (a.bih l) (a.Whh l) (a.bhh l)
def updR (a : Args) (l : Fin 5) (x : Mat 100000 64) : Mat 100000 64 :=
  gruStep (mm (msgA a (mm x (a.cW l))) (a.Wih l)) x (a.bih l) (a.Whh l) (a.bhh l)
def trans (a : Args) (l : Fin 4) (xg ze : Mat 100000 64) : Mat 100000 64 := affine (concat xg ze) (a.tW l) (a.tb l)

def xK0 (a : Args) : Mat 100000 64 := embK a.z (a.zemb 0)
def xK1 (a : Args) : Mat 100000 64 := trans a 0 (updK a 0 (xK0 a)) (embK a.z (a.zemb 1))
def xK2 (a : Args) : Mat 100000 64 := trans a 1 (updK a 1 (xK1 a)) (embK a.z (a.zemb 2))
def xK3 (a : Args) : Mat 100000 64 := trans a 2 (updK a 2 (xK2 a)) (embK a.z (a.zemb 3))
def xK4 (a : Args) : Mat 100000 64 := trans a 3 (updK a 3 (xK3 a)) (embK a.z (a.zemb 4))
def xR0 (a : Args) : Mat 100000 64 := embR a.z (a.zemb 0)
def xR1 (a : Args) : Mat 100000 64 := trans a 0 (updR a 0 (xR0 a)) (embR a.z (a.zemb 1))
def xR2 (a : Args) : Mat 100000 64 := trans a 1 (updR a 1 (xR1 a)) (embR a.z (a.zemb 2))
def xR3 (a : Args) : Mat 100000 64 := trans a 2 (updR a 2 (xR2 a)) (embR a.z (a.zemb 3))
def xR4 (a : Args) : Mat 100000 64 := trans a 3 (updR a 3 (xR3 a)) (embR a.z (a.zemb 4))

def tail (a : Args) (y : Mat 100000 64) : Mat 64 1 :=
  head (pool (s := 64) (mlp (pool (s := 2000) (mlp (pool (s := 20000) y a.n2s) a.eW1 a.eb1 a.eW2 a.eb2) a.s2s)
    a.nW1 a.nb1 a.nW2 a.nb2) a.s2g) a.fW1 a.fb1 a.fW2 a.fb2 a.fW3 a.fb3

def outK (a : Args) : Mat 64 1 := tail a (updK a 4 (xK4 a))
def outR (a : Args) : Mat 64 1 := tail a (updR a 4 (xR4 a))

end Cert.Spec

end
-- ==== Proof.KFacts.lean ====
import proofs.«421876_j2267742732766_4_alg».proof.Proof.Gen.KernelIdeal.Frame
import proofs.«421876_j2267742732766_4_alg».proof.Proof.Spec

noncomputable section

namespace Cert.KernelIdeal.KVal

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

def argsK (c : Dev nD) : Cert.Spec.Args :=
  Cert.Spec.Args.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

structure Persist (c : Dev nD) (W : Valuation τ sig (Elt Ideal)) : Prop where
  arg0 : W (Proc.devRef .tc main_arg0) = m ((c : Thread nD τ).loc main_arg0)
  arg1 : W (Proc.devRef .tc main_arg1) = m ((c : Thread nD τ).loc main_arg1)
  arg2 : W (Proc.devRef .tc main_arg2) = m ((c : Thread nD τ).loc main_arg2)
  arg3 : W (Proc.devRef .tc main_arg3) = m ((c : Thread nD τ).loc main_arg3)
  arg4 : W (Proc.devRef .tc main_arg4) = m ((c : Thread nD τ).loc main_arg4)
  arg5 : W (Proc.devRef .tc main_arg5) = m ((c : Thread nD τ).loc main_arg5)
  arg6 : W (Proc.devRef .tc main_arg6) = m ((c : Thread nD τ).loc main_arg6)
  arg7 : W (Proc.devRef .tc main_arg7) = m ((c : Thread nD τ).loc main_arg7)
  arg8 : W (Proc.devRef .tc main_arg8) = m ((c : Thread nD τ).loc main_arg8)
  arg9 : W (Proc.devRef .tc main_arg9) = m ((c : Thread nD τ).loc main_arg9)
  arg10 : W (Proc.devRef .tc main_arg10) = m ((c : Thread nD τ).loc main_arg10)
  arg11 : W (Proc.devRef .tc main_arg11) = m ((c : Thread nD τ).loc main_arg11)
  arg12 : W (Proc.devRef .tc main_arg12) = m ((c : Thread nD τ).loc main_arg12)
  arg13 : W (Proc.devRef .tc main_arg13) = m ((c : Thread nD τ).loc main_arg13)
  arg14 : W (Proc.devRef .tc main_arg14) = m ((c : Thread nD τ).loc main_arg14)
  arg15 : W (Proc.devRef .tc main_arg15) = m ((c : Thread nD τ).loc main_arg15)
  arg16 : W (Proc.devRef .tc main_arg16) = m ((c : Thread nD τ).loc main_arg16)
  arg17 : W (Proc.devRef .tc main_arg17) = m ((c : Thread nD τ).loc main_arg17)
  arg18 : W (Proc.devRef .tc main_arg18) = m ((c : Thread nD τ).loc main_arg18)
  arg19 : W (Proc.devRef .tc main_arg19) = m ((c : Thread nD τ).loc main_arg19)
  arg20 : W (Proc.devRef .tc main_arg20) = m ((c : Thread nD τ).loc main_arg20)
  arg21 : W (Proc.devRef .tc main_arg21) = m ((c : Thread nD τ).loc main_arg21)
  arg22 : W (Proc.devRef .tc main_arg22) = m ((c : Thread nD τ).loc main_arg22)
  arg23 : W (Proc.devRef .tc main_arg23) = m ((c : Thread nD τ).loc main_arg23)
  arg24 : W (Proc.devRef .tc main_arg24) = m ((c : Thread nD τ).loc main_arg24)
  arg25 : W (Proc.devRef .tc main_arg25) = m ((c : Thread nD τ).loc main_arg25)
  arg26 : W (Proc.devRef .tc main_arg26) = m ((c : Thread nD τ).loc main_arg26)
  src : ∀ e : Fin 1600000, (W (Proc.devRef .tc main_v1) : IVec S1600000 32) (ix1 e) = (argsK m c).src e
  dst : ∀ e : Fin 1600000, (W (Proc.devRef .tc main_v3) : IVec S1600000 32) (ix1 e) = (argsK m c).dst e
  weff : ∀ (l : Fin 5) (i : Fin 64) (j : Fin 192), (W (Proc.devRef .tc main_v4) : FVec Ideal S5x64x192 .f32) (ix3 l i j)
    = Cert.Spec.mm ((argsK m c).cW l) ((argsK m c).Wih l) i j

structure LayerIn (c : Dev nD) (W : Valuation τ sig (Elt Ideal)) (xarr : FVec Ideal S100000x64 .f32)
    (X : Cert.Spec.Mat 100000 64) : Prop where
  keep : Persist m c W
  state : ∀ (i : Fin 100000) (d : Fin 64), xarr (ix2 i d) = X i d

end Cert.KernelIdeal.KVal

end
-- ==== Proof.KLayerLib.lean ====
import proofs.«421876_j2267742732766_4_alg».proof.Proof.KFacts
import Idealize.ShloMosaic.Lib.StableHlo.Run
import Idealize.ShloMosaic.Lib.ValueLayout

noncomputable section

namespace Cert.KernelIdeal.KVal

open Cert.KernelIdeal Cert.KernelIdeal.Gen Idealize.ShloMosaic Idealize.ShloMosaic.ValueIdx

variable (m : (ℓ : Loc nD τ sig) → Buf (Elt Ideal) ℓ)

namespace LayerLib

def persistRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_v1, main_v3, main_v4]

end LayerLib

open LayerLib

theorem Persist.of_agree {c : Dev nD} {W W' : Valuation τ sig (Elt Ideal)} (h : Persist m c W)
    (hk : ∀ b ∈ persistRefs, W' (Proc.devRef .tc b) = W (Proc.devRef .tc b)) : Persist m c W' := by
  cases h
  constructor <;> intros <;> rw [hk] <;> first | decide | solve_by_elim

theorem Persist.after {c : Dev nD} {W : Valuation τ sig (Elt Ideal)} (ops : List (HloOp τ sig (Elt Ideal)))
    (Wr : List (Ref sig .tc))
    (hW : ops.Forall fun op => op.writes ⊆ (Wr.map (Proc.devRef (τ := τ) .tc)).toFinset)
    (hd : ∀ b ∈ persistRefs, b ∉ Wr) (h : Persist m c W) : Persist m c (StableHlo.after ops W) :=
  h.of_agree m fun b hb => StableHlo.after_of_writes_sub ops W hW (hd b hb)

namespace LayerLib

theorem writes_sub_of_mem {Wr : List (Ref sig .tc)} {y : Ref sig .tc} (hy : y ∈ Wr) :
    ({Proc.devRef (τ := τ) .tc y} : Finset (DevRef τ sig)) ⊆ (Wr.map (Proc.devRef (τ := τ) .tc)).toFinset :=
  Finset.singleton_subset_iff.mpr (List.mem_toFinset.mpr (List.mem_map_of_mem hy))

macro "host_writes" ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes]
             repeat' apply And.intro
             all_goals exact writes_sub_of_mem (by decide)))

section Slices

variable {α : Type}

theorem slab_apply {n a b : Nat} (o : Nat) (ho : o < n) (A : (⟨3, ![n, a, b]⟩ : Shape).Idx → α)
    (hs : (⟨3, ![n, a, b]⟩ : Shape).Slices ![o, 0, 0] (⟨3, ![1, a, b]⟩ : Shape))
    (hc : (⟨3, ![1, a, b]⟩ : Shape).ShapeCasts (⟨2, ![a, b]⟩ : Shape)) (i : Fin a) (j : Fin b) :
    shapeCast (⟨2, ![a, b]⟩ : Shape) (extractStridedSlice (⟨3, ![1, a, b]⟩ : Shape) ![o, 0, 0] A hs) hc (ix2 i j)
      = A (ix3 ⟨o, ho⟩ i j) :=
  (shapeCast_1ab_ab_apply _ hc i j).trans (extractStridedSlice_apply _ A hs _ _ fun x => by
    match x with
    | ⟨0, _⟩ => rfl
    | ⟨1, _⟩ => exact (Nat.zero_add _).symm
    | ⟨2, _⟩ => exact (Nat.zero_add _).symm)

theorem rowSlab_apply {n b : Nat} (o : Nat) (ho : o < n) (A : (⟨2, ![n, b]⟩ : Shape).Idx → α)
    (hs : (⟨2, ![n, b]⟩ : Shape).Slices ![o, 0] (⟨2, ![1, b]⟩ : Shape))
    (hc1 : (⟨2, ![1, b]⟩ : Shape).ShapeCasts (⟨1, ![b]⟩ : Shape))
    (hc2 : (⟨1, ![b]⟩ : Shape).ShapeCasts (⟨2, ![1, b]⟩ : Shape)) (j : Fin b) :
    shapeCast (⟨2, ![1, b]⟩ : Shape)
        (shapeCast (⟨1, ![b]⟩ : Shape) (extractStridedSlice (⟨2, ![1, b]⟩ : Shape) ![o, 0] A hs) hc1) hc2
        (ix2 (0 : Fin 1) j)
      = A (ix2 ⟨o, ho⟩ j) :=
  (shapeCast_a_1a_apply _ hc2 0 j).trans ((shapeCast_1a_a_apply _ hc1 j).trans (slice2_axis0_apply o A hs 0 j ⟨o, ho⟩ rfl))

theorem cur_slab {n a b o : Nat} (ho : o < n) {A A' : (⟨3, ![n, a, b]⟩ : Shape).Idx → α} (hA : A = A')
    (hs : (⟨3, ![n, a, b]⟩ : Shape).Slices ![o, 0, 0] (⟨3, ![1, a, b]⟩ : Shape))
    (hc : (⟨3, ![1, a, b]⟩ : Shape).ShapeCasts (⟨2, ![a, b]⟩ : Shape)) :
    Cert.Spec.cur (shapeCast (⟨2, ![a, b]⟩ : Shape) (extractStridedSlice (⟨3, ![1, a, b]⟩ : Shape) ![o, 0, 0] A hs) hc)
      = Cert.Spec.cur3 A' ⟨o, ho⟩ :=
  hA ▸ funext fun i => funext fun j => slab_apply o ho A hs hc i j

theorem row_slab {n b o : Nat} (ho : o < n) {A A' : (⟨2, ![n, b]⟩ : Shape).Idx → α} (hA : A = A')
    (hs : (⟨2, ![n, b]⟩ : Shape).Slices ![o, 0] (⟨2, ![1, b]⟩ : Shape))
    (hc1 : (⟨2, ![1, b]⟩ : Shape).ShapeCasts (⟨1, ![b]⟩ : Shape))
    (hc2 : (⟨1, ![b]⟩ : Shape).ShapeCasts (⟨2, ![1, b]⟩ : Shape)) :
    Cert.Spec.row (shapeCast (⟨2, ![1, b]⟩ : Shape)
        (shapeCast (⟨1, ![b]⟩ : Shape) (extractStridedSlice (⟨2, ![1, b]⟩ : Shape) ![o, 0] A hs) hc1) hc2)
      = Cert.Spec.cur A' ⟨o, ho⟩ :=
  hA ▸ funext fun j => rowSlab_apply o ho A hs hc1 hc2 j

end Slices

theorem fused_congr {n : Nat} {S S' x x' : Cert.Spec.Mat n 64} {weff weff' : Cert.Spec.Mat 64 192}
    {bih bih' : Cert.Spec.Vc 192} {Whh Whh' : Cert.Spec.Mat 64 192} {bhh bhh' : Cert.Spec.Vc 192}
    {z z' : Fin n → Fin 2 → BitVec 32} {tbl tbl' : Cert.Spec.Mat 100 64} {tW tW' : Cert.Spec.Mat 128 64}
    {tb tb' : Cert.Spec.Vc 64} (hS : S = S') (hx : x = x') (hw : weff = weff') (hbi : bih = bih') (hWh : Whh = Whh')
    (hbh : bhh = bhh') (hz : z = z') (htbl : tbl = tbl') (htW : tW = tW') (htb : tb = tb') :
    Cert.Spec.fused S x weff bih Whh bhh z tbl tW tb = Cert.Spec.fused S' x' weff' bih' Whh' bhh' z' tbl' tW' tb' := by
  subst hS hx hw hbi hWh hbh hz htbl htW htb
  rfl

end LayerLib

end Cert.KernelIdeal.KVal

end
-- ==== Proof.LibPlainDot.lean ====
import Idealize.ShloMosaic.PureOps.Ideal
import Idealize.ShloMosaic.PureOps.Ideal.Laws
import Idealize.ShloMosaic.Lib.ValueIdx
import proofs.«421876_j2267742732766_4_alg».proof.Proof.Spec

noncomputable section

open scoped BigOperators

namespace Cert.LibPlainDot

open Idealize.ShloMosaic Idealize.ShloMosaic.ValueIdx

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

theorem contr_rank : d.contr.rank = 1 := by
  obtain ⟨lc, rc, ln, rn, lb, rb, wf⟩ := d
  subst hlc hrc hln hrn hlb hrb
  rfl

theorem contr_size (h : 0 < d.contr.rank) : d.contr.size ⟨0, h⟩ = K := by
  obtain ⟨lc, rc, ln, rn, lb, rb, wf⟩ := d
  subst hlc hrc hln hrn hlb hrb
  rfl

theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = Cert.Spec.mm (Cert.Spec.cur l) (Cert.Spec.cur r) i j := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = Cert.Spec.mm (Cert.Spec.cur l) (Cert.Spec.cur r) i j := rfl

theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = Cert.Spec.mm (Cert.Spec.cur l) (Cert.Spec.cur r) i j := by
  rw [Ideal.matmul_constant_zero_apply]
  exact plain_sum d hlc hrc hln hrn hlb hrb l r i j

theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = Cert.Spec.mm (Cert.Spec.cur l) (Cert.Spec.cur r) i j :=
  matmul_zero_apply d hlc hrc hln hrn hlb hrb prec l r i j

theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = Cert.Spec.mm (Cert.Spec.cur l) (Cert.Spec.cur r) i j := by
  show FloatOps.dotGeneral d prec .single l r (ix2 i j) = _
  rw [Ideal.dotGeneral_apply]
  exact plain_sum d hlc hrc hln hrn hlb hrb l r i j

end Plain

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

theorem contr_rank3 : d.contr.rank = 1 := by
  obtain ⟨lc, rc, ln, rn, lb, rb, wf⟩ := d
  subst hlc hrc hln hrn hlb hrb
  rfl

theorem contr_size3 (h : 0 < d.contr.rank) : d.contr.size ⟨0, h⟩ = K := by
  obtain ⟨lc, rc, ln, rn, lb, rb, wf⟩ := d
  subst hlc hrc hln hrn hlb hrb
  rfl

theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = Cert.Spec.mm (Cert.Spec.cur3 l b) (Cert.Spec.cur3 r b) i j := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = Cert.Spec.mm (Cert.Spec.cur3 l b) (Cert.Spec.cur3 r b) i j := rfl

end Batched

end Cert.LibPlainDot

end
-- ==== Proof.LibBlocks.lean ====
import Idealize.ShloMosaic.Lib.Pipeline.Value
import Idealize.ShloMosaic.Lib.ValueIdx

namespace Idealize.ShloMosaic.Blocks

open Idealize.ShloMosaic.ValueIdx

variable {sig : RefSig} {κ : Kind} {Val : EltTy → Type}

-- A block as large as its array fits at offset zero only, so reading it reads the array.
theorem read_whole (b : Ref sig κ) {off : Fin b.ty.shape.rank → ℕ}
    {inb : ∀ a, off a + b.ty.shape.size a ≤ b.ty.shape.size a} (f : b.ty.Contents Val) :
    ((View.whole b).slice (Rect.unit off b.ty.shape.size inb)).read Val f = f :=
  Memref.read_access_unit_zero Val b (funext fun a => by have := inb a; omega) inb f

-- Such a block holds every entry of the array.
theorem mem_whole {s : Shape} {off : Fin s.rank → ℕ} {inb : ∀ a, off a + s.size a ≤ s.size a} (i : s.Idx) :
    i ∈ (Rect.unit off s.size inb).set :=
  View.mem_set_unit_zero (funext fun a => by have := inb a; omega) inb i

-- The offsets (0, 0) spelt as a pair are the zero offsets.
theorem zero_pair : (![0, 0] : Fin 2 → ℕ) = fun _ => 0 := funext fun a => by fin_cases a <;> rfl

variable {n m R : ℕ}

-- Offset plus coordinate on each axis: the row offset is p·R, and a full-width block has column offset zero.
theorem emb_rows {ix : Fin 2 → ℕ} {inb : ∀ a, ix a * ![R, m] a + ![R, m] a ≤ (⟨2, ![n, m]⟩ : Shape).size a}
    {p : ℕ} (h : ix 0 = p) (r : Fin R) (q : Fin m) (i : Fin n) (hi : i.val = p * R + r.val) :
    (Rect.unit (s := ⟨2, ![n, m]⟩) (fun a => ix a * ![R, m] a) ![R, m] inb).emb (ix2 r q) = ix2 i q := by
  subst h
  have h1 : ix 1 * m + m ≤ m := inb 1
  exact Shape.idx_ext₂ (by show ix 0 * R + 1 * r.val = i.val; omega) (by show ix 1 * m + 1 * q.val = q.val; omega)

-- Row i lies in block i / R: (i / R)·R ≤ i < (i / R)·R + R, and a full-width block holds every column.
theorem cover_rows {N : ℕ} (hn : n ≤ N * R) {ix : Fin N → Fin 2 → ℕ}
    {inb : ∀ t a, ix t a * ![R, m] a + ![R, m] a ≤ (⟨2, ![n, m]⟩ : Shape).size a}
    {S : Fin N → Finset (⟨2, ![n, m]⟩ : Shape).Idx}
    (hS : ∀ t, S t = (Rect.unit (s := ⟨2, ![n, m]⟩) (fun a => ix t a * ![R, m] a) ![R, m] (inb t)).set)
    (h : ∀ t, ix t 0 = t.val) {F : Fin N → Bool} (hF : ∀ t, F t = true) (i : (⟨2, ![n, m]⟩ : Shape).Idx) :
    ∃ t : Fin N, F t = true ∧ i ∈ S t := by
  have hi0 : (i 0).val < n := (i 0).isLt
  have hi1 : (i 1).val < m := (i 1).isLt
  have hR : 0 < R := Nat.pos_of_ne_zero fun e => by subst e; omega
  have ht : (i 0).val / R < N := (Nat.div_lt_iff_lt_mul hR).2 (Nat.lt_of_lt_of_le hi0 hn)
  have h1 : ix ⟨_, ht⟩ 1 * m + m ≤ m := inb _ 1
  refine ⟨⟨_, ht⟩, hF _, ?_⟩
  rw [hS, Rect.mem_set_unit]
  refine Fin.forall_fin_two.2 ⟨?_, ?_⟩
  · show ix ⟨_, ht⟩ 0 * R ≤ (i 0).val ∧ (i 0).val < ix ⟨_, ht⟩ 0 * R + R
    rw [h]
    exact ⟨Nat.div_mul_le_self _ _, Nat.lt_div_mul_add hR⟩
  · show ix ⟨_, ht⟩ 1 * m ≤ (i 1).val ∧ (i 1).val < ix ⟨_, ht⟩ 1 * m + m
    omega

end Idealize.ShloMosaic.Blocks
-- ==== Proof.KReg0.lean ====
import proofs.«421876_j2267742732766_4_alg».proof.Proof.Gen.KernelIdeal.Frame
import proofs.«421876_j2267742732766_4_alg».proof.Proof.Spec
import proofs.«421876_j2267742732766_4_alg».proof.Proof.LibPlainDot
import proofs.«421876_j2267742732766_4_alg».proof.Proof.LibBlocks
import Idealize.ShloMosaic.Lib.ValueIdx
import Idealize.ShloMosaic.Lib.Pipeline.Value
import Idealize.ShloMosaic.Lib.ValueLayout
import Idealize.ShloMosaic.Lib.StableHlo.Predicate

set_option maxRecDepth 16384

noncomputable section

open scoped BigOperators

namespace Cert.KernelIdeal.KVal

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

namespace Reg0

-- The equality bit is 1 exactly when the words are equal, and the words 1 and 0 read as the numbers 1 and 0.
theorem hot_word (a : BitVec 32) (k : Fin 100) :
    (FloatOps.sitofp (F := Ideal) .f32 ((IntOp.cmpi .eq a (BitVec.ofNat 32 k.val)).setWidth 32) : Ideal .f32)
      = Cert.Spec.oneHot a k := by
  unfold Cert.Spec.oneHot
  by_cases h : a = BitVec.ofNat 32 k.val
  · rw [if_pos h, StableHlo.Predicate.cmpi_eq_iff.2 h]
    show (((((1#1 : BitVec 1).setWidth 32).toInt : ℝ)) : EReal) = 1
    rw [show ((1#1 : BitVec 1).setWidth 32).toInt = 1 from by decide]
    simp
  · rw [if_neg h, eq_zero_of_ne_one (fun e => h (StableHlo.Predicate.cmpi_eq_iff.1 e))]
    show (((((0#1 : BitVec 1).setWidth 32).toInt : ℝ)) : EReal) = 0
    rw [show ((0#1 : BitVec 1).setWidth 32).toInt = 0 from by decide]
    simp

abbrev zacc : FVec Ideal S2000x64 .f32 := constant (F := Ideal) S2000x64 .f32 0x00000000#32

-- Column cc of a block of codes, spread along 100 columns, reads the row's code cc at every column.
theorem spread_apply (x0 : Vec Ideal S2000x2 .i32) (cc : Fin 2) (h : S2000x2.Slices ![0, cc.val] S2000x1)
    (r : Fin 2000) (k : Fin 100) :
    (broadcastTo S2000x100 (extractStridedSlice S2000x1 ![0, cc.val] x0 h)
        broadcasts_S2000x1_S2000x100 : IVec S2000x100 32) (ix2 r k) = x0 (ix2 r cc) := by
  refine (broadcastTo_apply _ _ (ix2 r k) (ix2 r (0 : Fin 1)) fun a => ?_).trans ?_
  · match a with
    | ⟨0, _⟩ => rfl
    | ⟨1, _⟩ => rfl
  · refine extractStridedSlice_apply _ _ _ (ix2 r (0 : Fin 1)) (ix2 r cc) fun a => ?_
    match a with
    | ⟨0, _⟩ => show r.val = 0 + r.val; omega
    | ⟨1, _⟩ => rfl

theorem lane_apply (r : Fin 2000) (k : Fin 100) :
    (iota .tc S2000x100 32 [1] iota_S2000x100_d1_w32 : IVec S2000x100 32) (ix2 r k) = BitVec.ofNat 32 k.val :=
  iota_single_apply .tc S2000x100 32 (1 : Fin S2000x100.rank) iota_S2000x100_d1_w32 (ix2 r k)

def hotM (x0 : Vec Ideal S2000x2 .i32) (cc : Fin 2) : FVec Ideal S2000x100 .f32 :=
  fun j => Cert.Spec.oneHot (x0 (ix2 (j 0) cc)) (j 1)

-- The compared, widened and converted matrix of column cc is the indicator matrix of the codes in column cc.
theorem hot_eq (x0 : Vec Ideal S2000x2 .i32) (cc : Fin 2) (h : S2000x2.Slices ![0, cc.val] S2000x1) :
    (sitofp .f32 (extui 32 (cmpi .eq
        (broadcastTo S2000x100 (extractStridedSlice S2000x1 ![0, cc.val] x0 h) broadcasts_S2000x1_S2000x100)
        (iota .tc S2000x100 32 [1] iota_S2000x100_d1_w32)) natLt_1_32) : FVec Ideal S2000x100 .f32) = hotM x0 cc := by
  funext j
  obtain ⟨r, k, rfl⟩ : ∃ (r : Fin 2000) (k : Fin 100), j = ix2 r k := ⟨j 0, j 1, eq_ix2 j⟩
  show FloatOps.sitofp (F := Ideal) .f32 ((IntOp.cmpi .eq
      ((broadcastTo S2000x100 (extractStridedSlice S2000x1 ![0, cc.val] x0 h) broadcasts_S2000x1_S2000x100 : IVec S2000x100 32) (ix2 r k))
      ((iota .tc S2000x100 32 [1] iota_S2000x100_d1_w32 : IVec S2000x100 32) (ix2 r k))).setWidth 32) = Cert.Spec.oneHot (x0 (ix2 r cc)) k
  rw [spread_apply, lane_apply]
  exact hot_word _ k

theorem pay_eq (x0 : Vec Ideal S2000x2 .i32) (x1 : FVec Ideal S100x64 .f32) :
    k0_pay1 x0 x1
      = addf (matmul dot_S2000x100_S100x64_S2000x64_1_0_0_1_n_n none (hotM x0 0) x1 zacc)
             (matmul dot_S2000x100_S100x64_S2000x64_1_0_0_1_n_n none (hotM x0 1) x1 zacc) := by
  unfold k0_pay1
  exact congrArg₂ addf
    (congrArg₂ (fun a b => matmul dot_S2000x100_S100x64_S2000x64_1_0_0_1_n_n none a b zacc) (hot_eq x0 0 _) (shapeCast_self x1 _))
    (congrArg₂ (fun a b => matmul dot_S2000x100_S100x64_S2000x64_1_0_0_1_n_n none a b zacc) (hot_eq x0 1 _) (shapeCast_self x1 _))

-- Each product into the zero accumulator is the sum over the table's rows.
theorem pay_apply (x0 : Vec Ideal S2000x2 .i32) (x1 : FVec Ideal S100x64 .f32) (r : Fin 2000) (d : Fin 64) :
    k0_pay1 x0 x1 (ix2 r d)
      = (∑ k : Fin 100, Cert.Spec.oneHot (x0 (ix2 r (0 : Fin 2))) k * x1 (ix2 k d))
        + (∑ k : Fin 100, Cert.Spec.oneHot (x0 (ix2 r (1 : Fin 2))) k * x1 (ix2 k d)) := by
  rw [pay_eq, addf_apply, Cert.LibPlainDot.matmul_zero_apply' dot_S2000x100_S100x64_S2000x64_1_0_0_1_n_n rfl rfl rfl rfl rfl rfl,
    Cert.LibPlainDot.matmul_zero_apply' dot_S2000x100_S100x64_S2000x64_1_0_0_1_n_n rfl rfl rfl rfl rfl rfl]
  rfl

def embArr (c : Dev nD) : S100000x64.Idx → EReal := fun i =>
  Cert.Spec.embK (Cert.Spec.cur (V c main_arg0 : S100000x2.Idx → BitVec 32))
    (Cert.Spec.cur (V c main_v6 : S100x64.Idx → EReal)) (i 0) (i 1)

theorem block_at : ∀ t : Fin cfg0.N, win0_0.index t (0 : Fin 2) = t.val ∧ win0_2.index t (0 : Fin 2) = t.val :=
  (by decide +kernel : ∀ t : Fin grid0.N, _)

-- Row r of block t is row 2000 t + r of the codes and of the output, and the table's block is the table.
theorem flushed_eq (c : Dev nD) (t : Fin cfg0.N) :
    (dat0 V c).flushed 2 t = ((cfg0.win 2).blk t).view.read (Elt Ideal) (embArr V c) := by
  show (cfg0.win 2).cut (grid0.coords t) ((dat0 V c).after 2 t) = _
  rw [after0_2, show iblk0 V c 1 t = V c main_v6 from Blocks.read_whole main_v6 _]
  unfold out0_2
  rw [View.canon_unit_zero Blocks.zero_pair]
  simp only [View.ld_unit_zero (S := ⟨2, _⟩) Blocks.zero_pair]
  obtain ⟨e0, e2⟩ := block_at t
  have ht : t.val < 50 := lt_of_lt_of_eq t.isLt N_0
  funext j
  obtain ⟨r, d, rfl⟩ : ∃ (r : Fin 2000) (d : Fin 64), j = ix2 r d := ⟨j 0, j 1, eq_ix2 j⟩
  have hi : t.val * 2000 + r.val < 100000 := by have := r.isLt; omega
  have hz : ∀ cc : Fin 2, iblk0 V c 0 t (ix2 r cc) = V c main_arg0 (ix2 (⟨_, hi⟩ : Fin 100000) cc) :=
    fun cc => congrArg (V c main_arg0) (Blocks.emb_rows e0 r cc _ rfl)
  refine ((pay_apply _ _ r d).trans ?_).trans (congrArg (embArr V c) (Blocks.emb_rows e2 r d ⟨_, hi⟩ rfl)).symm
  rw [hz 0, hz 1]
  rfl

end Reg0

-- The 50 blocks of 2000 rows cover the 100000 rows.
theorem arr0 (c : Dev nD) (i : Fin 100000) (d : Fin 64) :
    ((dat0 (F := Ideal) V c).arrAt 2 cfg0.N : FVec Ideal S100000x64 .f32) (ix2 i d)
      = Cert.Spec.embK (Cert.Spec.cur (V c main_arg0 : S100000x2.Idx → BitVec 32))
          (Cert.Spec.cur (V c main_v6 : S100x64.Idx → EReal)) i d :=
  congrFun ((dat0 V c).arrAt_eq_of_cover 2 (Reg0.embArr V c) (fun t _ => Reg0.flushed_eq V c t)
    (Blocks.cover_rows (R := 2000) (by decide) (fun t => View.set_slice_whole main_v7 (win0_2.rect t))
      (fun t => (Reg0.block_at t).2) flush0_2)) (ix2 i d)

end Cert.KernelIdeal.KVal

end
-- ==== Proof.KStart.lean ====
import proofs.«421876_j2267742732766_4_alg».proof.Proof.KLayerLib
import proofs.«421876_j2267742732766_4_alg».proof.Proof.KReg0
import proofs.«421876_j2267742732766_4_alg».proof.Proof.LibPlainDot

noncomputable section

namespace Cert.KernelIdeal.KVal

open Cert.KernelIdeal Cert.KernelIdeal.Gen Idealize.ShloMosaic Idealize.ShloMosaic.TcCoe Idealize.ShloMosaic.ValueIdx
open LayerLib

namespace Start

section Stretch

variable (V0 : Valuation τ sig (Elt Ideal))

abbrev written0 : List (Ref sig .tc) := [main_v0, main_v1, main_v2, main_v3, main_v4, main_v5, main_v6]

theorem hostOps0_writes_sub :
    (hostOps0 : List (HloOp τ sig (Elt Ideal))).Forall fun op =>
      op.writes ⊆ (written0.map (Proc.devRef (τ := τ) .tc)).toFinset := by
  host_writes hostOps0

theorem stretch_keep (b : Ref sig .tc) (hb : b ∉ written0) :
    StableHlo.after hostOps0 V0 (Proc.devRef .tc b) = V0 (Proc.devRef .tc b) :=
  StableHlo.after_of_writes_sub hostOps0 _ hostOps0_writes_sub hb

theorem stretch_src (e : Fin 1600000) :
    (StableHlo.after (hostOps0 (F := Ideal)) V0 (Proc.devRef .tc main_v1) : IVec S1600000 32) (ix1 e)
      = (V0 (Proc.devRef .tc main_arg1) : IVec S2x1600000 32) (ix2 (0 : Fin 2) e) := by
  after_results
  exact (shapeCast_1a_a_apply _ _ e).trans (slice2_axis0_apply 0 _ _ 0 e 0 rfl)

theorem stretch_dst (e : Fin 1600000) :
    (StableHlo.after (hostOps0 (F := Ideal)) V0 (Proc.devRef .tc main_v3) : IVec S1600000 32) (ix1 e)
      = (V0 (Proc.devRef .tc main_arg1) : IVec S2x1600000 32) (ix2 (1 : Fin 2) e) := by
  after_results
  exact (shapeCast_1a_a_apply _ _ e).trans (slice2_axis0_apply 1 _ _ 0 e 1 rfl)

theorem stretch_weff (l : Fin 5) (i : Fin 64) (j : Fin 192) :
    (StableHlo.after (hostOps0 (F := Ideal)) V0 (Proc.devRef .tc main_v4) : FVec Ideal S5x64x192 .f32) (ix3 l i j)
      = Cert.Spec.mm (Cert.Spec.cur3 (V0 (Proc.devRef .tc main_arg8) : FVec Ideal S5x64x64 .f32) l)
          (Cert.Spec.cur3 (V0 (Proc.devRef .tc main_arg9) : FVec Ideal S5x64x192 .f32) l) i j := by
  after_results
  exact Cert.LibPlainDot.batchDot_apply dot_S5x64x64_S5x64x192_S5x64x192_2_1_1_2_0_0 rfl rfl rfl rfl rfl rfl none _ _ l i j

theorem stretch_tbl (k : Fin 100) (d : Fin 64) :
    (StableHlo.after (hostOps0 (F := Ideal)) V0 (Proc.devRef .tc main_v6) : FVec Ideal S100x64 .f32) (ix2 k d)
      = (V0 (Proc.devRef .tc main_arg5) : FVec Ideal S5x100x64 .f32) (ix3 (0 : Fin 5) k d) := by
  after_results
  exact slab_apply 0 (by decide) _ _ _ k d

end Stretch

variable (m : (ℓ : Loc nD τ sig) → Buf (Elt Ideal) ℓ) (ρ : Dev nD → PrngReg)

theorem W2_keep (c : Dev nD) (b : Ref sig .tc) (h2 : ∀ w, Pipeline.arrRef spec0 w ≠ b) (h1 : b ∉ written0) :
    W2 m ρ c (Proc.devRef .tc b) = W0 m ρ c (Proc.devRef .tc b) :=
  (W2_of_ne m ρ c b h2).trans (stretch_keep (W0 m ρ c) b h1)

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) :=
        (W2_arr m ρ c 0).trans (((dat0 (V1 m ρ) c).arrAt_in 0 rfl _).trans (A_eq0 (V1 m ρ) c 0))
    _ = W0 m ρ c (Proc.devRef .tc main_arg0) := stretch_keep (W0 m ρ c) main_arg0 (by decide)
    _ = m ((c : Thread nD τ).loc main_arg0) := rfl

theorem persist_start (c : Dev nD) : Persist m c (W2 m ρ c) := by
  constructor
  case arg0 => exact W2_arg0 m ρ c
  case src => exact fun e => (congrFun (W2_of_ne m ρ c main_v1 (by decide)) (ix1 e)).trans (stretch_src (W0 m ρ c) e)
  case dst => exact fun e => (congrFun (W2_of_ne m ρ c main_v3 (by decide)) (ix1 e)).trans (stretch_dst (W0 m ρ c) e)
  case weff => exact fun l i j => (congrFun (W2_of_ne m ρ c main_v4 (by decide)) (ix3 l i j)).trans (stretch_weff (W0 m ρ c) l i j)
  all_goals exact (W2_keep m ρ c _ (by decide) (by decide)).trans rfl

end Start

variable (m : (ℓ : Loc nD τ sig) → Buf (Elt Ideal) ℓ) (ρ : Dev nD → PrngReg)

theorem start (c : Dev nD) :
    LayerIn m c (W2 m ρ c) (W2 m ρ c (Proc.devRef .tc main_v7)) (Cert.Spec.xK0 (argsK m c)) where
  keep := Start.persist_start m ρ c
  state := fun i d => by
    have hz : Cert.Spec.cur (V1 m ρ c main_arg0 : S100000x2.Idx → BitVec 32) = (argsK m c).z :=
      congrArg (Cert.Spec.cur (α := BitVec 32) (a := 100000) (b := 2))
        ((Start.stretch_keep (W0 m ρ c) main_arg0 (by decide)).trans rfl)
    have ht : Cert.Spec.cur (V1 m ρ c main_v6 : S100x64.Idx → EReal) = (argsK m c).zemb 0 := by
      funext k d
      exact Start.stretch_tbl (W0 m ρ c) k d
    calc (W2 m ρ c (Proc.devRef .tc main_v7) : FVec Ideal S100000x64 .f32) (ix2 i d)
      _ = ((dat0 (F := Ideal) (V1 m ρ) c).arrAt 2 cfg0.N : FVec Ideal S100000x64 .f32) (ix2 i d) :=
          congrFun (W2_arr m ρ c 2) (ix2 i d)
      _ = Cert.Spec.embK (Cert.Spec.cur (V1 m ρ c main_arg0 : S100000x2.Idx → BitVec 32))
            (Cert.Spec.cur (V1 m ρ c main_v6 : S100x64.Idx → EReal)) i d :=
          arr0 (V1 m ρ) c i d
      _ = Cert.Spec.xK0 (argsK m c) i d := by rw [hz, ht]; rfl

end Cert.KernelIdeal.KVal

end
-- ==== Proof.KGruAt.lean ====
import proofs.«421876_j2267742732766_4_alg».proof.Proof.Gen.KernelIdeal.Skeleton
import proofs.«421876_j2267742732766_4_alg».proof.Proof.Spec
import proofs.«421876_j2267742732766_4_alg».proof.Proof.LibPlainDot
import Idealize.ShloMosaic.Lib.ValueIdx
import Idealize.ShloMosaic.Lib.ValueLayout
import Idealize.ShloMosaic.Lib.IdealHost

noncomputable section

namespace Cert.KernelIdeal.KVal

open Cert.KernelIdeal Cert.KernelIdeal.Gen Idealize.ShloMosaic Idealize.ShloMosaic.ValueIdx

namespace GruAt

theorem gruStep_row {n n' : Nat} {S x : Cert.Spec.Mat n 64} {S' x' : Cert.Spec.Mat n' 64}
    {W W' Whh Whh' : Cert.Spec.Mat 64 192} {b b' bhh bhh' : Cert.Spec.Vc 192} {i : Fin n} {i' : Fin n'}
    (hS : ∀ q, S i q = S' i' q) (hx : ∀ q, x i q = x' i' q) (hW : W = W') (hb : b = b') (hWhh : Whh = Whh')
    (hbhh : bhh = bhh') (d : Fin 64) :
    Cert.Spec.gruStep (Cert.Spec.mm S W) x b Whh bhh i d = Cert.Spec.gruStep (Cert.Spec.mm S' W') x' b' Whh' bhh' i' d := by
  subst hW hb hWhh hbhh
  simp only [Cert.Spec.gruStep, Cert.Spec.gru, Cert.Spec.affine, Cert.Spec.addRow, Cert.Spec.mm, hS, hx]

theorem preact_at (x : FVec Ideal S2000x64 .f32) (W : FVec Ideal S64x192 .f32) (b : FVec Ideal S1x192 .f32)
    (r : Fin 2000) (k : Fin 192) :
    addf (matmul dot_S2000x64_S64x192_S2000x192_1_0_0_1_n_n none x W
          (constant (F := Ideal) S2000x192 .f32 0x00000000#32))
        (broadcastTo S2000x192 b broadcasts_S1x192_S2000x192) (ix2 r k)
      = Cert.Spec.affine (Cert.Spec.cur x) (Cert.Spec.cur W) (Cert.Spec.row b) r k := by
  show matmul dot_S2000x64_S64x192_S2000x192_1_0_0_1_n_n none x W
        (constant (F := Ideal) S2000x192 .f32 0x00000000#32) (ix2 r k)
      + broadcastTo S2000x192 b broadcasts_S1x192_S2000x192 (ix2 r k) = _
  rw [Cert.LibPlainDot.matmul_zero_apply' dot_S2000x64_S64x192_S2000x192_1_0_0_1_n_n rfl rfl rfl rfl rfl rfl none x W r k,
    broadcastTo_1b_ab_apply b broadcasts_S1x192_S2000x192 r k]
  rfl

theorem group0_at (X : FVec Ideal S2000x192 .f32) (r : Fin 2000) (d : Fin 64) :
    extractStridedSlice S2000x64 ![0, 0] X slices_S2000x192_o0_0_S2000x64 (ix2 r d) = X (ix2 r (Cert.Spec.g0 d)) :=
  slice2_axis1_apply 0 X slices_S2000x192_o0_0_S2000x64 r d (Cert.Spec.g0 d) (Nat.zero_add _).symm
theorem group1_at (X : FVec Ideal S2000x192 .f32) (r : Fin 2000) (d : Fin 64) :
    extractStridedSlice S2000x64 ![0, 64] X slices_S2000x192_o0_64_S2000x64 (ix2 r d) = X (ix2 r (Cert.Spec.g1 d)) :=
  slice2_axis1_apply 64 X slices_S2000x192_o0_64_S2000x64 r d (Cert.Spec.g1 d) rfl
theorem group2_at (X : FVec Ideal S2000x192 .f32) (r : Fin 2000) (d : Fin 64) :
    extractStridedSlice S2000x64 ![0, 128] X slices_S2000x192_o0_128_S2000x64 (ix2 r d) = X (ix2 r (Cert.Spec.g2 d)) :=
  slice2_axis1_apply 128 X slices_S2000x192_o0_128_S2000x64 r d (Cert.Spec.g2 d) rfl

theorem cell_at (G H : FVec Ideal S2000x192 .f32) (x : FVec Ideal S2000x64 .f32) (r : Fin 2000) (d : Fin 64)
    (G' H' : Fin 192 → EReal) (hG : ∀ k, G (ix2 r k) = G' k) (hH : ∀ k, H (ix2 r k) = H' k) :
    addf
        (mulf
          (subf (broadcast S2000x64 (Scalar.ofBits (F := Ideal) .f32 0x3F800000#32))
            (logistic (addf (extractStridedSlice S2000x64 ![0, 64] G slices_S2000x192_o0_64_S2000x64)
              (extractStridedSlice S2000x64 ![0, 64] H slices_S2000x192_o0_64_S2000x64))))
          (tanh (addf (extractStridedSlice S2000x64 ![0, 128] G slices_S2000x192_o0_128_S2000x64)
            (mulf
              (logistic (addf (extractStridedSlice S2000x64 ![0, 0] G slices_S2000x192_o0_0_S2000x64)
                (extractStridedSlice S2000x64 ![0, 0] H slices_S2000x192_o0_0_S2000x64)))
              (extractStridedSlice S2000x64 ![0, 128] H slices_S2000x192_o0_128_S2000x64)))))
        (mulf
          (logistic (addf (extractStridedSlice S2000x64 ![0, 64] G slices_S2000x192_o0_64_S2000x64)
            (extractStridedSlice S2000x64 ![0, 64] H slices_S2000x192_o0_64_S2000x64)))
          x) (ix2 r d)
      = (1 - Ideal.logistic (G' (Cert.Spec.g1 d) + H' (Cert.Spec.g1 d)))
          * Ideal.tanh (G' (Cert.Spec.g2 d) + Ideal.logistic (G' (Cert.Spec.g0 d) + H' (Cert.Spec.g0 d)) * H' (Cert.Spec.g2 d))
        + Ideal.logistic (G' (Cert.Spec.g1 d) + H' (Cert.Spec.g1 d)) * x (ix2 r d) := by
  show (Ideal.ofBits .f32 0x3F800000#32
          - Ideal.logistic (extractStridedSlice S2000x64 ![0, 64] G slices_S2000x192_o0_64_S2000x64 (ix2 r d)
              + extractStridedSlice S2000x64 ![0, 64] H slices_S2000x192_o0_64_S2000x64 (ix2 r d)))
        * Ideal.tanh (extractStridedSlice S2000x64 ![0, 128] G slices_S2000x192_o0_128_S2000x64 (ix2 r d)
            + Ideal.logistic (extractStridedSlice S2000x64 ![0, 0] G slices_S2000x192_o0_0_S2000x64 (ix2 r d)
                + extractStridedSlice S2000x64 ![0, 0] H slices_S2000x192_o0_0_S2000x64 (ix2 r d))
              * extractStridedSlice S2000x64 ![0, 128] H slices_S2000x192_o0_128_S2000x64 (ix2 r d))
      + Ideal.logistic (extractStridedSlice S2000x64 ![0, 64] G slices_S2000x192_o0_64_S2000x64 (ix2 r d)
              + extractStridedSlice S2000x64 ![0, 64] H slices_S2000x192_o0_64_S2000x64 (ix2 r d)) * x (ix2 r d) = _
  rw [group0_at G r d, group0_at H r d, group1_at G r d, group1_at H r d, group2_at G r d, group2_at H r d,
    Ideal.ofBits_one_f32, hG (Cert.Spec.g0 d), hG (Cert.Spec.g1 d), hG (Cert.Spec.g2 d),
    hH (Cert.Spec.g0 d), hH (Cert.Spec.g1 d), hH (Cert.Spec.g2 d)]

end GruAt

theorem gru_pay_at (x0 x1 : Vec Ideal S2000x64 .f32) (x2 : Vec Ideal S64x192 .f32) (x3 : Vec Ideal S1x192 .f32)
    (x4 : Vec Ideal S64x192 .f32) (x5 : Vec Ideal S1x192 .f32) (r : Fin 2000) (d : Fin 64) :
    k5_pay1 (F := Ideal) x0 x1 x2 x3 x4 x5 (ix2 r d)
      = Cert.Spec.gruStep (Cert.Spec.mm (Cert.Spec.cur x0) (Cert.Spec.cur x2)) (Cert.Spec.cur x1) (Cert.Spec.row x3)
          (Cert.Spec.cur x4) (Cert.Spec.row x5) r d := by
  unfold k5_pay1
  simp only [shapeCast_self]
  refine (GruAt.cell_at _ _ x1 r d
    (Cert.Spec.affine (Cert.Spec.cur x0) (Cert.Spec.cur x2) (Cert.Spec.row x3) r)
    (Cert.Spec.affine (Cert.Spec.cur x1) (Cert.Spec.cur x4) (Cert.Spec.row x5) r)
    (GruAt.preact_at x0 x2 x3 r) (GruAt.preact_at x1 x4 x5 r)).trans ?_
  rfl

theorem k1_pay2_eq : @k1_pay2 = @k5_pay1 := rfl

end Cert.KernelIdeal.KVal

end
-- ==== Proof.KFusedAt.lean ====
import proofs.«421876_j2267742732766_4_alg».proof.Proof.Gen.KernelIdeal.Frame
import proofs.«421876_j2267742732766_4_alg».proof.Proof.Spec
import proofs.«421876_j2267742732766_4_alg».proof.Proof.LibPlainDot
import proofs.«421876_j2267742732766_4_alg».proof.Proof.KGruAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx

namespace Fused

theorem indicator_number (x y : BitVec 32) :
    ((((IntOp.cmpi .eq x y).setWidth 32).toInt : ℝ) : EReal) = if x = y then 1 else 0 := by
  by_cases h : x = y
  · subst h
    have e : IntOp.cmpi .eq x x = 1#1 := by simp [IntOp.cmpi]
    rw [if_pos rfl, e, show ((1#1 : BitVec 1).setWidth 32).toInt = 1 from by decide]
    simp
  · have hb : (x == y) = false := beq_eq_false_iff_ne.mpr h
    have e : IntOp.cmpi .eq x y = 0#1 := by simp [IntOp.cmpi, hb]
    rw [if_neg h, e, show ((0#1 : BitVec 1).setWidth 32).toInt = 0 from by decide]
    simp

theorem code_spread (z : IVec S2000x2 32) (o : Nat) (ho : o < 2) (hsl : S2000x2.Slices ![0, o] S2000x1)
    (hb : S2000x1.Broadcasts S2000x100) (r : Fin 2000) (k : Fin 100) :
    broadcastTo S2000x100 (extractStridedSlice S2000x1 ![0, o] z hsl) hb (ix2 r k) = z (ix2 r (⟨o, ho⟩ : Fin 2)) := by
  refine (broadcastTo_apply _ hb (ix2 r k) (ix2 r (0 : Fin 1)) fun a => ?_).trans ?_
  · match a with
    | ⟨0, _⟩ => rfl
    | ⟨1, _⟩ => rfl
  · exact slice2_axis1_apply o z hsl r (0 : Fin 1) ⟨o, ho⟩ (by simp)

theorem hot_at (z : IVec S2000x2 32) (o : Nat) (ho : o < 2) (hsl : S2000x2.Slices ![0, o] S2000x1)
    (hb : S2000x1.Broadcasts S2000x100) (hio : S2000x100.Iotas .tc 32 [1]) (hlt : 1 < 32) (r : Fin 2000) (k : Fin 100) :
    (sitofp .f32 (extui 32 (cmpi .eq (broadcastTo S2000x100 (extractStridedSlice S2000x1 ![0, o] z hsl) hb)
        (iota .tc S2000x100 32 [1] hio)) hlt) : FVec Ideal S2000x100 .f32) (ix2 r k)
      = Cert.Spec.oneHot (z (ix2 r (⟨o, ho⟩ : Fin 2))) k := by
  show ((((IntOp.cmpi .eq (broadcastTo S2000x100 (extractStridedSlice S2000x1 ![0, o] z hsl) hb (ix2 r k))
      (iota .tc S2000x100 32 [1] hio (ix2 r k))).setWidth 32).toInt : ℝ) : EReal) = _
  rw [code_spread z o ho hsl hb r k, iota_single_apply, indicator_number]
  rfl

theorem emb_of_hot (H0 H1 : FVec Ideal S2000x100 .f32) (tbl : FVec Ideal S100x64 .f32) (z : Fin 2000 → Fin 2 → BitVec 32)
    (r : Fin 2000) (h0 : ∀ k, H0 (ix2 r k) = Cert.Spec.oneHot (z r 0) k) (h1 : ∀ k, H1 (ix2 r k) = Cert.Spec.oneHot (z r 1) k)
    (e : Fin 64) :
    (addf (matmul dot_S2000x100_S100x64_S2000x64_1_0_0_1_n_n none H0 tbl (constant S2000x64 .f32 0x00000000#32))
        (matmul dot_S2000x100_S100x64_S2000x64_1_0_0_1_n_n none H1 tbl (constant S2000x64 .f32 0x00000000#32))
      : FVec Ideal S2000x64 .f32) (ix2 r e) = Cert.Spec.embK z (Cert.Spec.cur tbl) r e := by
  rw [addf_apply,
    Cert.LibPlainDot.matmul_zero_apply' dot_S2000x100_S100x64_S2000x64_1_0_0_1_n_n rfl rfl rfl rfl rfl rfl none H0 tbl r e,
    Cert.LibPlainDot.matmul_zero_apply' dot_S2000x100_S100x64_S2000x64_1_0_0_1_n_n rfl rfl rfl rfl rfl rfl none H1 tbl r e]
  unfold Cert.Spec.embK Cert.Spec.mm
  refine congrArg₂ (· + ·) (Finset.sum_congr rfl fun k _ => ?_) (Finset.sum_congr rfl fun k _ => ?_)
  · exact congrArg (fun x => x * Cert.Spec.cur tbl k e) (h0 k)
  · exact congrArg (fun x => x * Cert.Spec.cur tbl k e) (h1 k)

theorem side_by_side (A B : FVec Ideal S2000x64 .f32) (hc : Shape.Concatenates [S2000x64, S2000x64] S2000x128 1)
    (r : Fin 2000) (q : Fin 128) :
    concatenate S2000x128 1 [⟨S2000x64, A⟩, ⟨S2000x64, B⟩] hc (ix2 r q)
      = Cert.Spec.concat (Cert.Spec.cur A) (Cert.Spec.cur B) r q := by
  unfold Cert.Spec.concat
  split
  · rename_i h
    exact concatenate_pair_apply_left 1 A B hc (ix2 r q) rfl (ix2 r (⟨q.val, h⟩ : Fin 64)) fun b => by
      match b with
      | ⟨0, _⟩ => rfl
      | ⟨1, _⟩ => rfl
  · rename_i h
    have hq : q.val - 64 < 64 := by have := q.isLt; omega
    exact concatenate_pair_apply_right 1 A B hc (ix2 r q) rfl rfl (ix2 r (⟨q.val - 64, hq⟩ : Fin 64))
      (fun b hb => by
        match b, hb with
        | ⟨0, _⟩, _ => rfl
        | ⟨1, _⟩, hb => exact absurd rfl hb)
      (by show q.val - 64 + 64 = q.val; omega)

theorem fused_pay_at (g : FVec Ideal S2000x64 .f32) (z : Vec Ideal S2000x2 .i32) (tbl : FVec Ideal S100x64 .f32)
    (hio : S2000x100.Iotas .tc 32 [1]) (tW : Vec Ideal S128x64 .f32) (tb : Vec Ideal S1x64 .f32) (r : Fin 2000) (d : Fin 64) :
    k1_pay1 (F := Ideal) g z tbl (iota .tc S2000x100 32 [1] hio) tW tb (ix2 r d)
      = Cert.Spec.affine (Cert.Spec.concat (Cert.Spec.cur g) (Cert.Spec.embK (Cert.Spec.cur z) (Cert.Spec.cur tbl)))
          (Cert.Spec.cur tW) (Cert.Spec.row tb) r d := by
  unfold k1_pay1
  rw [addf_apply, shapeCast_self, shapeCast_self, broadcastTo_1b_ab_apply,
    Cert.LibPlainDot.matmul_zero_apply' dot_S2000x128_S128x64_S2000x64_1_0_0_1_n_n rfl rfl rfl rfl rfl rfl]
  unfold Cert.Spec.affine Cert.Spec.addRow Cert.Spec.mm
  refine congrArg₂ (· + ·) (Finset.sum_congr rfl fun q _ => ?_) rfl
  refine congrArg (fun x => x * Cert.Spec.cur tW q d) ?_
  refine (side_by_side _ _ _ r q).trans ?_
  refine congrFun (congrFun (congrArg (Cert.Spec.concat (Cert.Spec.cur g)) ?_) r) q
  funext r' e
  exact emb_of_hot _ _ tbl (Cert.Spec.cur z) r'
    (fun k => hot_at z 0 (by decide) _ _ hio _ r' k) (fun k => hot_at z 1 (by decide) _ _ hio _ r' k) e

theorem zeros2 : (![0, 0] : Fin 2 → Nat) = fun _ => 0 := funext fun a => by fin_cases a <;> rfl

theorem out1_at (x0 x1 : Vec Ideal S2000x64 .f32) (x2 : Vec Ideal S64x192 .f32) (x3 : Vec Ideal S1x192 .f32)
    (x4 : Vec Ideal S64x192 .f32) (x5 : Vec Ideal S1x192 .f32) (x6 : Vec Ideal S2000x2 .i32) (x7 : Vec Ideal S100x64 .f32)
    (x8 : Vec Ideal S128x64 .f32) (x9 : Vec Ideal S1x64 .f32) (r : Fin 2000) (d : Fin 64) :
    out1_10 (F := Ideal) x0 x1 x2 x3 x4 x5 x6 x7 x8 x9 (ix2 r d)
      = Cert.Spec.fused (Cert.Spec.cur x0) (Cert.Spec.cur x1) (Cert.Spec.cur x2) (Cert.Spec.row x3) (Cert.Spec.cur x4)
          (Cert.Spec.row x5) (Cert.Spec.cur x6) (Cert.Spec.cur x7) (Cert.Spec.cur x8) (Cert.Spec.row x9) r d := by
  have hg : Cert.Spec.cur (k1_pay2 (F := Ideal) x0 x1 x2 x3 x4 x5)
      = Cert.Spec.gruStep (Cert.Spec.mm (Cert.Spec.cur x0) (Cert.Spec.cur x2)) (Cert.Spec.cur x1) (Cert.Spec.row x3)
          (Cert.Spec.cur x4) (Cert.Spec.row x5) := by
    funext r' e
    rw [k1_pay2_eq]
    exact gru_pay_at x0 x1 x2 x3 x4 x5 r' e
  have ht : k1_pay3 (F := Ideal) x7 = x7 := shapeCast_self x7 _
  unfold out1_10
  rw [View.canon_unit_zero zeros2]
  simp only [View.ld_unit_zero (S := S2000x64) zeros2, View.ld_unit_zero (S := S64x192) zeros2,
    View.ld_unit_zero (S := S1x192) zeros2, View.ld_unit_zero (S := S2000x2) zeros2,
    View.ld_unit_zero (S := S100x64) zeros2, View.ld_unit_zero (S := S128x64) zeros2,
    View.ld_unit_zero (S := S1x64) zeros2]
  rw [fused_pay_at, hg, ht]
  rfl

theorem fused_row {n n' : Nat} (S x : Cert.Spec.Mat n 64) (S' x' : Cert.Spec.Mat n' 64) (weff : Cert.Spec.Mat 64 192)
    (bih : Cert.Spec.Vc 192) (Whh : Cert.Spec.Mat 64 192) (bhh : Cert.Spec.Vc 192) (z : Fin n → Fin 2 → BitVec 32)
    (z' : Fin n' → Fin 2 → BitVec 32) (tbl : Cert.Spec.Mat 100 64) (tW : Cert.Spec.Mat 128 64) (tb : Cert.Spec.Vc 64)
    (i : Fin n) (i' : Fin n') (hS : S i = S' i') (hx : x i = x' i') (hz : z i = z' i') (d : Fin 64) :
    Cert.Spec.fused S x weff bih Whh bhh z tbl tW tb i d = Cert.Spec.fused S' x' weff bih Whh bhh z' tbl tW tb i' d := by
  simp only [Cert.Spec.fused, Cert.Spec.affine, Cert.Spec.addRow, Cert.Spec.mm, Cert.Spec.concat, Cert.Spec.gruStep,
    Cert.Spec.gru, Cert.Spec.embK, hS, hx, hz]

theorem fused_congr {n n' : Nat} (S x : Cert.Spec.Mat n 64) (S' x' : Cert.Spec.Mat n' 64) (weff weff' : Cert.Spec.Mat 64 192)
    (bih bih' : Cert.Spec.Vc 192) (Whh Whh' : Cert.Spec.Mat 64 192) (bhh bhh' : Cert.Spec.Vc 192)
    (z : Fin n → Fin 2 → BitVec 32) (z' : Fin n' → Fin 2 → BitVec 32) (tbl tbl' : Cert.Spec.Mat 100 64)
    (tW tW' : Cert.Spec.Mat 128 64) (tb tb' : Cert.Spec.Vc 64) (i : Fin n) (i' : Fin n') (d d' : Fin 64)
    (hS : S i = S' i') (hx : x i = x' i') (hweff : weff = weff') (hbih : bih = bih') (hWhh : Whh = Whh')
    (hbhh : bhh = bhh') (hz : z i = z' i') (htbl : tbl = tbl') (htW : tW = tW') (htb : tb = tb') (hd : d = d') :
    Cert.Spec.fused S x weff bih Whh bhh z tbl tW tb i d
      = Cert.Spec.fused S' x' weff' bih' Whh' bhh' z' tbl' tW' tb' i' d' := by
  subst hweff hbih hWhh hbhh htbl htW htb hd
  exact fused_row S x S' x' weff bih Whh bhh z z' tbl tW tb i i' hS hx hz d

end Fused

end Cert.KernelIdeal.KVal

end
-- ==== Proof.KReg1.lean ====
import proofs.«421876_j2267742732766_4_alg».proof.Proof.KFusedAt
import proofs.«421876_j2267742732766_4_alg».proof.Proof.LibBlocks

noncomputable section

namespace Cert.KernelIdeal.KVal

open Cert.KernelIdeal Cert.KernelIdeal.Gen Idealize.ShloMosaic Idealize.ShloMosaic.ValueIdx Idealize.ShloMosaic.Blocks
open Idealize.ShloMosaic.TcCoe Idealize.SL.Sem
open Idealize.ShloMosaic.Pipeline (Dat)
open Fused

variable (V : (c : Dev nD) → (b : Ref sig .tc) → Buf (Elt Ideal) ((c : Thread nD τ).loc b))

namespace Reg1

theorem idx : ∀ t : Fin cfg1.N, win1_0.index t (0 : Fin 2) = t.val ∧ win1_1.index t (0 : Fin 2) = t.val
    ∧ win1_6.index t (0 : Fin 2) = t.val ∧ win1_10.index t (0 : Fin 2) = t.val :=
  (by decide +kernel : ∀ t : Fin grid1.N, _)

def stage (c : Dev nD) : FVec Ideal S100000x64 .f32 := fun j =>
  Cert.Spec.fused (Cert.Spec.cur (V c main_v17 : FVec Ideal S100000x64 .f32))
    (Cert.Spec.cur (V c main_v7 : FVec Ideal S100000x64 .f32)) (Cert.Spec.cur (V c main_v28 : FVec Ideal S64x192 .f32))
    (Cert.Spec.row (V c main_v20 : FVec Ideal S1x192 .f32)) (Cert.Spec.cur (V c main_v30 : FVec Ideal S64x192 .f32))
    (Cert.Spec.row (V c main_v23 : FVec Ideal S1x192 .f32)) (Cert.Spec.cur (V c main_arg0 : IVec S100000x2 32))
    (Cert.Spec.cur (V c main_v32 : FVec Ideal S100x64 .f32)) (Cert.Spec.cur (V c main_v34 : FVec Ideal S128x64 .f32))
    (Cert.Spec.row (V c main_v26 : FVec Ideal S1x64 .f32)) (j 0) (j 1)

-- Row r of block t is row 2000 t + r of each row-indexed array, the weight blocks are the weights, and the stage reads one row.
theorem flushed_eq (c : Dev nD) (t : Fin cfg1.N) :
    (dat1 (F := Ideal) V c).flushed 10 t = ((cfg1.win 10).blk t).view.read (Elt Ideal) (stage V c) := by
  obtain ⟨e0, e1, e6, eo⟩ := idx t
  show (cfg1.win 10).cut (grid1.coords t) ((dat1 V c).after 10 t) = _
  rw [after1_10]
  funext y
  obtain ⟨r, d, rfl⟩ : ∃ (r : Fin 2000) (d : Fin 64), y = ix2 r d := ⟨y 0, y 1, eq_ix2 y⟩
  have hi : t.val * 2000 + r.val < 100000 := by have := t.isLt; have := (show cfg1.N = 50 from N_1); omega
  refine ((out1_at _ _ _ _ _ _ _ _ _ _ r d).trans ?_).trans (congrArg (stage V c) (emb_rows eo r d ⟨_, hi⟩ rfl)).symm
  exact fused_congr _ _ _ _ _ _ _ _ _ _ _ _ _ _ _ _ _ _ _ _ r ⟨_, hi⟩ d d
    (funext fun k => congrArg (V c main_v17) (emb_rows e0 r k _ rfl))
    (funext fun k => congrArg (V c main_v7) (emb_rows e1 r k _ rfl))
    (congrArg Cert.Spec.cur (read_whole main_v28 _)) (congrArg Cert.Spec.row (read_whole main_v20 _))
    (congrArg Cert.Spec.cur (read_whole main_v30 _)) (congrArg Cert.Spec.row (read_whole main_v23 _))
    (funext fun k => congrArg (V c main_arg0) (emb_rows e6 r k _ rfl))
    (congrArg Cert.Spec.cur (read_whole main_v32 _)) (congrArg Cert.Spec.cur (read_whole main_v34 _))
    (congrArg Cert.Spec.row (read_whole main_v26 _)) rfl

theorem cover (i : S100000x64.Idx) :
    ∃ t : Fin cfg1.N, (cfg1.win 10).flush t = true ∧ i ∈ ((cfg1.win 10).blk t).view.set :=
  cover_rows (by have := N_1; omega) (fun t => View.set_slice_whole main_v35 (win1_10.rect t))
    (fun t => (idx t).2.2.2) flush1_10 i

theorem final (c : Dev nD) : (dat1 (F := Ideal) V c).arrAt 10 cfg1.N = stage V c :=
  (dat1 V c).arrAt_eq_of_cover 10 (stage V c) (fun t _ => flushed_eq V c t) cover

end Reg1

theorem arr1 (c : Dev nD) (i : Fin 100000) (d : Fin 64) :
    ((dat1 (F := Ideal) V c).arrAt 10 cfg1.N : FVec Ideal S100000x64 .f32) (ix2 i d)
      = Cert.Spec.fused (Cert.Spec.cur (V c main_v17 : FVec Ideal S100000x64 .f32))
          (Cert.Spec.cur (V c main_v7 : FVec Ideal S100000x64 .f32))
          (Cert.Spec.cur (V c main_v28 : FVec Ideal S64x192 .f32)) (Cert.Spec.row (V c main_v20 : FVec Ideal S1x192 .f32))
          (Cert.Spec.cur (V c main_v30 : FVec Ideal S64x192 .f32)) (Cert.Spec.row (V c main_v23 : FVec Ideal S1x192 .f32))
          (Cert.Spec.cur (V c main_arg0 : IVec S100000x2 32)) (Cert.Spec.cur (V c main_v32 : FVec Ideal S100x64 .f32))
          (Cert.Spec.cur (V c main_v34 : FVec Ideal S128x64 .f32)) (Cert.Spec.row (V c main_v26 : FVec Ideal S1x64 .f32))
          i d :=
  congrFun (Reg1.final V c) (ix2 i d)

end Cert.KernelIdeal.KVal

end
-- ==== Proof.LibRowsScatter.lean ====
import Idealize.ShloMosaic.PureOps.Ideal
import Idealize.ShloMosaic.Lib.ValueIdx

noncomputable section

open scoped BigOperators

namespace Cert.LibRowsScatter

open Idealize.ShloMosaic Idealize.ShloMosaic.ValueIdx

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

theorem window_row (e : Fin E) (c' : Fin D) : s.window (ix2 e c') 0 = 0 := by
  obtain ⟨uw, iw, sd, iv, wf⟩ := s
  subst huw hiw hsd hiv
  rfl

theorem window_col (e : Fin E) (c' : Fin D) : s.window (ix2 e c') 1 = c'.val := by
  obtain ⟨uw, iw, sd, iv, wf⟩ := s
  subst huw hiw hsd hiv
  rfl

theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.LibGatherRows.lean ====
import Idealize.ShloMosaic.PureOps.Ideal
import Idealize.ShloMosaic.Lib.ValueIdx

noncomputable section

namespace Cert.LibGatherRows

open Idealize.ShloMosaic Idealize.ShloMosaic.ValueIdx

def clampRow {w : Nat} (N : Nat) (hN : 0 < N) (b : BitVec w) : Fin N := ⟨min b.toInt.toNat (N - 1), by omega⟩

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

theorem batchCoord_zero (e : Fin E) (q : Fin D) (a : Fin 2) : d.batchCoord (ix2 e q) a = 0 :=
  d.batchCoord_eq_zero _ a (by rw [hob]; exact List.not_mem_nil)

theorem offCoord_row (e : Fin E) (q : Fin D) : d.offCoord (ix2 e q) 0 = 0 :=
  d.offCoord_eq_zero _ 0 fun h => ((d.mem_sKept 0).mp h).1 (by rw [hcoll]; exact List.mem_singleton.mpr rfl)

theorem offCoord_col (e : Fin E) (q : Fin D) : d.offCoord (ix2 e q) 1 = q.val := by
  obtain ⟨od, cd, ob, sb, sm, iv, ss, wf⟩ := d
  subst hoff hcoll hob hsim hivd
  rfl

end Coordinates

theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.LibMsgChain.lean ====
import proofs.«421876_j2267742732766_4_alg».proof.Proof.LibRowsScatter
import proofs.«421876_j2267742732766_4_alg».proof.Proof.LibGatherRows
import proofs.«421876_j2267742732766_4_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.Affine

noncomputable section

open scoped BigOperators

namespace Cert.LibMsgChain

open Idealize.ShloMosaic Idealize.ShloMosaic.ValueIdx

theorem bcastCol_apply {α : Type} {n : Nat}
    (h : (⟨1, ![n]⟩ : Shape).BroadcastsInDim (⟨2, ![n, 1]⟩ : Shape) (![0] : Fin 1 → Fin 2))
    (u : (⟨1, ![n]⟩ : Shape).Idx → α) (e : Fin n) (z : Fin 1) :
    broadcastInDim (⟨2, ![n, 1]⟩ : Shape) ![0] h u (ix2 e z) = u (ix1 e) := by
  refine broadcastInDim_apply ![0] h u (ix2 e z) (ix1 e) fun a => ?_
  match a with
  | ⟨0, _⟩ =>
    show e.val = if n = 1 then 0 else e.val
    by_cases h1 : n = 1
    · rw [if_pos h1]; have := e.isLt; omega
    · rw [if_neg h1]

theorem srcWord_apply {E : Nat}
    (hbe : (⟨0, ![]⟩ : Shape).BroadcastsInDim (⟨1, ![E]⟩ : Shape) (![] : Fin 0 → Fin 1))
    (nw : BitVec 32) (s : IVec (⟨1, ![E]⟩ : Shape) 32) (k : Fin E) :
    select (cmpi .slt s (broadcastInDim (⟨1, ![E]⟩ : Shape) ![] hbe (constantI (⟨0, ![]⟩ : Shape) 32 0#32)))
        (addi s (broadcastInDim (⟨1, ![E]⟩ : Shape) ![] hbe (constantI (⟨0, ![]⟩ : Shape) 32 nw))) s (ix1 k)
      = if (s (ix1 k)).toInt < 0 then s (ix1 k) + nw else s (ix1 k) := by
  show (if IntOp.cmpi .slt (s (ix1 k)) 0#32 = 1#1 then s (ix1 k) + nw else s (ix1 k)) = _
  refine if_congr (IntOp.cmpi_slt.trans ?_) rfl rfl
  rw [BitVec.toInt_zero]

theorem poolChain_apply {N S : Nat}
    (sd : ScatterDims (⟨2, ![S, 64]⟩ : Shape) (⟨2, ![N, 1]⟩ : Shape) (⟨2, ![N, 64]⟩ : Shape))
    (huw : sd.updateWindowDims = [1]) (hiw : sd.insertedWindowDims = [0])
    (hsd : sd.scatterDimsToOperandDims = [0]) (hiv : sd.indexVectorDim = 1)
    (hb0 : (⟨0, ![]⟩ : Shape).BroadcastsInDim (⟨2, ![S, 64]⟩ : Shape) (![] : Fin 0 → Fin 2))
    (hb1 : (⟨1, ![N]⟩ : Shape).BroadcastsInDim (⟨2, ![N, 1]⟩ : Shape) (![0] : Fin 1 → Fin 2))
    (x : FVec Ideal (⟨2, ![N, 64]⟩ : Shape) .f32) (ids : IVec (⟨1, ![N]⟩ : Shape) 32) (v : Fin S) (c : Fin 64) :
    Host.scatterAdd sd
        (broadcastInDim (⟨2, ![S, 64]⟩ : Shape) ![] hb0 (constant (F := Ideal) (⟨0, ![]⟩ : Shape) .f32 0x00000000#32))
        (broadcastInDim (⟨2, ![N, 1]⟩ : Shape) ![0] hb1 ids) x (ix2 v c)
      = Cert.Spec.pool (Cert.Spec.cur x) (Cert.Spec.vec ids) v c := by
  have hz : broadcastInDim (⟨2, ![S, 64]⟩ : Shape) ![] hb0
      (constant (F := Ideal) (⟨0, ![]⟩ : Shape) .f32 0x00000000#32) (ix2 v c) = (0 : EReal) := by
    rw [broadcastInDim_scalar_apply, constant_apply]
    exact Ideal.ofBits_zero_f32
  rw [Cert.LibRowsScatter.rowsScatterAdd_apply sd huw hiw hsd hiv, hz, zero_add]
  refine Finset.sum_congr rfl fun e _ => ?_
  rw [bcastCol_apply hb1 ids e 0]
  rfl

theorem msgChain_apply {N E : Nat} (hN : 0 < N) (nw : BitVec 32)
    (gd : GatherDims (⟨2, ![N, 64]⟩ : Shape) (⟨2, ![E, 1]⟩ : Shape) (⟨2, ![E, 64]⟩ : Shape))
    (hoff : gd.offsetDims = [1]) (hcoll : gd.collapsedSliceDims = [0]) (hob : gd.operandBatchingDims = [])
    (hsim : gd.startIndexMap = [0]) (hivd : gd.indexVectorDim = 1)
    (sd : ScatterDims (⟨2, ![N, 64]⟩ : Shape) (⟨2, ![E, 1]⟩ : Shape) (⟨2, ![E, 64]⟩ : Shape))
    (huw : sd.updateWindowDims = [1]) (hiw : sd.insertedWindowDims = [0])
    (hsd : sd.scatterDimsToOperandDims = [0]) (hiv : sd.indexVectorDim = 1)
    (hbz : (⟨0, ![]⟩ : Shape).BroadcastsInDim (⟨2, ![N, 64]⟩ : Shape) (![] : Fin 0 → Fin 2))
    (hbe : (⟨0, ![]⟩ : Shape).BroadcastsInDim (⟨1, ![E]⟩ : Shape) (![] : Fin 0 → Fin 1))
    (hbc : (⟨1, ![E]⟩ : Shape).BroadcastsInDim (⟨2, ![E, 1]⟩ : Shape) (![0] : Fin 1 → Fin 2))
    (x : FVec Ideal (⟨2, ![N, 64]⟩ : Shape) .f32) (s t : IVec (⟨1, ![E]⟩ : Shape) 32) (v : Fin N) (c : Fin 64) :
    Host.scatterAdd sd
        (broadcastInDim (⟨2, ![N, 64]⟩ : Shape) ![] hbz (constant (F := Ideal) (⟨0, ![]⟩ : Shape) .f32 0x00000000#32))
        (broadcastInDim (⟨2, ![E, 1]⟩ : Shape) ![0] hbc t)
        (Host.gather gd x
          (broadcastInDim (⟨2, ![E, 1]⟩ : Shape) ![0] hbc
            (select (cmpi .slt s (broadcastInDim (⟨1, ![E]⟩ : Shape) ![] hbe (constantI (⟨0, ![]⟩ : Shape) 32 0#32)))
              (addi s (broadcastInDim (⟨1, ![E]⟩ : Shape) ![] hbe (constantI (⟨0, ![]⟩ : Shape) 32 nw))) s)))
        (ix2 v c)
      = Cert.Spec.msg hN nw (Cert.Spec.cur x) (Cert.Spec.vec s) (Cert.Spec.vec t) v c := by
  rw [poolChain_apply sd huw hiw hsd hiv hbz hbc]
  refine Finset.sum_congr rfl fun k _ => ?_
  refine if_congr Iff.rfl ?_ rfl
  show Host.gather gd x _ (ix2 k c) = x (ix2 (Cert.Spec.srcRow N hN nw (s (ix1 k))) c)
  rw [Cert.LibGatherRows.gatherRows_apply hN gd hoff hcoll hob hsim hivd, bcastCol_apply hbc _ k 0,
    srcWord_apply hbe nw s k]
  rfl

end Cert.LibMsgChain

end
-- ==== Proof.KLayer1.lean ====
import proofs.«421876_j2267742732766_4_alg».proof.Proof.KLayerLib
import proofs.«421876_j2267742732766_4_alg».proof.Proof.KReg1
import proofs.«421876_j2267742732766_4_alg».proof.Proof.LibMsgChain

noncomputable section

namespace Cert.KernelIdeal.KVal

open Cert.KernelIdeal Cert.KernelIdeal.Gen Idealize.ShloMosaic Idealize.ShloMosaic.ValueIdx
open LayerLib

variable (m : (ℓ : Loc nD τ sig) → Buf (Elt Ideal) ℓ) (ρ : Dev nD → PrngReg)

def layer1_written : List (Ref sig .tc) :=
  [main_c, main_v8, main_v9, main_c_0, main_v10, main_v11, main_v12, main_v13, main_v14, main_cst, main_v15, main_v16, main_v17, main_v18, main_v19, main_v20, main_v21, main_v22, main_v23, main_v24, main_v25, main_v26, main_v27, main_v28, main_v29, main_v30, main_v31, main_v32, main_v33, main_v34]

theorem layer1_writes : (hostOps1 (F := Ideal)).Forall fun op =>
    op.writes ⊆ (layer1_written.map (Proc.devRef (τ := τ) .tc)).toFinset := by
  host_writes hostOps1

theorem layer1_region_arrays :
    ∀ b ∈ persistRefs, b ≠ main_arg0 → ∀ w : Fin cfg1.W, Pipeline.arrRef spec1 w ≠ b := by decide

variable (c : Dev nD) (X : Cert.Spec.Mat 100000 64)
  (h : LayerIn m c (W2 m ρ c) (W2 m ρ c (Proc.devRef .tc main_v7)) X)
include h

theorem layer1_S :
    Cert.Spec.cur (StableHlo.after hostOps1 (W2 m ρ c) (Proc.devRef .tc main_v17)) = Cert.Spec.msgA (argsK m c) X := by
  funext v q
  after_results
  refine (Cert.LibMsgChain.msgChain_apply (by decide) 100000#32
    gather_S100000x64_S1600000x1_S1600000x64_1_0_n_n_0_1_164 rfl rfl rfl rfl rfl
    scatter_S100000x64_S1600000x1_S1600000x64_1_0_0_1 rfl rfl rfl rfl _ _ _
    (W2 m ρ c (Proc.devRef .tc main_v7)) (W2 m ρ c (Proc.devRef .tc main_v1)) (W2 m ρ c (Proc.devRef .tc main_v3)) v q).trans ?_
  rw [show Cert.Spec.cur (W2 m ρ c (Proc.devRef .tc main_v7) : FVec Ideal S100000x64 .f32) = X from
      funext fun i => funext (h.state i),
    show Cert.Spec.vec (W2 m ρ c (Proc.devRef .tc main_v1) : IVec S1600000 32) = (argsK m c).src from funext h.keep.src,
    show Cert.Spec.vec (W2 m ρ c (Proc.devRef .tc main_v3) : IVec S1600000 32) = (argsK m c).dst from funext h.keep.dst]
  rfl

theorem layer1_weff : Cert.Spec.cur (StableHlo.after hostOps1 (W2 m ρ c) (Proc.devRef .tc main_v28))
    = Cert.Spec.mm ((argsK m c).cW 0) ((argsK m c).Wih 0) := by
  after_results; exact (cur_slab (by decide) rfl _ _).trans (funext fun a => funext (h.keep.weff 0 a))

theorem layer1_bih : Cert.Spec.row (StableHlo.after hostOps1 (W2 m ρ c) (Proc.devRef .tc main_v20)) = (argsK m c).bih 0 := by
  after_results; exact row_slab (by decide) h.keep.arg10 _ _ _

theorem layer1_Whh : Cert.Spec.cur (StableHlo.after hostOps1 (W2 m ρ c) (Proc.devRef .tc main_v30)) = (argsK m c).Whh 0 := by
  after_results; exact cur_slab (by decide) h.keep.arg11 _ _

theorem layer1_bhh : Cert.Spec.row (StableHlo.after hostOps1 (W2 m ρ c) (Proc.devRef .tc main_v23)) = (argsK m c).bhh 0 := by
  after_results; exact row_slab (by decide) h.keep.arg12 _ _ _

theorem layer1_tbl : Cert.Spec.cur (StableHlo.after hostOps1 (W2 m ρ c) (Proc.devRef .tc main_v32)) = (argsK m c).zemb 1 := by
  after_results; exact cur_slab (by decide) h.keep.arg5 _ _

theorem layer1_tW : Cert.Spec.cur (StableHlo.after hostOps1 (W2 m ρ c) (Proc.devRef .tc main_v34)) = (argsK m c).tW 0 := by
  after_results; exact cur_slab (by decide) h.keep.arg6 _ _

theorem layer1_tb : Cert.Spec.row (StableHlo.after hostOps1 (W2 m ρ c) (Proc.devRef .tc main_v26)) = (argsK m c).tb 0 := by
  after_results; exact row_slab (by decide) h.keep.arg7 _ _ _

theorem layer1 : LayerIn m c (W4 m ρ c) (W4 m ρ c (Proc.devRef .tc main_v35))
    (Cert.Spec.trans (argsK m c) 0 (Cert.Spec.updK (argsK m c) 0 X)
      (Cert.Spec.embK (argsK m c).z ((argsK m c).zemb 1))) := by
  have hk : Persist m c (W3 m ρ c) := h.keep.after m hostOps1 layer1_written layer1_writes (by decide)
  refine ⟨hk.of_agree m fun b hb => ?_, fun i d => ?_⟩
  · by_cases h0 : b = main_arg0
    · subst h0
      exact (W4_arr m ρ c 6).trans (((dat1 (V3 m ρ) c).arrAt_in 6 rfl _).trans (A_eq1 (V3 m ρ) c 6))
    · exact W4_of_ne m ρ c b (layer1_region_arrays b hb h0)
  refine ((congrFun (W4_arr m ρ c 10) (ix2 i d)).trans (arr1 (V3 m ρ) c i d)).trans ?_
  exact congrFun (congrFun (fused_congr (layer1_S m ρ c X h)
    (funext fun v => funext fun q => (congrFun (show W3 m ρ c (Proc.devRef .tc main_v7) = W2 m ρ c (Proc.devRef .tc main_v7) from
      StableHlo.after_of_writes_sub hostOps1 _ layer1_writes (by decide)) (ix2 v q)).trans (h.state v q))
    (layer1_weff m ρ c X h) (layer1_bih m ρ c X h) (layer1_Whh m ρ c X h) (layer1_bhh m ρ c X h)
    (congrArg Cert.Spec.cur hk.arg0) (layer1_tbl m ρ c X h) (layer1_tW m ρ c X h) (layer1_tb m ρ c X h)) i) d

end Cert.KernelIdeal.KVal

end
-- ==== Proof.KReg2.lean ====
import proofs.«421876_j2267742732766_4_alg».proof.Proof.KFusedAt
import proofs.«421876_j2267742732766_4_alg».proof.Proof.LibBlocks

noncomputable section

namespace Cert.KernelIdeal.KVal

open Cert.KernelIdeal Cert.KernelIdeal.Gen Idealize.ShloMosaic Idealize.ShloMosaic.ValueIdx Idealize.ShloMosaic.Blocks
open Idealize.ShloMosaic.TcCoe Idealize.SL.Sem
open Idealize.ShloMosaic.Pipeline (Dat)
open Fused

variable (V : (c : Dev nD) → (b : Ref sig .tc) → Buf (Elt Ideal) ((c : Thread nD τ).loc b))

namespace Reg2

theorem idx : ∀ t : Fin cfg2.N, win2_0.index t (0 : Fin 2) = t.val ∧ win2_1.index t (0 : Fin 2) = t.val
    ∧ win2_6.index t (0 : Fin 2) = t.val ∧ win2_10.index t (0 : Fin 2) = t.val :=
  (by decide +kernel : ∀ t : Fin grid2.N, _)

def stage (c : Dev nD) : FVec Ideal S100000x64 .f32 := fun j =>
  Cert.Spec.fused (Cert.Spec.cur (V c main_v45 : FVec Ideal S100000x64 .f32))
    (Cert.Spec.cur (V c main_v35 : FVec Ideal S100000x64 .f32)) (Cert.Spec.cur (V c main_v56 : FVec Ideal S64x192 .f32))
    (Cert.Spec.row (V c main_v48 : FVec Ideal S1x192 .f32)) (Cert.Spec.cur (V c main_v58 : FVec Ideal S64x192 .f32))
    (Cert.Spec.row (V c main_v51 : FVec Ideal S1x192 .f32)) (Cert.Spec.cur (V c main_arg0 : IVec S100000x2 32))
    (Cert.Spec.cur (V c main_v60 : FVec Ideal S100x64 .f32)) (Cert.Spec.cur (V c main_v62 : FVec Ideal S128x64 .f32))
    (Cert.Spec.row (V c main_v54 : FVec Ideal S1x64 .f32)) (j 0) (j 1)

-- Row r of block t is row 2000 t + r of each row-indexed array, the weight blocks are the weights, and the stage reads one row.
theorem flushed_eq (c : Dev nD) (t : Fin cfg2.N) :
    (dat2 (F := Ideal) V c).flushed 10 t = ((cfg2.win 10).blk t).view.read (Elt Ideal) (stage V c) := by
  obtain ⟨e0, e1, e6, eo⟩ := idx t
  show (cfg2.win 10).cut (grid2.coords t) ((dat2 V c).after 10 t) = _
  rw [after2_10]
  funext y
  obtain ⟨r, d, rfl⟩ : ∃ (r : Fin 2000) (d : Fin 64), y = ix2 r d := ⟨y 0, y 1, eq_ix2 y⟩
  have hi : t.val * 2000 + r.val < 100000 := by have := t.isLt; have := (show cfg2.N = 50 from N_2); omega
  refine ((out1_at _ _ _ _ _ _ _ _ _ _ r d).trans ?_).trans (congrArg (stage V c) (emb_rows eo r d ⟨_, hi⟩ rfl)).symm
  exact fused_congr _ _ _ _ _ _ _ _ _ _ _ _ _ _ _ _ _ _ _ _ r ⟨_, hi⟩ d d
    (funext fun k => congrArg (V c main_v45) (emb_rows e0 r k _ rfl))
    (funext fun k => congrArg (V c main_v35) (emb_rows e1 r k _ rfl))
    (congrArg Cert.Spec.cur (read_whole main_v56 _)) (congrArg Cert.Spec.row (read_whole main_v48 _))
    (congrArg Cert.Spec.cur (read_whole main_v58 _)) (congrArg Cert.Spec.row (read_whole main_v51 _))
    (funext fun k => congrArg (V c main_arg0) (emb_rows e6 r k _ rfl))
    (congrArg Cert.Spec.cur (read_whole main_v60 _)) (congrArg Cert.Spec.cur (read_whole main_v62 _))
    (congrArg Cert.Spec.row (read_whole main_v54 _)) rfl

theorem cover (i : S100000x64.Idx) :
    ∃ t : Fin cfg2.N, (cfg2.win 10).flush t = true ∧ i ∈ ((cfg2.win 10).blk t).view.set :=
  cover_rows (by have := N_2; omega) (fun t => View.set_slice_whole main_v63 (win2_10.rect t))
    (fun t => (idx t).2.2.2) flush2_10 i

theorem final (c : Dev nD) : (dat2 (F := Ideal) V c).arrAt 10 cfg2.N = stage V c :=
  (dat2 V c).arrAt_eq_of_cover 10 (stage V c) (fun t _ => flushed_eq V c t) cover

end Reg2

theorem arr2 (c : Dev nD) (i : Fin 100000) (d : Fin 64) :
    ((dat2 (F := Ideal) V c).arrAt 10 cfg2.N : FVec Ideal S100000x64 .f32) (ix2 i d)
      = Cert.Spec.fused (Cert.Spec.cur (V c main_v45 : FVec Ideal S100000x64 .f32))
          (Cert.Spec.cur (V c main_v35 : FVec Ideal S100000x64 .f32))
          (Cert.Spec.cur (V c main_v56 : FVec Ideal S64x192 .f32)) (Cert.Spec.row (V c main_v48 : FVec Ideal S1x192 .f32))
          (Cert.Spec.cur (V c main_v58 : FVec Ideal S64x192 .f32)) (Cert.Spec.row (V c main_v51 : FVec Ideal S1x192 .f32))
          (Cert.Spec.cur (V c main_arg0 : IVec S100000x2 32)) (Cert.Spec.cur (V c main_v60 : FVec Ideal S100x64 .f32))
          (Cert.Spec.cur (V c main_v62 : FVec Ideal S128x64 .f32)) (Cert.Spec.row (V c main_v54 : FVec Ideal S1x64 .f32))
          i d :=
  congrFun (Reg2.final V c) (ix2 i d)

end Cert.KernelIdeal.KVal

end
-- ==== Proof.KLayer2.lean ====
import proofs.«421876_j2267742732766_4_alg».proof.Proof.KLayerLib
import proofs.«421876_j2267742732766_4_alg».proof.Proof.KReg2
import proofs.«421876_j2267742732766_4_alg».proof.Proof.LibMsgChain

noncomputable section

namespace Cert.KernelIdeal.KVal

open Cert.KernelIdeal Cert.KernelIdeal.Gen Idealize.ShloMosaic Idealize.ShloMosaic.ValueIdx
open LayerLib

variable (m : (ℓ : Loc nD τ sig) → Buf (Elt Ideal) ℓ) (ρ : Dev nD → PrngReg)

def layer2_written : List (Ref sig .tc) :=
  [main_c_1, main_v36, main_v37, main_c_2, main_v38, main_v39, main_v40, main_v41, main_v42, main_cst_3, main_v43, main_v44, main_v45, main_v46, main_v47, main_v48, main_v49, main_v50, main_v51, main_v52, main_v53, main_v54, main_v55, main_v56, main_v57, main_v58, main_v59, main_v60, main_v61, main_v62]

theorem layer2_writes : (hostOps2 (F := Ideal)).Forall fun op =>
    op.writes ⊆ (layer2_written.map (Proc.devRef (τ := τ) .tc)).toFinset := by
  host_writes hostOps2

theorem layer2_region_arrays :
    ∀ b ∈ persistRefs, b ≠ main_arg0 → ∀ w : Fin cfg2.W, Pipeline.arrRef spec2 w ≠ b := by decide

variable (c : Dev nD) (X : Cert.Spec.Mat 100000 64)
  (h : LayerIn m c (W4 m ρ c) (W4 m ρ c (Proc.devRef .tc main_v35)) X)
include h

theorem layer2_S :
    Cert.Spec.cur (StableHlo.after hostOps2 (W4 m ρ c) (Proc.devRef .tc main_v45)) = Cert.Spec.msgA (argsK m c) X := by
  funext v q
  after_results
  refine (Cert.LibMsgChain.msgChain_apply (by decide) 100000#32
    gather_S100000x64_S1600000x1_S1600000x64_1_0_n_n_0_1_164 rfl rfl rfl rfl rfl
    scatter_S100000x64_S1600000x1_S1600000x64_1_0_0_1 rfl rfl rfl rfl _ _ _
    (W4 m ρ c (Proc.devRef .tc main_v35)) (W4 m ρ c (Proc.devRef .tc main_v1)) (W4 m ρ c (Proc.devRef .tc main_v3)) v q).trans ?_
  rw [show Cert.Spec.cur (W4 m ρ c (Proc.devRef .tc main_v35) : FVec Ideal S100000x64 .f32) = X from
      funext fun i => funext (h.state i),
    show Cert.Spec.vec (W4 m ρ c (Proc.devRef .tc main_v1) : IVec S1600000 32) = (argsK m c).src from funext h.keep.src,
    show Cert.Spec.vec (W4 m ρ c (Proc.devRef .tc main_v3) : IVec S1600000 32) = (argsK m c).dst from funext h.keep.dst]
  rfl

theorem layer2_weff : Cert.Spec.cur (StableHlo.after hostOps2 (W4 m ρ c) (Proc.devRef .tc main_v56))
    = Cert.Spec.mm ((argsK m c).cW 1) ((argsK m c).Wih 1) := by
  after_results; exact (cur_slab (by decide) rfl _ _).trans (funext fun a => funext (h.keep.weff 1 a))

theorem layer2_bih : Cert.Spec.row (StableHlo.after hostOps2 (W4 m ρ c) (Proc.devRef .tc main_v48)) = (argsK m c).bih 1 := by
  after_results; exact row_slab (by decide) h.keep.arg10 _ _ _

theorem layer2_Whh : Cert.Spec.cur (StableHlo.after hostOps2 (W4 m ρ c) (Proc.devRef .tc main_v58)) = (argsK m c).Whh 1 := by
  after_results; exact cur_slab (by decide) h.keep.arg11 _ _

theorem layer2_bhh : Cert.Spec.row (StableHlo.after hostOps2 (W4 m ρ c) (Proc.devRef .tc main_v51)) = (argsK m c).bhh 1 := by
  after_results; exact row_slab (by decide) h.keep.arg12 _ _ _

theorem layer2_tbl : Cert.Spec.cur (StableHlo.after hostOps2 (W4 m ρ c) (Proc.devRef .tc main_v60)) = (argsK m c).zemb 2 := by
  after_results; exact cur_slab (by decide) h.keep.arg5 _ _

theorem layer2_tW : Cert.Spec.cur (StableHlo.after hostOps2 (W4 m ρ c) (Proc.devRef .tc main_v62)) = (argsK m c).tW 1 := by
  after_results; exact cur_slab (by decide) h.keep.arg6 _ _

theorem layer2_tb : Cert.Spec.row (StableHlo.after hostOps2 (W4 m ρ c) (Proc.devRef .tc main_v54)) = (argsK m c).tb 1 := by
  after_results; exact row_slab (by decide) h.keep.arg7 _ _ _

theorem layer2 : LayerIn m c (W6 m ρ c) (W6 m ρ c (Proc.devRef .tc main_v63))
    (Cert.Spec.trans (argsK m c) 1 (Cert.Spec.updK (argsK m c) 1 X)
      (Cert.Spec.embK (argsK m c).z ((argsK m c).zemb 2))) := by
  have hk : Persist m c (W5 m ρ c) := h.keep.after m hostOps2 layer2_written layer2_writes (by decide)
  refine ⟨hk.of_agree m fun b hb => ?_, fun i d => ?_⟩
  · by_cases h0 : b = main_arg0
    · subst h0
      exact (W6_arr m ρ c 6).trans (((dat2 (V5 m ρ) c).arrAt_in 6 rfl _).trans (A_eq2 (V5 m ρ) c 6))
    · exact W6_of_ne m ρ c b (layer2_region_arrays b hb h0)
  refine ((congrFun (W6_arr m ρ c 10) (ix2 i d)).trans (arr2 (V5 m ρ) c i d)).trans ?_
  exact congrFun (congrFun (fused_congr (layer2_S m ρ c X h)
    (funext fun v => funext fun q => (congrFun (show W5 m ρ c (Proc.devRef .tc main_v35) = W4 m ρ c (Proc.devRef .tc main_v35) from
      StableHlo.after_of_writes_sub hostOps2 _ layer2_writes (by decide)) (ix2 v q)).trans (h.state v q))
    (layer2_weff m ρ c X h) (layer2_bih m ρ c X h) (layer2_Whh m ρ c X h) (layer2_bhh m ρ c X h)
    (congrArg Cert.Spec.cur hk.arg0) (layer2_tbl m ρ c X h) (layer2_tW m ρ c X h) (layer2_tb m ρ c X h)) i) d

end Cert.KernelIdeal.KVal

end
-- ==== Proof.KReg3.lean ====
import proofs.«421876_j2267742732766_4_alg».proof.Proof.KFusedAt
import proofs.«421876_j2267742732766_4_alg».proof.Proof.LibBlocks

noncomputable section

namespace Cert.KernelIdeal.KVal

open Cert.KernelIdeal Cert.KernelIdeal.Gen Idealize.ShloMosaic Idealize.ShloMosaic.ValueIdx Idealize.ShloMosaic.Blocks
open Idealize.ShloMosaic.TcCoe Idealize.SL.Sem
open Idealize.ShloMosaic.Pipeline (Dat)
open Fused

variable (V : (c : Dev nD) → (b : Ref sig .tc) → Buf (Elt Ideal) ((c : Thread nD τ).loc b))

namespace Reg3

theorem idx : ∀ t : Fin cfg3.N, win3_0.index t (0 : Fin 2) = t.val ∧ win3_1.index t (0 : Fin 2) = t.val
    ∧ win3_6.index t (0 : Fin 2) = t.val ∧ win3_10.index t (0 : Fin 2) = t.val :=
  (by decide +kernel : ∀ t : Fin grid3.N, _)

def stage (c : Dev nD) : FVec Ideal S100000x64 .f32 := fun j =>
  Cert.Spec.fused (Cert.Spec.cur (V c main_v73 : FVec Ideal S100000x64 .f32))
    (Cert.Spec.cur (V c main_v63 : FVec Ideal S100000x64 .f32)) (Cert.Spec.cur (V c main_v84 : FVec Ideal S64x192 .f32))
    (Cert.Spec.row (V c main_v76 : FVec Ideal S1x192 .f32)) (Cert.Spec.cur (V c main_v86 : FVec Ideal S64x192 .f32))
    (Cert.Spec.row (V c main_v79 : FVec Ideal S1x192 .f32)) (Cert.Spec.cur (V c main_arg0 : IVec S100000x2 32))
    (Cert.Spec.cur (V c main_v88 : FVec Ideal S100x64 .f32)) (Cert.Spec.cur (V c main_v90 : FVec Ideal S128x64 .f32))
    (Cert.Spec.row (V c main_v82 : FVec Ideal S1x64 .f32)) (j 0) (j 1)

-- Row r of block t is row 2000 t + r of each row-indexed array, the weight blocks are the weights, and the stage reads one row.
theorem flushed_eq (c : Dev nD) (t : Fin cfg3.N) :
    (dat3 (F := Ideal) V c).flushed 10 t = ((cfg3.win 10).blk t).view.read (Elt Ideal) (stage V c) := by
  obtain ⟨e0, e1, e6, eo⟩ := idx t
  show (cfg3.win 10).cut (grid3.coords t) ((dat3 V c).after 10 t) = _
  rw [after3_10]
  funext y
  obtain ⟨r, d, rfl⟩ : ∃ (r : Fin 2000) (d : Fin 64), y = ix2 r d := ⟨y 0, y 1, eq_ix2 y⟩
  have hi : t.val * 2000 + r.val < 100000 := by have := t.isLt; have := (show cfg3.N = 50 from N_3); omega
  refine ((out1_at _ _ _ _ _ _ _ _ _ _ r d).trans ?_).trans (congrArg (stage V c) (emb_rows eo r d ⟨_, hi⟩ rfl)).symm
  exact fused_congr _ _ _ _ _ _ _ _ _ _ _ _ _ _ _ _ _ _ _ _ r ⟨_, hi⟩ d d
    (funext fun k => congrArg (V c main_v73) (emb_rows e0 r k _ rfl))
    (funext fun k => congrArg (V c main_v63) (emb_rows e1 r k _ rfl))
    (congrArg Cert.Spec.cur (read_whole main_v84 _)) (congrArg Cert.Spec.row (read_whole main_v76 _))
    (congrArg Cert.Spec.cur (read_whole main_v86 _)) (congrArg Cert.Spec.row (read_whole main_v79 _))
    (funext fun k => congrArg (V c main_arg0) (emb_rows e6 r k _ rfl))
    (congrArg Cert.Spec.cur (read_whole main_v88 _)) (congrArg Cert.Spec.cur (read_whole main_v90 _))
    (congrArg Cert.Spec.row (read_whole main_v82 _)) rfl

theorem cover (i : S100000x64.Idx) :
    ∃ t : Fin cfg3.N, (cfg3.win 10).flush t = true ∧ i ∈ ((cfg3.win 10).blk t).view.set :=
  cover_rows (by have := N_3; omega) (fun t => View.set_slice_whole main_v91 (win3_10.rect t))
    (fun t => (idx t).2.2.2) flush3_10 i

theorem final (c : Dev nD) : (dat3 (F := Ideal) V c).arrAt 10 cfg3.N = stage V c :=
  (dat3 V c).arrAt_eq_of_cover 10 (stage V c) (fun t _ => flushed_eq V c t) cover

end Reg3

theorem arr3 (c : Dev nD) (i : Fin 100000) (d : Fin 64) :
    ((dat3 (F := Ideal) V c).arrAt 10 cfg3.N : FVec Ideal S100000x64 .f32) (ix2 i d)
      = Cert.Spec.fused (Cert.Spec.cur (V c main_v73 : FVec Ideal S100000x64 .f32))
          (Cert.Spec.cur (V c main_v63 : FVec Ideal S100000x64 .f32))
          (Cert.Spec.cur (V c main_v84 : FVec Ideal S64x192 .f32)) (Cert.Spec.row (V c main_v76 : FVec Ideal S1x192 .f32))
          (Cert.Spec.cur (V c main_v86 : FVec Ideal S64x192 .f32)) (Cert.Spec.row (V c main_v79 : FVec Ideal S1x192 .f32))
          (Cert.Spec.cur (V c main_arg0 : IVec S100000x2 32)) (Cert.Spec.cur (V c main_v88 : FVec Ideal S100x64 .f32))
          (Cert.Spec.cur (V c main_v90 : FVec Ideal S128x64 .f32)) (Cert.Spec.row (V c main_v82 : FVec Ideal S1x64 .f32))
          i d :=
  congrFun (Reg3.final V c) (ix2 i d)

end Cert.KernelIdeal.KVal

end
-- ==== Proof.KLayer3.lean ====
import proofs.«421876_j2267742732766_4_alg».proof.Proof.KLayerLib
import proofs.«421876_j2267742732766_4_alg».proof.Proof.KReg3
import proofs.«421876_j2267742732766_4_alg».proof.Proof.LibMsgChain

noncomputable section

namespace Cert.KernelIdeal.KVal

open Cert.KernelIdeal Cert.KernelIdeal.Gen Idealize.ShloMosaic Idealize.ShloMosaic.ValueIdx
open LayerLib

variable (m : (ℓ : Loc nD τ sig) → Buf (Elt Ideal) ℓ) (ρ : Dev nD → PrngReg)

def layer3_written : List (Ref sig .tc) :=
  [main_c_4, main_v64, main_v65, main_c_5, main_v66, main_v67, main_v68, main_v69, main_v70, main_cst_6, main_v71, main_v72, main_v73, main_v74, main_v75, main_v76, main_v77, main_v78, main_v79, main_v80, main_v81, main_v82, main_v83, main_v84, main_v85, main_v86, main_v87, main_v88, main_v89, main_v90]

theorem layer3_writes : (hostOps3 (F := Ideal)).Forall fun op =>
    op.writes ⊆ (layer3_written.map (Proc.devRef (τ := τ) .tc)).toFinset := by
  host_writes hostOps3

theorem layer3_region_arrays :
    ∀ b ∈ persistRefs, b ≠ main_arg0 → ∀ w : Fin cfg3.W, Pipeline.arrRef spec3 w ≠ b := by decide

variable (c : Dev nD) (X : Cert.Spec.Mat 100000 64)
  (h : LayerIn m c (W6 m ρ c) (W6 m ρ c (Proc.devRef .tc main_v63)) X)
include h

theorem layer3_S :
    Cert.Spec.cur (StableHlo.after hostOps3 (W6 m ρ c) (Proc.devRef .tc main_v73)) = Cert.Spec.msgA (argsK m c) X := by
  funext v q
  after_results
  refine (Cert.LibMsgChain.msgChain_apply (by decide) 100000#32
    gather_S100000x64_S1600000x1_S1600000x64_1_0_n_n_0_1_164 rfl rfl rfl rfl rfl
    scatter_S100000x64_S1600000x1_S1600000x64_1_0_0_1 rfl rfl rfl rfl _ _ _
    (W6 m ρ c (Proc.devRef .tc main_v63)) (W6 m ρ c (Proc.devRef .tc main_v1)) (W6 m ρ c (Proc.devRef .tc main_v3)) v q).trans ?_
  rw [show Cert.Spec.cur (W6 m ρ c (Proc.devRef .tc main_v63) : FVec Ideal S100000x64 .f32) = X from
      funext fun i => funext (h.state i),
    show Cert.Spec.vec (W6 m ρ c (Proc.devRef .tc main_v1) : IVec S1600000 32) = (argsK m c).src from funext h.keep.src,
    show Cert.Spec.vec (W6 m ρ c (Proc.devRef .tc main_v3) : IVec S1600000 32) = (argsK m c).dst from funext h.keep.dst]
  rfl

theorem layer3_weff : Cert.Spec.cur (StableHlo.after hostOps3 (W6 m ρ c) (Proc.devRef .tc main_v84))
    = Cert.Spec.mm ((argsK m c).cW 2) ((argsK m c).Wih 2) := by
  after_results; exact (cur_slab (by decide) rfl _ _).trans (funext fun a => funext (h.keep.weff 2 a))

theorem layer3_bih : Cert.Spec.row (StableHlo.after hostOps3 (W6 m ρ c) (Proc.devRef .tc main_v76)) = (argsK m c).bih 2 := by
  after_results; exact row_slab (by decide) h.keep.arg10 _ _ _

theorem layer3_Whh : Cert.Spec.cur (StableHlo.after hostOps3 (W6 m ρ c) (Proc.devRef .tc main_v86)) = (argsK m c).Whh 2 := by
  after_results; exact cur_slab (by decide) h.keep.arg11 _ _

theorem layer3_bhh : Cert.Spec.row (StableHlo.after hostOps3 (W6 m ρ c) (Proc.devRef .tc main_v79)) = (argsK m c).bhh 2 := by
  after_results; exact row_slab (by decide) h.keep.arg12 _ _ _

theorem layer3_tbl : Cert.Spec.cur (StableHlo.after hostOps3 (W6 m ρ c) (Proc.devRef .tc main_v88)) = (argsK m c).zemb 3 := by
  after_results; exact cur_slab (by decide) h.keep.arg5 _ _

theorem layer3_tW : Cert.Spec.cur (StableHlo.after hostOps3 (W6 m ρ c) (Proc.devRef .tc main_v90)) = (argsK m c).tW 2 := by
  after_results; exact cur_slab (by decide) h.keep.arg6 _ _

theorem layer3_tb : Cert.Spec.row (StableHlo.after hostOps3 (W6 m ρ c) (Proc.devRef .tc main_v82)) = (argsK m c).tb 2 := by
  after_results; exact row_slab (by decide) h.keep.arg7 _ _ _

theorem layer3 : LayerIn m c (W8 m ρ c) (W8 m ρ c (Proc.devRef .tc main_v91))
    (Cert.Spec.trans (argsK m c) 2 (Cert.Spec.updK (argsK m c) 2 X)
      (Cert.Spec.embK (argsK m c).z ((argsK m c).zemb 3))) := by
  have hk : Persist m c (W7 m ρ c) := h.keep.after m hostOps3 layer3_written layer3_writes (by decide)
  refine ⟨hk.of_agree m fun b hb => ?_, fun i d => ?_⟩
  · by_cases h0 : b = main_arg0
    · subst h0
      exact (W8_arr m ρ c 6).trans (((dat3 (V7 m ρ) c).arrAt_in 6 rfl _).trans (A_eq3 (V7 m ρ) c 6))
    · exact W8_of_ne m ρ c b (layer3_region_arrays b hb h0)
  refine ((congrFun (W8_arr m ρ c 10) (ix2 i d)).trans (arr3 (V7 m ρ) c i d)).trans ?_
  exact congrFun (congrFun (fused_congr (layer3_S m ρ c X h)
    (funext fun v => funext fun q => (congrFun (show W7 m ρ c (Proc.devRef .tc main_v63) = W6 m ρ c (Proc.devRef .tc main_v63) from
      StableHlo.after_of_writes_sub hostOps3 _ layer3_writes (by decide)) (ix2 v q)).trans (h.state v q))
    (layer3_weff m ρ c X h) (layer3_bih m ρ c X h) (layer3_Whh m ρ c X h) (layer3_bhh m ρ c X h)
    (congrArg Cert.Spec.cur hk.arg0) (layer3_tbl m ρ c X h) (layer3_tW m ρ c X h) (layer3_tb m ρ c X h)) i) d

end Cert.KernelIdeal.KVal

end
-- ==== Proof.KReg4.lean ====
import proofs.«421876_j2267742732766_4_alg».proof.Proof.KFusedAt
import proofs.«421876_j2267742732766_4_alg».proof.Proof.LibBlocks

noncomputable section

namespace Cert.KernelIdeal.KVal

open Cert.KernelIdeal Cert.KernelIdeal.Gen Idealize.ShloMosaic Idealize.ShloMosaic.ValueIdx Idealize.ShloMosaic.Blocks
open Idealize.ShloMosaic.TcCoe Idealize.SL.Sem
open Idealize.ShloMosaic.Pipeline (Dat)
open Fused

variable (V : (c : Dev nD) → (b : Ref sig .tc) → Buf (Elt Ideal) ((c : Thread nD τ).loc b))

namespace Reg4

theorem idx : ∀ t : Fin cfg4.N, win4_0.index t (0 : Fin 2) = t.val ∧ win4_1.index t (0 : Fin 2) = t.val
    ∧ win4_6.index t (0 : Fin 2) = t.val ∧ win4_10.index t (0 : Fin 2) = t.val :=
  (by decide +kernel : ∀ t : Fin grid4.N, _)

def stage (c : Dev nD) : FVec Ideal S100000x64 .f32 := fun j =>
  Cert.Spec.fused (Cert.Spec.cur (V c main_v101 : FVec Ideal S100000x64 .f32))
    (Cert.Spec.cur (V c main_v91 : FVec Ideal S100000x64 .f32)) (Cert.Spec.cur (V c main_v112 : FVec Ideal S64x192 .f32))
    (Cert.Spec.row (V c main_v104 : FVec Ideal S1x192 .f32)) (Cert.Spec.cur (V c main_v114 : FVec Ideal S64x192 .f32))
    (Cert.Spec.row (V c main_v107 : FVec Ideal S1x192 .f32)) (Cert.Spec.cur (V c main_arg0 : IVec S100000x2 32))
    (Cert.Spec.cur (V c main_v116 : FVec Ideal S100x64 .f32)) (Cert.Spec.cur (V c main_v118 : FVec Ideal S128x64 .f32))
    (Cert.Spec.row (V c main_v110 : FVec Ideal S1x64 .f32)) (j 0) (j 1)

-- Row r of block t is row 2000 t + r of each row-indexed array, the weight blocks are the weights, and the stage reads one row.
theorem flushed_eq (c : Dev nD) (t : Fin cfg4.N) :
    (dat4 (F := Ideal) V c).flushed 10 t = ((cfg4.win 10).blk t).view.read (Elt Ideal) (stage V c) := by
  obtain ⟨e0, e1, e6, eo⟩ := idx t
  show (cfg4.win 10).cut (grid4.coords t) ((dat4 V c).after 10 t) = _
  rw [after4_10]
  funext y
  obtain ⟨r, d, rfl⟩ : ∃ (r : Fin 2000) (d : Fin 64), y = ix2 r d := ⟨y 0, y 1, eq_ix2 y⟩
  have hi : t.val * 2000 + r.val < 100000 := by have := t.isLt; have := (show cfg4.N = 50 from N_4); omega
  refine ((out1_at _ _ _ _ _ _ _ _ _ _ r d).trans ?_).trans (congrArg (stage V c) (emb_rows eo r d ⟨_, hi⟩ rfl)).symm
  exact fused_congr _ _ _ _ _ _ _ _ _ _ _ _ _ _ _ _ _ _ _ _ r ⟨_, hi⟩ d d
    (funext fun k => congrArg (V c main_v101) (emb_rows e0 r k _ rfl))
    (funext fun k => congrArg (V c main_v91) (emb_rows e1 r k _ rfl))
    (congrArg Cert.Spec.cur (read_whole main_v112 _)) (congrArg Cert.Spec.row (read_whole main_v104 _))
    (congrArg Cert.Spec.cur (read_whole main_v114 _)) (congrArg Cert.Spec.row (read_whole main_v107 _))
    (funext fun k => congrArg (V c main_arg0) (emb_rows e6 r k _ rfl))
    (congrArg Cert.Spec.cur (read_whole main_v116 _)) (congrArg Cert.Spec.cur (read_whole main_v118 _))
    (congrArg Cert.Spec.row (read_whole main_v110 _)) rfl

theorem cover (i : S100000x64.Idx) :
    ∃ t : Fin cfg4.N, (cfg4.win 10).flush t = true ∧ i ∈ ((cfg4.win 10).blk t).view.set :=
  cover_rows (by have := N_4; omega) (fun t => View.set_slice_whole main_v119 (win4_10.rect t))
    (fun t => (idx t).2.2.2) flush4_10 i

theorem final (c : Dev nD) : (dat4 (F := Ideal) V c).arrAt 10 cfg4.N = stage V c :=
  (dat4 V c).arrAt_eq_of_cover 10 (stage V c) (fun t _ => flushed_eq V c t) cover

end Reg4

theorem arr4 (c : Dev nD) (i : Fin 100000) (d : Fin 64) :
    ((dat4 (F := Ideal) V c).arrAt 10 cfg4.N : FVec Ideal S100000x64 .f32) (ix2 i d)
      = Cert.Spec.fused (Cert.Spec.cur (V c main_v101 : FVec Ideal S100000x64 .f32))
          (Cert.Spec.cur (V c main_v91 : FVec Ideal S100000x64 .f32))
          (Cert.Spec.cur (V c main_v112 : FVec Ideal S64x192 .f32)) (Cert.Spec.row (V c main_v104 : FVec Ideal S1x192 .f32))
          (Cert.Spec.cur (V c main_v114 : FVec Ideal S64x192 .f32)) (Cert.Spec.row (V c main_v107 : FVec Ideal S1x192 .f32))
          (Cert.Spec.cur (V c main_arg0 : IVec S100000x2 32)) (Cert.Spec.cur (V c main_v116 : FVec Ideal S100x64 .f32))
          (Cert.Spec.cur (V c main_v118 : FVec Ideal S128x64 .f32)) (Cert.Spec.row (V c main_v110 : FVec Ideal S1x64 .f32))
          i d :=
  congrFun (Reg4.final V c) (ix2 i d)

end Cert.KernelIdeal.KVal

end
-- ==== Proof.KLayer4.lean ====
import proofs.«421876_j2267742732766_4_alg».proof.Proof.KLayerLib
import proofs.«421876_j2267742732766_4_alg».proof.Proof.KReg4
import proofs.«421876_j2267742732766_4_alg».proof.Proof.LibMsgChain

noncomputable section

namespace Cert.KernelIdeal.KVal

open Cert.KernelIdeal Cert.KernelIdeal.Gen Idealize.ShloMosaic Idealize.ShloMosaic.ValueIdx
open LayerLib

variable (m : (ℓ : Loc nD τ sig) → Buf (Elt Ideal) ℓ) (ρ : Dev nD → PrngReg)

def layer4_written : List (Ref sig .tc) :=
  [main_c_7, main_v92, main_v93, main_c_8, main_v94, main_v95, main_v96, main_v97, main_v98, main_cst_9, main_v99, main_v100, main_v101, main_v102, main_v103, main_v104, main_v105, main_v106, main_v107, main_v108, main_v109, main_v110, main_v111, main_v112, main_v113, main_v114, main_v115, main_v116, main_v117, main_v118]

theorem layer4_writes : (hostOps4 (F := Ideal)).Forall fun op =>
    op.writes ⊆ (layer4_written.map (Proc.devRef (τ := τ) .tc)).toFinset := by
  host_writes hostOps4

theorem layer4_region_arrays :
    ∀ b ∈ persistRefs, b ≠ main_arg0 → ∀ w : Fin cfg4.W, Pipeline.arrRef spec4 w ≠ b := by decide

variable (c : Dev nD) (X : Cert.Spec.Mat 100000 64)
  (h : LayerIn m c (W8 m ρ c) (W8 m ρ c (Proc.devRef .tc main_v91)) X)
include h

theorem layer4_S :
    Cert.Spec.cur (StableHlo.after hostOps4 (W8 m ρ c) (Proc.devRef .tc main_v101)) = Cert.Spec.msgA (argsK m c) X := by
  funext v q
  after_results
  refine (Cert.LibMsgChain.msgChain_apply (by decide) 100000#32
    gather_S100000x64_S1600000x1_S1600000x64_1_0_n_n_0_1_164 rfl rfl rfl rfl rfl
    scatter_S100000x64_S1600000x1_S1600000x64_1_0_0_1 rfl rfl rfl rfl _ _ _
    (W8 m ρ c (Proc.devRef .tc main_v91)) (W8 m ρ c (Proc.devRef .tc main_v1)) (W8 m ρ c (Proc.devRef .tc main_v3)) v q).trans ?_
  rw [show Cert.Spec.cur (W8 m ρ c (Proc.devRef .tc main_v91) : FVec Ideal S100000x64 .f32) = X from
      funext fun i => funext (h.state i),
    show Cert.Spec.vec (W8 m ρ c (Proc.devRef .tc main_v1) : IVec S1600000 32) = (argsK m c).src from funext h.keep.src,
    show Cert.Spec.vec (W8 m ρ c (Proc.devRef .tc main_v3) : IVec S1600000 32) = (argsK m c).dst from funext h.keep.dst]
  rfl

theorem layer4_weff : Cert.Spec.cur (StableHlo.after hostOps4 (W8 m ρ c) (Proc.devRef .tc main_v112))
    = Cert.Spec.mm ((argsK m c).cW 3) ((argsK m c).Wih 3) := by
  after_results; exact (cur_slab (by decide) rfl _ _).trans (funext fun a => funext (h.keep.weff 3 a))

theorem layer4_bih : Cert.Spec.row (StableHlo.after hostOps4 (W8 m ρ c) (Proc.devRef .tc main_v104)) = (argsK m c).bih 3 := by
  after_results; exact row_slab (by decide) h.keep.arg10 _ _ _

theorem layer4_Whh : Cert.Spec.cur (StableHlo.after hostOps4 (W8 m ρ c) (Proc.devRef .tc main_v114)) = (argsK m c).Whh 3 := by
  after_results; exact cur_slab (by decide) h.keep.arg11 _ _

theorem layer4_bhh : Cert.Spec.row (StableHlo.after hostOps4 (W8 m ρ c) (Proc.devRef .tc main_v107)) = (argsK m c).bhh 3 := by
  after_results; exact row_slab (by decide) h.keep.arg12 _ _ _

theorem layer4_tbl : Cert.Spec.cur (StableHlo.after hostOps4 (W8 m ρ c) (Proc.devRef .tc main_v116)) = (argsK m c).zemb 4 := by
  after_results; exact cur_slab (by decide) h.keep.arg5 _ _

theorem layer4_tW : Cert.Spec.cur (StableHlo.after hostOps4 (W8 m ρ c) (Proc.devRef .tc main_v118)) = (argsK m c).tW 3 := by
  after_results; exact cur_slab (by decide) h.keep.arg6 _ _

theorem layer4_tb : Cert.Spec.row (StableHlo.after hostOps4 (W8 m ρ c) (Proc.devRef .tc main_v110)) = (argsK m c).tb 3 := by
  after_results; exact row_slab (by decide) h.keep.arg7 _ _ _

theorem layer4 : LayerIn m c (W10 m ρ c) (W10 m ρ c (Proc.devRef .tc main_v119))
    (Cert.Spec.trans (argsK m c) 3 (Cert.Spec.updK (argsK m c) 3 X)
      (Cert.Spec.embK (argsK m c).z ((argsK m c).zemb 4))) := by
  have hk : Persist m c (W9 m ρ c) := h.keep.after m hostOps4 layer4_written layer4_writes (by decide)
  refine ⟨hk.of_agree m fun b hb => ?_, fun i d => ?_⟩
  · by_cases h0 : b = main_arg0
    · subst h0
      exact (W10_arr m ρ c 6).trans (((dat4 (V9 m ρ) c).arrAt_in 6 rfl _).trans (A_eq4 (V9 m ρ) c 6))
    · exact W10_of_ne m ρ c b (layer4_region_arrays b hb h0)
  refine ((congrFun (W10_arr m ρ c 10) (ix2 i d)).trans (arr4 (V9 m ρ) c i d)).trans ?_
  exact congrFun (congrFun (fused_congr (layer4_S m ρ c X h)
    (funext fun v => funext fun q => (congrFun (show W9 m ρ c (Proc.devRef .tc main_v91) = W8 m ρ c (Proc.devRef .tc main_v91) from
      StableHlo.after_of_writes_sub hostOps4 _ layer4_writes (by decide)) (ix2 v q)).trans (h.state v q))
    (layer4_weff m ρ c X h) (layer4_bih m ρ c X h) (layer4_Whh m ρ c X h) (layer4_bhh m ρ c X h)
    (congrArg Cert.Spec.cur hk.arg0) (layer4_tbl m ρ c X h) (layer4_tW m ρ c X h) (layer4_tb m ρ c X h)) i) d

end Cert.KernelIdeal.KVal

end
-- ==== Proof.KReg5.lean ====
import proofs.«421876_j2267742732766_4_alg».proof.Proof.Gen.KernelIdeal.Frame
import proofs.«421876_j2267742732766_4_alg».proof.Proof.KGruAt
import proofs.«421876_j2267742732766_4_alg».proof.Proof.LibBlocks

noncomputable section

namespace Cert.KernelIdeal.KVal

open Cert.KernelIdeal Cert.KernelIdeal.Gen Idealize.ShloMosaic Idealize.ShloMosaic.ValueIdx Idealize.ShloMosaic.Blocks
open Idealize.ShloMosaic.TcCoe Idealize.SL.Sem
open Idealize.ShloMosaic.Pipeline (Dat)

namespace Reg5

variable (V : (c : Dev nD) → (b : Ref sig .tc) → Buf (Elt Ideal) ((c : Thread nD τ).loc b))

abbrev lastUpdate (c : Dev nD) : S100000x64.Idx → EReal := fun j =>
  Cert.Spec.gruStep
    (Cert.Spec.mm (Cert.Spec.cur (V c main_v129 : FVec Ideal S100000x64 .f32))
      (Cert.Spec.cur (V c main_v137 : FVec Ideal S64x192 .f32)))
    (Cert.Spec.cur (V c main_v119 : FVec Ideal S100000x64 .f32)) (Cert.Spec.row (V c main_v132 : FVec Ideal S1x192 .f32))
    (Cert.Spec.cur (V c main_v139 : FVec Ideal S64x192 .f32)) (Cert.Spec.row (V c main_v135 : FVec Ideal S1x192 .f32))
    (j 0) (j 1)

theorem idx : ∀ t : Fin cfg5.N, win5_0.index t (0 : Fin 2) = t.val ∧ win5_1.index t (0 : Fin 2) = t.val
    ∧ win5_6.index t (0 : Fin 2) = t.val :=
  (by decide +kernel : ∀ t : Fin grid5.N, _)

-- Row r of block t is row 2000 t + r of the messages and of the state, the weight blocks are the weights, and the update reads one row.
theorem flushed_eq (c : Dev nD) (t : Fin cfg5.N) :
    (dat5 V c).flushed 6 t = ((cfg5.win 6).blk t).view.read (Elt Ideal) (lastUpdate V c) := by
  obtain ⟨e0, e1, eo⟩ := idx t
  show (cfg5.win 6).cut (grid5.coords t) ((dat5 V c).after 6 t) = _
  rw [after5_6]
  unfold out5_6
  rw [View.canon_unit_zero zero_pair]
  simp only [View.ld_unit_zero (S := S2000x64) zero_pair, View.ld_unit_zero (S := S64x192) zero_pair,
    View.ld_unit_zero (S := S1x192) zero_pair]
  funext y
  obtain ⟨r, d, rfl⟩ : ∃ (r : Fin 2000) (d : Fin 64), y = ix2 r d := ⟨y 0, y 1, eq_ix2 y⟩
  have hi : t.val * 2000 + r.val < 100000 := by have := t.isLt; have := (show cfg5.N = 50 from N_5); omega
  refine ((gru_pay_at _ _ _ _ _ _ r d).trans ?_).trans (congrArg (lastUpdate V c) (emb_rows eo r d ⟨_, hi⟩ rfl)).symm
  exact GruAt.gruStep_row (fun q => congrArg (V c main_v129) (emb_rows e0 r q _ rfl))
    (fun q => congrArg (V c main_v119) (emb_rows e1 r q _ rfl)) (congrArg Cert.Spec.cur (read_whole main_v137 _))
    (congrArg Cert.Spec.row (read_whole main_v132 _)) (congrArg Cert.Spec.cur (read_whole main_v139 _))
    (congrArg Cert.Spec.row (read_whole main_v135 _)) d

theorem cover (i : S100000x64.Idx) :
    ∃ t : Fin cfg5.N, (cfg5.win 6).flush t = true ∧ i ∈ ((cfg5.win 6).blk t).view.set :=
  cover_rows (by have := N_5; omega) (fun t => View.set_slice_whole main_v140 (win5_6.rect t))
    (fun t => (idx t).2.2) flush5_6 i

end Reg5

variable (V : (c : Dev nD) → (b : Ref sig .tc) → Buf (Elt Ideal) ((c : Thread nD τ).loc b))

theorem arr5 (c : Dev nD) (i : Fin 100000) (d : Fin 64) :
    ((dat5 (F := Ideal) V c).arrAt 6 cfg5.N : FVec Ideal S100000x64 .f32) (ix2 i d)
      = Cert.Spec.gruStep
          (Cert.Spec.mm (Cert.Spec.cur (V c main_v129 : FVec Ideal S100000x64 .f32))
            (Cert.Spec.cur (V c main_v137 : FVec Ideal S64x192 .f32)))
          (Cert.Spec.cur (V c main_v119 : FVec Ideal S100000x64 .f32))
          (Cert.Spec.row (V c main_v132 : FVec Ideal S1x192 .f32))
          (Cert.Spec.cur (V c main_v139 : FVec Ideal S64x192 .f32))
          (Cert.Spec.row (V c main_v135 : FVec Ideal S1x192 .f32)) i d :=
  congrFun ((dat5 V c).arrAt_eq_of_cover 6 (Reg5.lastUpdate V c) (fun t _ => Reg5.flushed_eq V c t) Reg5.cover) (ix2 i d)

end Cert.KernelIdeal.KVal

end
-- ==== Proof.KTail1.lean ====
import proofs.«421876_j2267742732766_4_alg».proof.Proof.KLayerLib
import proofs.«421876_j2267742732766_4_alg».proof.Proof.KReg5
import proofs.«421876_j2267742732766_4_alg».proof.Proof.LibMsgChain

noncomputable section

namespace Cert.KernelIdeal.KVal

open Cert.KernelIdeal Cert.KernelIdeal.Gen Idealize.ShloMosaic Idealize.ShloMosaic.ValueIdx
open LayerLib

variable (m : (ℓ : Loc nD τ sig) → Buf (Elt Ideal) ℓ) (ρ : Dev nD → PrngReg)

namespace Tail1

def host5W : List (Ref sig .tc) :=
  [main_c_10, main_v120, main_v121, main_c_11, main_v122, main_v123, main_v124, main_v125, main_v126, main_cst_12,
   main_v127, main_v128, main_v129, main_v130, main_v131, main_v132, main_v133, main_v134, main_v135, main_v136,
   main_v137, main_v138, main_v139]

theorem host5_writes : (hostOps5 : List (HloOp τ sig (Elt Ideal))).Forall fun op =>
    op.writes ⊆ (host5W.map (Proc.devRef (τ := τ) .tc)).toFinset := by
  host_writes hostOps5

-- The host stretch writes no persistent buffer, and none of the region's arrays is one.
theorem persist12 (c : Dev nD) (h : Persist m c (W10 m ρ c)) : Persist m c (W12 m ρ c) :=
  (h.after m hostOps5 host5W host5_writes (by decide)).of_agree m fun b hb =>
    W12_of_ne m ρ c b ((by decide : ∀ b ∈ persistRefs, ∀ w, Pipeline.arrRef spec5 w ≠ b) b hb)

end Tail1

open Tail1 in
-- The region's result is the gated step of its operands: the messages of the state, the state, and member 4 of each stack.
theorem lastUpdate (c : Dev nD) (X : Cert.Spec.Mat 100000 64)
    (h : LayerIn m c (W10 m ρ c) (W10 m ρ c (Proc.devRef .tc main_v119)) X) :
    LayerIn m c (W12 m ρ c) (W12 m ρ c (Proc.devRef .tc main_v140)) (Cert.Spec.updK (argsK m c) 4 X) where
  keep := persist12 m ρ c h.keep
  state := fun i d => by
    have e1 : Cert.Spec.cur (W10 m ρ c (Proc.devRef .tc main_v119) : FVec Ideal S100000x64 .f32) = X :=
      funext fun i' => funext fun d' => h.state i' d'
    have eX : Cert.Spec.cur (V11 m ρ c main_v119) = X :=
      (congrArg Cert.Spec.cur (StableHlo.after_of_writes_sub hostOps5 (W10 m ρ c) host5_writes (by decide))).trans e1
    have eM : Cert.Spec.cur (V11 m ρ c main_v129) = Cert.Spec.msgA (argsK m c) X := funext fun v => funext fun q => by
      show StableHlo.after hostOps5 (W10 m ρ c) (Proc.devRef .tc main_v129) (ix2 v q) = _
      after_results_simp
      refine (Cert.LibMsgChain.msgChain_apply (by decide) 100000#32
        gather_S100000x64_S1600000x1_S1600000x64_1_0_n_n_0_1_164 rfl rfl rfl rfl rfl
        scatter_S100000x64_S1600000x1_S1600000x64_1_0_0_1 rfl rfl rfl rfl bcast_S_S100000x64 bcast_S_S1600000
        bcast_S1600000_S1600000x1_0 _ _ _ v q).trans ?_
      rw [e1, show Cert.Spec.vec (W10 m ρ c (Proc.devRef .tc main_v1) : IVec S1600000 32) = (argsK m c).src from
        funext fun e => h.keep.src e, show Cert.Spec.vec (W10 m ρ c (Proc.devRef .tc main_v3) : IVec S1600000 32)
        = (argsK m c).dst from funext fun e => h.keep.dst e, Cert.Spec.msgA]
    have eW : Cert.Spec.cur (V11 m ρ c main_v137) = Cert.Spec.mm ((argsK m c).cW 4) ((argsK m c).Wih 4) :=
      funext fun a => funext fun b => by
        show StableHlo.after hostOps5 (W10 m ρ c) (Proc.devRef .tc main_v137) (ix2 a b) = _
        after_results
        exact (slab_apply (n := 5) 4 (by decide) _ _ _ a b).trans (h.keep.weff 4 a b)
    have eWh : Cert.Spec.cur (V11 m ρ c main_v139) = (argsK m c).Whh 4 := funext fun a => funext fun b => by
      show StableHlo.after hostOps5 (W10 m ρ c) (Proc.devRef .tc main_v139) (ix2 a b) = _
      after_results
      rw [h.keep.arg11]
      exact slab_apply (n := 5) 4 (by decide) _ _ _ a b
    have eBi : Cert.Spec.row (V11 m ρ c main_v132) = (argsK m c).bih 4 := funext fun j => by
      show StableHlo.after hostOps5 (W10 m ρ c) (Proc.devRef .tc main_v132) (ix2 (0 : Fin 1) j) = _
      after_results
      rw [h.keep.arg10]
      exact rowSlab_apply (n := 5) 4 (by decide) _ _ _ _ j
    have eBh : Cert.Spec.row (V11 m ρ c main_v135) = (argsK m c).bhh 4 := funext fun j => by
      show StableHlo.after hostOps5 (W10 m ρ c) (Proc.devRef .tc main_v135) (ix2 (0 : Fin 1) j) = _
      after_results
      rw [h.keep.arg12]
      exact rowSlab_apply (n := 5) 4 (by decide) _ _ _ _ j
    refine ((congrFun (W12_arr m ρ c 6) (ix2 i d)).trans (arr5 (V := V11 m ρ) c i d)).trans ?_
    rw [eM, eW, eX, eBi, eWh, eBh, Cert.Spec.updK]

end Cert.KernelIdeal.KVal

end
-- ==== Proof.KReg8.lean ====
import proofs.«421876_j2267742732766_4_alg».proof.Proof.Gen.KernelIdeal.Frame
import proofs.«421876_j2267742732766_4_alg».proof.Proof.Spec
import proofs.«421876_j2267742732766_4_alg».proof.Proof.LibPlainDot
import proofs.«421876_j2267742732766_4_alg».proof.Proof.LibBlocks
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

open scoped BigOperators

namespace Cert.KernelIdeal.KVal

open Cert.KernelIdeal Cert.KernelIdeal.Gen Idealize.ShloMosaic Idealize.ShloMosaic.ValueIdx
open Idealize.ShloMosaic.TcCoe

-- The comparison's bit is one exactly when 0 < v.
theorem eluAt8 (v : EReal) :
    Scalar.select (Ideal.cmp .ogt v 0) v (Ideal.exp v - 1) = if 0 < v then v else Ideal.exp v - 1 := by
  by_cases h : 0 < v
  · rw [if_pos h, show Ideal.cmp .ogt v 0 = 1#1 from congrArg BitVec.ofBool (decide_eq_true h)]
    exact select_one _ _
  · rw [if_neg h, show Ideal.cmp .ogt v 0 = 0#1 from congrArg BitVec.ofBool (decide_eq_false h)]
    exact select_zero _ _

def elu8 {M N : Nat} (v : FVec Ideal (⟨2, ![M, N]⟩ : Shape) .f32) : FVec Ideal (⟨2, ![M, N]⟩ : Shape) .f32 :=
  select (cmpf .ogt v (broadcast (⟨2, ![M, N]⟩ : Shape) (Scalar.ofBits (F := Ideal) .f32 0x00000000#32))) v
    (subf (exp v) (broadcast (⟨2, ![M, N]⟩ : Shape) (Scalar.ofBits (F := Ideal) .f32 0x3F800000#32)))

-- Entry by entry; the two constants are the numbers zero and one.
theorem cur_elu8 {M N : Nat} (v : FVec Ideal (⟨2, ![M, N]⟩ : Shape) .f32) :
    Cert.Spec.cur (elu8 v) = Cert.Spec.elu (Cert.Spec.cur v) :=
  funext fun i => funext fun j => by
    show Scalar.select (Ideal.cmp .ogt (v (ix2 i j)) (Ideal.ofBits .f32 0x00000000#32)) (v (ix2 i j))
        (Ideal.exp (v (ix2 i j)) - (Ideal.ofBits .f32 0x3F800000#32 : EReal)) = _
    rw [Ideal.ofBits_zero_f32, Ideal.ofBits_one_f32]
    exact eluAt8 _

section Layer

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])
  (hc : (⟨2, ![1, N]⟩ : Shape).ShapeCasts ⟨2, ![1, N]⟩) (hb : (⟨2, ![1, N]⟩ : Shape).Broadcasts ⟨2, ![M, N]⟩)
  (x : FVec Ideal (⟨2, ![M, K]⟩ : Shape) .f32) (W : FVec Ideal (⟨2, ![K, N]⟩ : Shape) .f32)
  (b : FVec Ideal (⟨2, ![1, N]⟩ : Shape) .f32)

def layer8 : FVec Ideal (⟨2, ![M, N]⟩ : Shape) .f32 :=
  addf (matmul d none x W (constant (⟨2, ![M, N]⟩ : Shape) .f32 0x00000000#32))
    (broadcastTo (⟨2, ![M, N]⟩ : Shape) (shapeCast (⟨2, ![1, N]⟩ : Shape) b hc) hb)

include hlc hrc hln hrn hlb hrb

-- A product into the zero accumulator plus a bias row spread down the rows is the affine layer.
theorem cur_layer8 : Cert.Spec.cur (layer8 d hc hb x W b)
    = Cert.Spec.affine (Cert.Spec.cur x) (Cert.Spec.cur W) (Cert.Spec.row b) :=
  funext fun i => funext fun j => by
    show layer8 d hc hb x W b (ix2 i j) = _
    unfold layer8
    rw [addf_apply, shapeCast_self, broadcastTo_1b_ab_apply,
      Cert.LibPlainDot.matmul_zero_apply' d hlc hrc hln hrn hlb hrb]
    rfl

end Layer

-- The body is three affine layers with the unit after the first two.
theorem cur_body8 (x0 : Vec Ideal S64x64 .f32) (x1 : Vec Ideal S64x32 .f32) (x2 : Vec Ideal S1x32 .f32)
    (x3 : Vec Ideal S32x16 .f32) (x4 : Vec Ideal S1x16 .f32) (x5 : Vec Ideal S16x1 .f32) (x6 : Vec Ideal S1x1 .f32) :
    Cert.Spec.cur (k8_pay1 x0 x1 x2 x3 x4 x5 x6 : FVec Ideal S64x1 .f32)
      = Cert.Spec.head (Cert.Spec.cur x0) (Cert.Spec.cur x1) (Cert.Spec.row x2) (Cert.Spec.cur x3) (Cert.Spec.row x4)
          (Cert.Spec.cur x5) (Cert.Spec.row x6) := by
  show Cert.Spec.cur (layer8 dot_S64x16_S16x1_S64x1_1_0_0_1_n_n shapeCasts_S1x1_S1x1 broadcasts_S1x1_S64x1
      (elu8 (layer8 dot_S64x32_S32x16_S64x16_1_0_0_1_n_n shapeCasts_S1x16_S1x16 broadcasts_S1x16_S64x16
        (elu8 (layer8 dot_S64x64_S64x32_S64x32_1_0_0_1_n_n shapeCasts_S1x32_S1x32 broadcasts_S1x32_S64x32
          (shapeCast S64x64 x0 shapeCasts_S64x64_S64x64) x1 x2)) x3 x4)) x5 x6) = _
  rw [cur_layer8 dot_S64x16_S16x1_S64x1_1_0_0_1_n_n rfl rfl rfl rfl rfl rfl, cur_elu8,
    cur_layer8 dot_S64x32_S32x16_S64x16_1_0_0_1_n_n rfl rfl rfl rfl rfl rfl, cur_elu8,
    cur_layer8 dot_S64x64_S64x32_S64x32_1_0_0_1_n_n rfl rfl rfl rfl rfl rfl, shapeCast_self]
  rfl

section Region

variable (V : (c : Dev nD) → (b : Ref sig .tc) → Buf (Elt Ideal) ((c : Thread nD τ).loc b))

def headArr8 (c : Dev nD) : S64x1.Idx → EReal := fun k =>
  Cert.Spec.head (Cert.Spec.cur (V c main_v155)) (Cert.Spec.cur (V c main_arg21)) (Cert.Spec.row (V c main_v156))
    (Cert.Spec.cur (V c main_arg23)) (Cert.Spec.row (V c main_v157)) (Cert.Spec.cur (V c main_arg25))
    (Cert.Spec.row (V c main_v158)) (k 0) (k 1)

-- Every block is as large as its array, so the one store leaves the body's value of the arrays.
theorem written8 (c : Dev nD) (t : Fin cfg8.N) :
    (dat8 V c).flushed 7 t = ((cfg8.win 7).blk t).view.read (Elt Ideal) (headArr8 V c) := by
  show (cfg8.win 7).cut (grid8.coords t) ((dat8 V c).after 7 t) = _
  rw [after8_7,
    show ((cfg8.win 7).blk t).view.read (Elt Ideal) (headArr8 V c) = headArr8 V c from Blocks.read_whole main_v159 _,
    show iblk8 V c 0 t = V c main_v155 from Blocks.read_whole main_v155 _,
    show iblk8 V c 1 t = V c main_arg21 from Blocks.read_whole main_arg21 _,
    show iblk8 V c 2 t = V c main_v156 from Blocks.read_whole main_v156 _,
    show iblk8 V c 3 t = V c main_arg23 from Blocks.read_whole main_arg23 _,
    show iblk8 V c 4 t = V c main_v157 from Blocks.read_whole main_v157 _,
    show iblk8 V c 5 t = V c main_arg25 from Blocks.read_whole main_arg25 _,
    show iblk8 V c 6 t = V c main_v158 from Blocks.read_whole main_v158 _]
  unfold out8_7
  rw [View.canon_unit_zero Blocks.zero_pair]
  simp only [View.ld_unit_zero (S := ⟨2, _⟩) Blocks.zero_pair]
  funext j
  obtain ⟨p, q, rfl⟩ : ∃ (p : Fin 64) (q : Fin 1), j = ix2 p q := ⟨j 0, j 1, eq_ix2 j⟩
  exact congrFun (congrFun (cur_body8 _ _ _ _ _ _ _) p) q

theorem arr8 (c : Dev nD) (i : Fin 64) (d : Fin 1) :
    ((dat8 (F := Ideal) V c).arrAt 7 cfg8.N : FVec Ideal S64x1 .f32) (ix2 i d)
      = Cert.Spec.head (Cert.Spec.cur (V c main_v155)) (Cert.Spec.cur (V c main_arg21)) (Cert.Spec.row (V c main_v156))
          (Cert.Spec.cur (V c main_arg23)) (Cert.Spec.row (V c main_v157)) (Cert.Spec.cur (V c main_arg25))
          (Cert.Spec.row (V c main_v158)) i d :=
  congrFun ((dat8 V c).arrAt_eq_of_cover 7 (headArr8 V c) (fun t _ => written8 V c t) fun k =>
    ⟨t8_0, flush8_7 t8_0, by
      show k ∈ ((View.whole main_v159).slice (win8_7.rect t8_0)).set
      rw [View.set_slice_whole]
      exact Blocks.mem_whole k⟩) (ix2 i d)

end Region

end Cert.KernelIdeal.KVal

end
-- ==== Proof.KReg6.lean ====
import proofs.«421876_j2267742732766_4_alg».proof.Proof.KReg8

noncomputable section

open scoped BigOperators

namespace Cert.KernelIdeal.KVal

open Cert.KernelIdeal Cert.KernelIdeal.Gen Idealize.ShloMosaic Idealize.ShloMosaic.TcCoe Idealize.ShloMosaic.ValueIdx
open Idealize.ShloMosaic.Pipeline (Dat)

section Shared

def relu6 {M N : Nat} (v : FVec Ideal (⟨2, ![M, N]⟩ : Shape) .f32) : FVec Ideal (⟨2, ![M, N]⟩ : Shape) .f32 :=
  maximumf v (broadcast (⟨2, ![M, N]⟩ : Shape) (Scalar.ofBits (F := Ideal) .f32 0x00000000#32))

-- Entry by entry; the constant is the number zero.
theorem cur_relu6 {M N : Nat} (v : FVec Ideal (⟨2, ![M, N]⟩ : Shape) .f32) :
    Cert.Spec.cur (relu6 v) = Cert.Spec.relu (Cert.Spec.cur v) :=
  funext fun i => funext fun j => by
    show max (v (ix2 i j)) (Ideal.ofBits .f32 0x00000000#32) = max (v (ix2 i j)) 0
    rw [Ideal.ofBits_zero_f32]

-- A row of the perceptron's result reads only the same row of its first argument.
theorem mlp_row6 {n n' : Nat} (x : Cert.Spec.Mat n 64) (x' : Cert.Spec.Mat n' 64) (W1 : Cert.Spec.Mat 64 64)
    (b1 : Cert.Spec.Vc 64) (W2 : Cert.Spec.Mat 64 64) (b2 : Cert.Spec.Vc 64) (i : Fin n) (i' : Fin n')
    (h : ∀ q, x i q = x' i' q) (d : Fin 64) :
    Cert.Spec.mlp x W1 b1 W2 b2 i d = Cert.Spec.mlp x' W1 b1 W2 b2 i' d := by
  unfold Cert.Spec.mlp Cert.Spec.affine Cert.Spec.addRow Cert.Spec.relu Cert.Spec.mm
  simp only [h]

end Shared

variable (V : (c : Dev nD) → (b : Ref sig .tc) → Buf (Elt Ideal) ((c : Thread nD τ).loc b))

namespace Reg6

-- The body is two affine layers with the rectifier between them.
theorem cur_body6 (x : FVec Ideal S4000x64 .f32) (W1 : FVec Ideal S64x64 .f32) (b1 : FVec Ideal S1x64 .f32)
    (W2 : FVec Ideal S64x64 .f32) (b2 : FVec Ideal S1x64 .f32) :
    Cert.Spec.cur (k6_pay1 (F := Ideal) x W1 b1 W2 b2)
      = Cert.Spec.mlp (Cert.Spec.cur x) (Cert.Spec.cur W1) (Cert.Spec.row b1) (Cert.Spec.cur W2) (Cert.Spec.row b2) := by
  show Cert.Spec.cur (layer8 dot_S4000x64_S64x64_S4000x64_1_0_0_1_n_n shapeCasts_S1x64_S1x64 broadcasts_S1x64_S4000x64
      (relu6 (layer8 dot_S4000x64_S64x64_S4000x64_1_0_0_1_n_n shapeCasts_S1x64_S1x64 broadcasts_S1x64_S4000x64
        (shapeCast S4000x64 x shapeCasts_S4000x64_S4000x64) W1 b1)) W2 b2) = _
  rw [cur_layer8 dot_S4000x64_S64x64_S4000x64_1_0_0_1_n_n rfl rfl rfl rfl rfl rfl, cur_relu6,
    cur_layer8 dot_S4000x64_S64x64_S4000x64_1_0_0_1_n_n rfl rfl rfl rfl rfl rfl, shapeCast_self]
  rfl

def mlpArr6 (c : Dev nD) : FVec Ideal S20000x64 .f32 := fun k =>
  Cert.Spec.mlp (Cert.Spec.cur (V c main_v143)) (Cert.Spec.cur (V c main_arg13)) (Cert.Spec.row (V c main_v144))
    (Cert.Spec.cur (V c main_arg15)) (Cert.Spec.row (V c main_v145)) (k 0) (k 1)

theorem blockIndex6 : ∀ t : Fin cfg6.N, win6_0.index t (0 : Fin 2) = t.val ∧ win6_5.index t (0 : Fin 2) = t.val :=
  (by decide +kernel : ∀ t : Fin grid6.N, _)

-- Row r of block t is row 4000 t + r of the array, the other blocks are their arrays, and the perceptron works row by row.
theorem written6 (c : Dev nD) (t : Fin cfg6.N) :
    (dat6 V c).flushed 5 t = ((cfg6.win 5).blk t).view.read (Elt Ideal) (mlpArr6 V c) := by
  show (cfg6.win 5).cut (grid6.coords t) ((dat6 V c).after 5 t) = _
  rw [after6_5,
    show iblk6 V c 1 t = V c main_arg13 from Blocks.read_whole main_arg13 _,
    show iblk6 V c 2 t = V c main_v144 from Blocks.read_whole main_v144 _,
    show iblk6 V c 3 t = V c main_arg15 from Blocks.read_whole main_arg15 _,
    show iblk6 V c 4 t = V c main_v145 from Blocks.read_whole main_v145 _]
  unfold out6_5
  rw [View.canon_unit_zero Blocks.zero_pair]
  simp only [View.ld_unit_zero (S := ⟨2, _⟩) Blocks.zero_pair]
  obtain ⟨e0, e5⟩ := blockIndex6 t
  have ht : t.val < 5 := lt_of_lt_of_eq t.isLt N_6
  funext j
  obtain ⟨r, d, rfl⟩ : ∃ (r : Fin 4000) (d : Fin 64), j = ix2 r d := ⟨j 0, j 1, eq_ix2 j⟩
  have hi : t.val * 4000 + r.val < 20000 := by have := r.isLt; omega
  refine ((congrFun (congrFun (cur_body6 _ _ _ _ _) r) d).trans ?_).trans
    (congrArg (mlpArr6 V c) (Blocks.emb_rows e5 r d ⟨_, hi⟩ rfl)).symm
  exact mlp_row6 _ _ _ _ _ _ r _ (fun q => congrArg (V c main_v143) (Blocks.emb_rows e0 r q ⟨_, hi⟩ rfl)) d

end Reg6

-- The blocks of 4000 rows cover the 20000 rows.
theorem arr6 (c : Dev nD) (i : Fin 20000) (d : Fin 64) :
    ((dat6 (F := Ideal) V c).arrAt 5 cfg6.N : FVec Ideal S20000x64 .f32) (ix2 i d)
      = Cert.Spec.mlp (Cert.Spec.cur (V c main_v143)) (Cert.Spec.cur (V c main_arg13)) (Cert.Spec.row (V c main_v144))
          (Cert.Spec.cur (V c main_arg15)) (Cert.Spec.row (V c main_v145)) i d :=
  congrFun ((dat6 V c).arrAt_eq_of_cover 5 (Reg6.mlpArr6 V c) (fun t _ => Reg6.written6 V c t)
    (Blocks.cover_rows (R := 4000) (by decide) (fun t => View.set_slice_whole main_v146 (win6_5.rect t))
      (fun t => (Reg6.blockIndex6 t).2) flush6_5)) (ix2 i d)

end Cert.KernelIdeal.KVal

end
-- ==== Proof.KReg7.lean ====
import proofs.«421876_j2267742732766_4_alg».proof.Proof.KReg6

noncomputable section

open scoped BigOperators

namespace Cert.KernelIdeal.KVal

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace Reg7

-- The body is two affine layers with the rectifier between them.
theorem cur_body7 (x : FVec Ideal S2000x64 .f32) (W1 : FVec Ideal S64x64 .f32) (b1 : FVec Ideal S1x64 .f32)
    (W2 : FVec Ideal S64x64 .f32) (b2 : FVec Ideal S1x64 .f32) :
    Cert.Spec.cur (k7_pay1 (F := Ideal) x W1 b1 W2 b2)
      = Cert.Spec.mlp (Cert.Spec.cur x) (Cert.Spec.cur W1) (Cert.Spec.row b1) (Cert.Spec.cur W2) (Cert.Spec.row b2) := by
  show Cert.Spec.cur (layer8 dot_S2000x64_S64x64_S2000x64_1_0_0_1_n_n shapeCasts_S1x64_S1x64 broadcasts_S1x64_S2000x64
      (relu6 (layer8 dot_S2000x64_S64x64_S2000x64_1_0_0_1_n_n shapeCasts_S1x64_S1x64 broadcasts_S1x64_S2000x64
        (shapeCast S2000x64 x shapeCasts_S2000x64_S2000x64) W1 b1)) W2 b2) = _
  rw [cur_layer8 dot_S2000x64_S64x64_S2000x64_1_0_0_1_n_n rfl rfl rfl rfl rfl rfl, cur_relu6,
    cur_layer8 dot_S2000x64_S64x64_S2000x64_1_0_0_1_n_n rfl rfl rfl rfl rfl rfl, shapeCast_self]
  rfl

def mlpArr7 (c : Dev nD) : FVec Ideal S2000x64 .f32 := fun k =>
  Cert.Spec.mlp (Cert.Spec.cur (V c main_v149)) (Cert.Spec.cur (V c main_arg17)) (Cert.Spec.row (V c main_v150))
    (Cert.Spec.cur (V c main_arg19)) (Cert.Spec.row (V c main_v151)) (k 0) (k 1)

theorem blockIndex7 : ∀ t : Fin cfg7.N, win7_0.index t (0 : Fin 2) = t.val ∧ win7_5.index t (0 : Fin 2) = t.val :=
  (by decide +kernel : ∀ t : Fin grid7.N, _)

-- Row r of block t is row 2000 t + r of the array, the other blocks are their arrays, and the perceptron works row by row.
theorem written7 (c : Dev nD) (t : Fin cfg7.N) :
    (dat7 V c).flushed 5 t = ((cfg7.win 5).blk t).view.read (Elt Ideal) (mlpArr7 V c) := by
  show (cfg7.win 5).cut (grid7.coords t) ((dat7 V c).after 5 t) = _
  rw [after7_5,
    show iblk7 V c 1 t = V c main_arg17 from Blocks.read_whole main_arg17 _,
    show iblk7 V c 2 t = V c main_v150 from Blocks.read_whole main_v150 _,
    show iblk7 V c 3 t = V c main_arg19 from Blocks.read_whole main_arg19 _,
    show iblk7 V c 4 t = V c main_v151 from Blocks.read_whole main_v151 _]
  unfold out7_5
  rw [View.canon_unit_zero Blocks.zero_pair]
  simp only [View.ld_unit_zero (S := ⟨2, _⟩) Blocks.zero_pair]
  obtain ⟨e0, e5⟩ := blockIndex7 t
  have ht : t.val < 1 := lt_of_lt_of_eq t.isLt N_7
  funext j
  obtain ⟨r, d, rfl⟩ : ∃ (r : Fin 2000) (d : Fin 64), j = ix2 r d := ⟨j 0, j 1, eq_ix2 j⟩
  have hi : t.val * 2000 + r.val < 2000 := by have := r.isLt; omega
  refine ((congrFun (congrFun (cur_body7 _ _ _ _ _) r) d).trans ?_).trans
    (congrArg (mlpArr7 V c) (Blocks.emb_rows e5 r d ⟨_, hi⟩ rfl)).symm
  exact mlp_row6 _ _ _ _ _ _ r _ (fun q => congrArg (V c main_v149) (Blocks.emb_rows e0 r q ⟨_, hi⟩ rfl)) d

end Reg7

-- The blocks of 2000 rows cover the 2000 rows.
theorem arr7 (c : Dev nD) (i : Fin 2000) (d : Fin 64) :
    ((dat7 (F := Ideal) V c).arrAt 5 cfg7.N : FVec Ideal S2000x64 .f32) (ix2 i d)
      = Cert.Spec.mlp (Cert.Spec.cur (V c main_v149)) (Cert.Spec.cur (V c main_arg17)) (Cert.Spec.row (V c main_v150))
          (Cert.Spec.cur (V c main_arg19)) (Cert.Spec.row (V c main_v151)) i d :=
  congrFun ((dat7 V c).arrAt_eq_of_cover 5 (Reg7.mlpArr7 V c) (fun t _ => Reg7.written7 V c t)
    (Blocks.cover_rows (R := 2000) (by decide) (fun t => View.set_slice_whole main_v152 (win7_5.rect t))
      (fun t => (Reg7.blockIndex7 t).2) flush7_5)) (ix2 i d)

end Cert.KernelIdeal.KVal

end
-- ==== Proof.KTail2.lean ====
import proofs.«421876_j2267742732766_4_alg».proof.Proof.KLayerLib
import proofs.«421876_j2267742732766_4_alg».proof.Proof.KReg6
import proofs.«421876_j2267742732766_4_alg».proof.Proof.KReg7
import proofs.«421876_j2267742732766_4_alg».proof.Proof.KReg8
import proofs.«421876_j2267742732766_4_alg».proof.Proof.LibMsgChain

noncomputable section

namespace Cert.KernelIdeal.KVal

open Cert.KernelIdeal Cert.KernelIdeal.Gen Idealize.ShloMosaic Idealize.ShloMosaic.TcCoe Idealize.ShloMosaic.ValueIdx
open LayerLib

variable (m : (ℓ : Loc nD τ sig) → Buf (Elt Ideal) ℓ) (ρ : Dev nD → PrngReg)

namespace Tail2

-- A vector cast to a one-row matrix has the vector as its row: the cast keeps the row-major position.
theorem row_cast {k : Nat} (x : (⟨1, ![k]⟩ : Shape).Idx → EReal)
    (h : (⟨1, ![k]⟩ : Shape).ShapeCasts (⟨2, ![1, k]⟩ : Shape)) :
    Cert.Spec.row (fun i => shapeCast (⟨2, ![1, k]⟩ : Shape) x h i) = Cert.Spec.vec x :=
  funext fun j => shapeCast_a_1a_apply x h 0 j

-- A scatter-add into zeros at the column of the ids is the segment sum of the rows.
theorem pool_cur {N S : Nat} (sd : ScatterDims (⟨2, ![S, 64]⟩ : Shape) (⟨2, ![N, 1]⟩ : Shape) (⟨2, ![N, 64]⟩ : Shape))
    (huw : sd.updateWindowDims = [1]) (hiw : sd.insertedWindowDims = [0])
    (hsd : sd.scatterDimsToOperandDims = [0]) (hiv : sd.indexVectorDim = 1)
    (hb0 : (⟨0, ![]⟩ : Shape).BroadcastsInDim (⟨2, ![S, 64]⟩ : Shape) (![] : Fin 0 → Fin 2))
    (hb1 : (⟨1, ![N]⟩ : Shape).BroadcastsInDim (⟨2, ![N, 1]⟩ : Shape) (![0] : Fin 1 → Fin 2))
    (x : FVec Ideal (⟨2, ![N, 64]⟩ : Shape) .f32) (ids : IVec (⟨1, ![N]⟩ : Shape) 32) {X : Cert.Spec.Mat N 64}
    {I : Fin N → BitVec 32} (hx : Cert.Spec.cur x = X) (hi : Cert.Spec.vec ids = I) :
    Cert.Spec.cur (Host.scatterAdd sd
        (broadcastInDim (⟨2, ![S, 64]⟩ : Shape) ![] hb0 (constant (F := Ideal) (⟨0, ![]⟩ : Shape) .f32 0x00000000#32))
        (broadcastInDim (⟨2, ![N, 1]⟩ : Shape) ![0] hb1 ids) x) = Cert.Spec.pool (s := S) X I := by
  subst hx hi
  exact funext fun v => funext fun j => Cert.LibMsgChain.poolChain_apply sd huw hiw hsd hiv hb0 hb1 x ids v j

/-- The state after the first and after the second pooling perceptron. -/
def y6 (a : Cert.Spec.Args) (Y : Cert.Spec.Mat 100000 64) : Cert.Spec.Mat 20000 64 :=
  Cert.Spec.mlp (Cert.Spec.pool (s := 20000) Y a.n2s) a.eW1 a.eb1 a.eW2 a.eb2
def y7 (a : Cert.Spec.Args) (Y : Cert.Spec.Mat 100000 64) : Cert.Spec.Mat 2000 64 :=
  Cert.Spec.mlp (Cert.Spec.pool (s := 2000) (y6 a Y) a.s2s) a.nW1 a.nb1 a.nW2 a.nb2

-- A host stretch writes no persistent buffer; a region leaves as it entered every buffer that is none of its arrays or an input's.
theorem persist13 (c : Dev nD) (h : Persist m c (W12 m ρ c)) : Persist m c (W13 m ρ c) :=
  h.after m hostOps6 [main_cst_13, main_v141, main_v142, main_v143, main_v144, main_v145] (by host_writes hostOps6)
    (by decide)

theorem persist14 (c : Dev nD) (h : Persist m c (W12 m ρ c)) : Persist m c (W14 m ρ c) :=
  (persist13 m ρ c h).of_agree m fun b hb =>
    ((by decide : ∀ b ∈ persistRefs, (∀ w, Pipeline.arrRef spec6 w ≠ b) ∨
        ∃ w : Fin cfg6.W, (cfg6.win w).isOut = false ∧ Pipeline.arrRef spec6 w = b) b hb).elim (W14_of_ne m ρ c b)
      fun ⟨w, hw, e⟩ => by
        subst e
        exact (W14_arr m ρ c w).trans (((dat6 (V13 m ρ) c).arrAt_in w hw _).trans (A_eq6 (V13 m ρ) c w))

theorem persist15 (c : Dev nD) (h : Persist m c (W12 m ρ c)) : Persist m c (W15 m ρ c) :=
  (persist14 m ρ c h).after m hostOps7 [main_cst_14, main_v147, main_v148, main_v149, main_v150, main_v151]
    (by host_writes hostOps7) (by decide)

theorem persist16 (c : Dev nD) (h : Persist m c (W12 m ρ c)) : Persist m c (W16 m ρ c) :=
  (persist15 m ρ c h).of_agree m fun b hb =>
    ((by decide : ∀ b ∈ persistRefs, (∀ w, Pipeline.arrRef spec7 w ≠ b) ∨
        ∃ w : Fin cfg7.W, (cfg7.win w).isOut = false ∧ Pipeline.arrRef spec7 w = b) b hb).elim (W16_of_ne m ρ c b)
      fun ⟨w, hw, e⟩ => by
        subst e
        exact (W16_arr m ρ c w).trans (((dat7 (V15 m ρ) c).arrAt_in w hw _).trans (A_eq7 (V15 m ρ) c w))

theorem persist17 (c : Dev nD) (h : Persist m c (W12 m ρ c)) : Persist m c (W17 m ρ c) :=
  (persist16 m ρ c h).after m hostOps8
    [main_cst_15, main_v153, main_v154, main_v155, main_v156, main_v157, main_v158] (by host_writes hostOps8) (by decide)

-- The first pooling stage: the segment sum of the state and the two bias rows by the host, the perceptron by the region.
theorem out6 (c : Dev nD) (Y : Cert.Spec.Mat 100000 64)
    (h : LayerIn m c (W12 m ρ c) (W12 m ρ c (Proc.devRef .tc main_v140)) Y) :
    Cert.Spec.cur (W14 m ρ c (Proc.devRef .tc main_v146) : FVec Ideal S20000x64 .f32) = y6 (argsK m c) Y := by
  have P := persist13 m ρ c h.keep
  have ex : Cert.Spec.cur (V13 m ρ c main_v143) = Cert.Spec.pool (s := 20000) Y (argsK m c).n2s := by
    show Cert.Spec.cur (StableHlo.after hostOps6 (W12 m ρ c) (Proc.devRef .tc main_v143) : FVec Ideal S20000x64 .f32) = _
    after_results
    exact pool_cur _ rfl rfl rfl rfl _ _ _ _ (funext fun i => funext fun d => h.state i d)
      (congrArg Cert.Spec.vec h.keep.arg2)
  have e1 : Cert.Spec.row (V13 m ρ c main_v144) = (argsK m c).eb1 := by
    show Cert.Spec.row (StableHlo.after hostOps6 (W12 m ρ c) (Proc.devRef .tc main_v144) : FVec Ideal S1x64 .f32) = _
    after_results
    exact (row_cast _ _).trans (congrArg Cert.Spec.vec h.keep.arg14)
  have e2 : Cert.Spec.row (V13 m ρ c main_v145) = (argsK m c).eb2 := by
    show Cert.Spec.row (StableHlo.after hostOps6 (W12 m ρ c) (Proc.devRef .tc main_v145) : FVec Ideal S1x64 .f32) = _
    after_results
    exact (row_cast _ _).trans (congrArg Cert.Spec.vec h.keep.arg16)
  funext i d
  refine ((congrFun (W14_arr m ρ c 5) (ix2 i d)).trans (arr6 (V := V13 m ρ) c i d)).trans ?_
  rw [ex, e1, e2, show V13 m ρ c main_arg13 = _ from P.arg13, show V13 m ρ c main_arg15 = _ from P.arg15]
  rfl

-- The second pooling stage, likewise, from the first stage's result.
theorem out7 (c : Dev nD) (Y : Cert.Spec.Mat 100000 64)
    (h : LayerIn m c (W12 m ρ c) (W12 m ρ c (Proc.devRef .tc main_v140)) Y) :
    Cert.Spec.cur (W16 m ρ c (Proc.devRef .tc main_v152) : FVec Ideal S2000x64 .f32) = y7 (argsK m c) Y := by
  have Q := persist14 m ρ c h.keep
  have P := persist15 m ρ c h.keep
  have ex : Cert.Spec.cur (V15 m ρ c main_v149) = Cert.Spec.pool (s := 2000) (y6 (argsK m c) Y) (argsK m c).s2s := by
    show Cert.Spec.cur (StableHlo.after hostOps7 (W14 m ρ c) (Proc.devRef .tc main_v149) : FVec Ideal S2000x64 .f32) = _
    after_results
    exact pool_cur _ rfl rfl rfl rfl _ _ _ _ (out6 m ρ c Y h) (congrArg Cert.Spec.vec Q.arg3)
  have e1 : Cert.Spec.row (V15 m ρ c main_v150) = (argsK m c).nb1 := by
    show Cert.Spec.row (StableHlo.after hostOps7 (W14 m ρ c) (Proc.devRef .tc main_v150) : FVec Ideal S1x64 .f32) = _
    after_results
    exact (row_cast _ _).trans (congrArg Cert.Spec.vec Q.arg18)
  have e2 : Cert.Spec.row (V15 m ρ c main_v151) = (argsK m c).nb2 := by
    show Cert.Spec.row (StableHlo.after hostOps7 (W14 m ρ c) (Proc.devRef .tc main_v151) : FVec Ideal S1x64 .f32) = _
    after_results
    exact (row_cast _ _).trans (congrArg Cert.Spec.vec Q.arg20)
  funext i d
  refine ((congrFun (W16_arr m ρ c 5) (ix2 i d)).trans (arr7 (V := V15 m ρ) c i d)).trans ?_
  rw [ex, e1, e2, show V15 m ρ c main_arg17 = _ from P.arg17, show V15 m ρ c main_arg19 = _ from P.arg19]
  rfl

end Tail2

open Tail2 in
-- The last stage: the segment sum of the second stage's result and the three bias rows by the host, the head by the region.
theorem tailValue (c : Dev nD) (Y : Cert.Spec.Mat 100000 64)
    (h : LayerIn m c (W12 m ρ c) (W12 m ρ c (Proc.devRef .tc main_v140)) Y) (i : Fin 64) (d : Fin 1) :
    (W18 m ρ c (Proc.devRef .tc main_v159) : FVec Ideal S64x1 .f32) (ix2 i d) = Cert.Spec.tail (argsK m c) Y i d := by
  have Q := persist16 m ρ c h.keep
  have P := persist17 m ρ c h.keep
  have ex : Cert.Spec.cur (V17 m ρ c main_v155) = Cert.Spec.pool (s := 64) (y7 (argsK m c) Y) (argsK m c).s2g := by
    show Cert.Spec.cur (StableHlo.after hostOps8 (W16 m ρ c) (Proc.devRef .tc main_v155) : FVec Ideal S64x64 .f32) = _
    after_results
    exact pool_cur _ rfl rfl rfl rfl _ _ _ _ (out7 m ρ c Y h) (congrArg Cert.Spec.vec Q.arg4)
  have e1 : Cert.Spec.row (V17 m ρ c main_v156) = (argsK m c).fb1 := by
    show Cert.Spec.row (StableHlo.after hostOps8 (W16 m ρ c) (Proc.devRef .tc main_v156) : FVec Ideal S1x32 .f32) = _
    after_results
    exact (row_cast _ _).trans (congrArg Cert.Spec.vec Q.arg22)
  have e2 : Cert.Spec.row (V17 m ρ c main_v157) = (argsK m c).fb2 := by
    show Cert.Spec.row (StableHlo.after hostOps8 (W16 m ρ c) (Proc.devRef .tc main_v157) : FVec Ideal S1x16 .f32) = _
    after_results
    exact (row_cast _ _).trans (congrArg Cert.Spec.vec Q.arg24)
  have e3 : Cert.Spec.row (V17 m ρ c main_v158) = (argsK m c).fb3 := by
    show Cert.Spec.row (StableHlo.after hostOps8 (W16 m ρ c) (Proc.devRef .tc main_v158) : FVec Ideal S1x1 .f32) = _
    after_results
    exact (row_cast _ _).trans (congrArg Cert.Spec.vec Q.arg26)
  refine ((congrFun (W18_arr m ρ c 7) (ix2 i d)).trans (arr8 (V := V17 m ρ) c i d)).trans ?_
  rw [ex, e1, e2, e3, show V17 m ρ c main_arg21 = _ from P.arg21, show V17 m ρ c main_arg23 = _ from P.arg23,
    show V17 m ρ c main_arg25 = _ from P.arg25]
  rfl

end Cert.KernelIdeal.KVal

end
-- ==== Proof.KValue.lean ====
import proofs.«421876_j2267742732766_4_alg».proof.Proof.KValueRun
import proofs.«421876_j2267742732766_4_alg».proof.Proof.KStart
import proofs.«421876_j2267742732766_4_alg».proof.Proof.KLayer1
import proofs.«421876_j2267742732766_4_alg».proof.Proof.KLayer2
import proofs.«421876_j2267742732766_4_alg».proof.Proof.KLayer3
import proofs.«421876_j2267742732766_4_alg».proof.Proof.KLayer4
import proofs.«421876_j2267742732766_4_alg».proof.Proof.KTail1
import proofs.«421876_j2267742732766_4_alg».proof.Proof.KTail2

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem kernel_value (c : Dev nD) (i : Fin 64) (d : Fin 1) :
    (W18 m ρ c (Proc.devRef .tc main_v159) : FVec Ideal S64x1 .f32) (ix2 i d) = Cert.Spec.outK (argsK m c) i d := by
  have h0 := start m ρ c
  have h1 := layer1 m ρ c _ h0
  have h2 := layer2 m ρ c _ h1
  have h3 := layer3 m ρ c _ h2
  have h4 := layer4 m ρ c _ h3
  have h5 := lastUpdate m ρ c _ h4
  exact tailValue m ρ c _ h5 i d

end Cert.KernelIdeal.KVal

end
-- ==== Proof.RefOps.lean ====
import proofs.«421876_j2267742732766_4_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev segS0 : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    unary main_arg5 main_v4 (extractStridedSlice S1x100x64 ![0, 0, 0] · slices_S5x100x64_S1x100x64_0_0_0),
    reshape main_v4 main_v5 rfl shapeCasts_S1x100x64_S100x64,
    nullary main_c (constantI S_ 32 0#32),
    unary main_c main_v6 (broadcastInDim S100000x2 ![] bcast_S_S100000x2),
    binary main_arg0 main_v6 main_v7 (cmpi .slt),
    nullary main_c_0 (constantI S_ 32 100#32),
    unary main_c_0 main_v8 (broadcastInDim S100000x2 ![] bcast_S_S100000x2),
    binary main_arg0 main_v8 main_v9 addi,
    ternary main_v7 main_v9 main_arg0 main_v10 select,
    unary main_v10 main_v11 (broadcastInDim S100000x2x1 ![0, 1] bcast_S100000x2_S100000x2x1_0_1),
    binary main_v5 main_v11 main_v12 (fun x i => Host.gather gather_S100x64_S100000x2x1_S100000x2x64_2_0_n_n_0_2_164 x i),
    nullary main_cst (constant S_ .f32 0x00000000#32),
    binary main_v12 main_cst main_v13 (fun x v => Host.reduceAdd x v reducesTo_S100000x2x64_S100000x64_d1 h_S_) ]

abbrev segL0 : List (HloOp τ sig (Elt F)) :=
  [ unary main_arg8 main_v14 (extractStridedSlice S1x64x64 ![0, 0, 0] · slices_S5x64x64_S1x64x64_0_0_0),
    reshape main_v14 main_v15 rfl shapeCasts_S1x64x64_S64x64,
    unary main_arg9 main_v16 (extractStridedSlice S1x64x192 ![0, 0, 0] · slices_S5x64x192_S1x64x192_0_0_0),
    reshape main_v16 main_v17 rfl shapeCasts_S1x64x192_S64x192,
    unary main_arg10 main_v18 (extractStridedSlice S1x192 ![0, 0] · slices_S5x192_S1x192_0_0),
    reshape main_v18 main_v19 rfl shapeCasts_S1x192_S192,
    unary main_arg11 main_v20 (extractStridedSlice S1x64x192 ![0, 0, 0] · slices_S5x64x192_S1x64x192_0_0_0),
    reshape main_v20 main_v21 rfl shapeCasts_S1x64x192_S64x192,
    unary main_arg12 main_v22 (extractStridedSlice S1x192 ![0, 0] · slices_S5x192_S1x192_0_0),
    reshape main_v22 main_v23 rfl shapeCasts_S1x192_S192,
    binary main_v13 main_v15 main_v24 (fun l r => Host.dotGeneral dot_S100000x64_S64x64_S100000x64_1_0_0_1_n_n none l r),
    nullary main_c_1 (constantI S_ 32 0#32),
    unary main_c_1 main_v25 (broadcastInDim S1600000 ![] bcast_S_S1600000),
    binary main_v1 main_v25 main_v26 (cmpi .slt),
    nullary main_c_2 (constantI S_ 32 100000#32),
    unary main_c_2 main_v27 (broadcastInDim S1600000 ![] bcast_S_S1600000),
    binary main_v1 main_v27 main_v28 addi,
    ternary main_v26 main_v28 main_v1 main_v29 select,
    unary main_v29 main_v30 (broadcastInDim S1600000x1 ![0] bcast_S1600000_S1600000x1_0),
    binary main_v24 main_v30 main_v31 (fun x i => Host.gather gather_S100000x64_S1600000x1_S1600000x64_1_0_n_n_0_1_164 x i),
    nullary main_cst_3 (constant S_ .f32 0x00000000#32),
    unary main_cst_3 main_v32 (broadcastInDim S100000x64 ![] bcast_S_S100000x64),
    unary main_v3 main_v33 (broadcastInDim S1600000x1 ![0] bcast_S1600000_S1600000x1_0),
    ternary main_v32 main_v33 main_v31 main_v34 (fun x i u => Host.scatterAdd scatter_S100000x64_S1600000x1_S1600000x64_1_0_0_1 x i u),
    binary main_v34 main_v17 main_v35 (fun l r => Host.dotGeneral dot_S100000x64_S64x192_S100000x192_1_0_0_1_n_n none l r),
    unary main_v19 main_v36 (broadcastInDim S1x192 ![1] bcast_S192_S1x192_1),
    unary main_v36 main_v37 (broadcastInDim S100000x192 ![0, 1] bcast_S1x192_S100000x192_0_1),
    binary main_v35 main_v37 main_v38 addf,
    binary main_v13 main_v21 main_v39 (fun l r => Host.dotGeneral dot_S100000x64_S64x192_S100000x192_1_0_0_1_n_n none l r),
    unary main_v23 main_v40 (broadcastInDim S1x192 ![1] bcast_S192_S1x192_1),
    unary main_v40 main_v41 (broadcastInDim S100000x192 ![0, 1] bcast_S1x192_S100000x192_0_1),
    binary main_v39 main_v41 main_v42 addf,
    unary main_v38 main_v43 (extractStridedSlice S100000x64 ![0, 0] · slices_S100000x192_S100000x64_0_0),
    unary main_v38 main_v44 (extractStridedSlice S100000x64 ![0, 64] · slices_S100000x192_S100000x64_0_64),
    unary main_v38 main_v45 (extractStridedSlice S100000x64 ![0, 128] · slices_S100000x192_S100000x64_0_128),
    unary main_v42 main_v46 (extractStridedSlice S100000x64 ![0, 0] · slices_S100000x192_S100000x64_0_0),
    unary main_v42 main_v47 (extractStridedSlice S100000x64 ![0, 64] · slices_S100000x192_S100000x64_0_64),
    unary main_v42 main_v48 (extractStridedSlice S100000x64 ![0, 128] · slices_S100000x192_S100000x64_0_128),
    binary main_v43 main_v46 main_v49 addf,
    unary main_v49 main_v50 Host.negf,
    unary main_v50 main_v51 Host.exp,
    nullary main_cst_4 (constant S_ .f32 0x3F800000#32),
    unary main_cst_4 main_v52 (broadcastInDim S100000x64 ![] bcast_S_S100000x64),
    binary main_v52 main_v51 main_v53 addf,
    nullary main_cst_5 (constant S_ .f32 0x3F800000#32),
    unary main_cst_5 main_v54 (broadcastInDim S100000x64 ![] bcast_S_S100000x64),
    binary main_v54 main_v53 main_v55 Host.divf,
    binary main_v44 main_v47 main_v56 addf,
    unary main_v56 main_v57 Host.negf,
    unary main_v57 main_v58 Host.exp,
    nullary main_cst_6 (constant S_ .f32 0x3F800000#32),
    unary main_cst_6 main_v59 (broadcastInDim S100000x64 ![] bcast_S_S100000x64),
    binary main_v59 main_v58 main_v60 addf,
    nullary main_cst_7 (constant S_ .f32 0x3F800000#32),
    unary main_cst_7 main_v61 (broadcastInDim S100000x64 ![] bcast_S_S100000x64),
    binary main_v61 main_v60 main_v62 Host.divf,
    binary main_v55 main_v48 main_v63 mulf,
    binary main_v45 main_v63 main_v64 addf,
    unary main_v64 main_v65 Host.tanh,
    nullary main_cst_8 (constant S_ .f32 0x3F800000#32),
    unary main_cst_8 main_v66 (broadcastInDim S100000x64 ![] bcast_S_S100000x64),
    binary main_v66 main_v62 main_v67 subf,
    binary main_v67 main_v65 main_v68 mulf,
    binary main_v62 main_v13 main_v69 mulf,
    binary main_v68 main_v69 main_v70 addf ]

abbrev segT1 : List (HloOp τ sig (Elt F)) :=
  [ unary main_arg5 main_v71 (extractStridedSlice S1x100x64 ![1, 0, 0] · slices_S5x100x64_S1x100x64_1_0_0),
    reshape main_v71 main_v72 rfl shapeCasts_S1x100x64_S100x64,
    nullary main_c_9 (constantI S_ 32 0#32),
    unary main_c_9 main_v73 (broadcastInDim S100000x2 ![] bcast_S_S100000x2),
    binary main_arg0 main_v73 main_v74 (cmpi .slt),
    nullary main_c_10 (constantI S_ 32 100#32),
    unary main_c_10 main_v75 (broadcastInDim S100000x2 ![] bcast_S_S100000x2),
    binary main_arg0 main_v75 main_v76 addi,
    ternary main_v74 main_v76 main_arg0 main_v77 select,
    unary main_v77 main_v78 (broadcastInDim S100000x2x1 ![0, 1] bcast_S100000x2_S100000x2x1_0_1),
    binary main_v72 main_v78 main_v79 (fun x i => Host.gather gather_S100x64_S100000x2x1_S100000x2x64_2_0_n_n_0_2_164 x i),
    nullary main_cst_11 (constant S_ .f32 0x00000000#32),
    binary main_v79 main_cst_11 main_v80 (fun x v => Host.reduceAdd x v reducesTo_S100000x2x64_S100000x64_d1 h_S_),
    binary main_v70 main_v80 main_v81 (fun a b => concatenate S100000x128 1 [⟨S100000x64, a⟩, ⟨S100000x64, b⟩] concatenates_S100000x64_S100000x64_S100000x128_d1),
    unary main_arg6 main_v82 (extractStridedSlice S1x128x64 ![0, 0, 0] · slices_S4x128x64_S1x128x64_0_0_0),
    reshape main_v82 main_v83 rfl shapeCasts_S1x128x64_S128x64,
    binary main_v81 main_v83 main_v84 (fun l r => Host.dotGeneral dot_S100000x128_S128x64_S100000x64_1_0_0_1_n_n none l r),
    unary main_arg7 main_v85 (extractStridedSlice S1x64 ![0, 0] · slices_S4x64_S1x64_0_0),
    reshape main_v85 main_v86 rfl shapeCasts_S1x64_S64,
    unary main_v86 main_v87 (broadcastInDim S1x64 ![1] bcast_S64_S1x64_1),
    unary main_v87 main_v88 (broadcastInDim S100000x64 ![0, 1] bcast_S1x64_S100000x64_0_1),
    binary main_v84 main_v88 main_v89 addf ]

abbrev segL1 : List (HloOp τ sig (Elt F)) :=
  [ unary main_arg8 main_v90 (extractStridedSlice S1x64x64 ![1, 0, 0] · slices_S5x64x64_S1x64x64_1_0_0),
    reshape main_v90 main_v91 rfl shapeCasts_S1x64x64_S64x64,
    unary main_arg9 main_v92 (extractStridedSlice S1x64x192 ![1, 0, 0] · slices_S5x64x192_S1x64x192_1_0_0),
    reshape main_v92 main_v93 rfl shapeCasts_S1x64x192_S64x192,
    unary main_arg10 main_v94 (extractStridedSlice S1x192 ![1, 0] · slices_S5x192_S1x192_1_0),
    reshape main_v94 main_v95 rfl shapeCasts_S1x192_S192,
    unary main_arg11 main_v96 (extractStridedSlice S1x64x192 ![1, 0, 0] · slices_S5x64x192_S1x64x192_1_0_0),
    reshape main_v96 main_v97 rfl shapeCasts_S1x64x192_S64x192,
    unary main_arg12 main_v98 (extractStridedSlice S1x192 ![1, 0] · slices_S5x192_S1x192_1_0),
    reshape main_v98 main_v99 rfl shapeCasts_S1x192_S192,
    binary main_v89 main_v91 main_v100 (fun l r => Host.dotGeneral dot_S100000x64_S64x64_S100000x64_1_0_0_1_n_n none l r),
    nullary main_c_12 (constantI S_ 32 0#32),
    unary main_c_12 main_v101 (broadcastInDim S1600000 ![] bcast_S_S1600000),
    binary main_v1 main_v101 main_v102 (cmpi .slt),
    nullary main_c_13 (constantI S_ 32 100000#32),
    unary main_c_13 main_v103 (broadcastInDim S1600000 ![] bcast_S_S1600000),
    binary main_v1 main_v103 main_v104 addi,
    ternary main_v102 main_v104 main_v1 main_v105 select,
    unary main_v105 main_v106 (broadcastInDim S1600000x1 ![0] bcast_S1600000_S1600000x1_0),
    binary main_v100 main_v106 main_v107 (fun x i => Host.gather gather_S100000x64_S1600000x1_S1600000x64_1_0_n_n_0_1_164 x i),
    nullary main_cst_14 (constant S_ .f32 0x00000000#32),
    unary main_cst_14 main_v108 (broadcastInDim S100000x64 ![] bcast_S_S100000x64),
    unary main_v3 main_v109 (broadcastInDim S1600000x1 ![0] bcast_S1600000_S1600000x1_0),
    ternary main_v108 main_v109 main_v107 main_v110 (fun x i u => Host.scatterAdd scatter_S100000x64_S1600000x1_S1600000x64_1_0_0_1 x i u),
    binary main_v110 main_v93 main_v111 (fun l r => Host.dotGeneral dot_S100000x64_S64x192_S100000x192_1_0_0_1_n_n none l r),
    unary main_v95 main_v112 (broadcastInDim S1x192 ![1] bcast_S192_S1x192_1),
    unary main_v112 main_v113 (broadcastInDim S100000x192 ![0, 1] bcast_S1x192_S100000x192_0_1),
    binary main_v111 main_v113 main_v114 addf,
    binary main_v89 main_v97 main_v115 (fun l r => Host.dotGeneral dot_S100000x64_S64x192_S100000x192_1_0_0_1_n_n none l r),
    unary main_v99 main_v116 (broadcastInDim S1x192 ![1] bcast_S192_S1x192_1),
    unary main_v116 main_v117 (broadcastInDim S100000x192 ![0, 1] bcast_S1x192_S100000x192_0_1),
    binary main_v115 main_v117 main_v118 addf,
    unary main_v114 main_v119 (extractStridedSlice S100000x64 ![0, 0] · slices_S100000x192_S100000x64_0_0),
    unary main_v114 main_v120 (extractStridedSlice S100000x64 ![0, 64] · slices_S100000x192_S100000x64_0_64),
    unary main_v114 main_v121 (extractStridedSlice S100000x64 ![0, 128] · slices_S100000x192_S100000x64_0_128),
    unary main_v118 main_v122 (extractStridedSlice S100000x64 ![0, 0] · slices_S100000x192_S100000x64_0_0),
    unary main_v118 main_v123 (extractStridedSlice S100000x64 ![0, 64] · slices_S100000x192_S100000x64_0_64),
    unary main_v118 main_v124 (extractStridedSlice S100000x64 ![0, 128] · slices_S100000x192_S100000x64_0_128),
    binary main_v119 main_v122 main_v125 addf,
    unary main_v125 main_v126 Host.negf,
    unary main_v126 main_v127 Host.exp,
    nullary main_cst_15 (constant S_ .f32 0x3F800000#32),
    unary main_cst_15 main_v128 (broadcastInDim S100000x64 ![] bcast_S_S100000x64),
    binary main_v128 main_v127 main_v129 addf,
    nullary main_cst_16 (constant S_ .f32 0x3F800000#32),
    unary main_cst_16 main_v130 (broadcastInDim S100000x64 ![] bcast_S_S100000x64),
    binary main_v130 main_v129 main_v131 Host.divf,
    binary main_v120 main_v123 main_v132 addf,
    unary main_v132 main_v133 Host.negf,
    unary main_v133 main_v134 Host.exp,
    nullary main_cst_17 (constant S_ .f32 0x3F800000#32),
    unary main_cst_17 main_v135 (broadcastInDim S100000x64 ![] bcast_S_S100000x64),
    binary main_v135 main_v134 main_v136 addf,
    nullary main_cst_18 (constant S_ .f32 0x3F800000#32),
    unary main_cst_18 main_v137 (broadcastInDim S100000x64 ![] bcast_S_S100000x64),
    binary main_v137 main_v136 main_v138 Host.divf,
    binary main_v131 main_v124 main_v139 mulf,
    binary main_v121 main_v139 main_v140 addf,
    unary main_v140 main_v141 Host.tanh,
    nullary main_cst_19 (constant S_ .f32 0x3F800000#32),
    unary main_cst_19 main_v142 (broadcastInDim S100000x64 ![] bcast_S_S100000x64),
    binary main_v142 main_v138 main_v143 subf,
    binary main_v143 main_v141 main_v144 mulf,
    binary main_v138 main_v89 main_v145 mulf,
    binary main_v144 main_v145 main_v146 addf ]

abbrev segT2 : List (HloOp τ sig (Elt F)) :=
  [ unary main_arg5 main_v147 (extractStridedSlice S1x100x64 ![2, 0, 0] · slices_S5x100x64_S1x100x64_2_0_0),
    reshape main_v147 main_v148 rfl shapeCasts_S1x100x64_S100x64,
    nullary main_c_20 (constantI S_ 32 0#32),
    unary main_c_20 main_v149 (broadcastInDim S100000x2 ![] bcast_S_S100000x2),
    binary main_arg0 main_v149 main_v150 (cmpi .slt),
    nullary main_c_21 (constantI S_ 32 100#32),
    unary main_c_21 main_v151 (broadcastInDim S100000x2 ![] bcast_S_S100000x2),
    binary main_arg0 main_v151 main_v152 addi,
    ternary main_v150 main_v152 main_arg0 main_v153 select,
    unary main_v153 main_v154 (broadcastInDim S100000x2x1 ![0, 1] bcast_S100000x2_S100000x2x1_0_1),
    binary main_v148 main_v154 main_v155 (fun x i => Host.gather gather_S100x64_S100000x2x1_S100000x2x64_2_0_n_n_0_2_164 x i),
    nullary main_cst_22 (constant S_ .f32 0x00000000#32),
    binary main_v155 main_cst_22 main_v156 (fun x v => Host.reduceAdd x v reducesTo_S100000x2x64_S100000x64_d1 h_S_),
    binary main_v146 main_v156 main_v157 (fun a b => concatenate S100000x128 1 [⟨S100000x64, a⟩, ⟨S100000x64, b⟩] concatenates_S100000x64_S100000x64_S100000x128_d1),
    unary main_arg6 main_v158 (extractStridedSlice S1x128x64 ![1, 0, 0] · slices_S4x128x64_S1x128x64_1_0_0),
    reshape main_v158 main_v159 rfl shapeCasts_S1x128x64_S128x64,
    binary main_v157 main_v159 main_v160 (fun l r => Host.dotGeneral dot_S100000x128_S128x64_S100000x64_1_0_0_1_n_n none l r),
    unary main_arg7 main_v161 (extractStridedSlice S1x64 ![1, 0] · slices_S4x64_S1x64_1_0),
    reshape main_v161 main_v162 rfl shapeCasts_S1x64_S64,
    unary main_v162 main_v163 (broadcastInDim S1x64 ![1] bcast_S64_S1x64_1),
    unary main_v163 main_v164 (broadcastInDim S100000x64 ![0, 1] bcast_S1x64_S100000x64_0_1),
    binary main_v160 main_v164 main_v165 addf ]

abbrev segL2 : List (HloOp τ sig (Elt F)) :=
  [ unary main_arg8 main_v166 (extractStridedSlice S1x64x64 ![2, 0, 0] · slices_S5x64x64_S1x64x64_2_0_0),
    reshape main_v166 main_v167 rfl shapeCasts_S1x64x64_S64x64,
    unary main_arg9 main_v168 (extractStridedSlice S1x64x192 ![2, 0, 0] · slices_S5x64x192_S1x64x192_2_0_0),
    reshape main_v168 main_v169 rfl shapeCasts_S1x64x192_S64x192,
    unary main_arg10 main_v170 (extractStridedSlice S1x192 ![2, 0] · slices_S5x192_S1x192_2_0),
    reshape main_v170 main_v171 rfl shapeCasts_S1x192_S192,
    unary main_arg11 main_v172 (extractStridedSlice S1x64x192 ![2, 0, 0] · slices_S5x64x192_S1x64x192_2_0_0),
    reshape main_v172 main_v173 rfl shapeCasts_S1x64x192_S64x192,
    unary main_arg12 main_v174 (extractStridedSlice S1x192 ![2, 0] · slices_S5x192_S1x192_2_0),
    reshape main_v174 main_v175 rfl shapeCasts_S1x192_S192,
    binary main_v165 main_v167 main_v176 (fun l r => Host.dotGeneral dot_S100000x64_S64x64_S100000x64_1_0_0_1_n_n none l r),
    nullary main_c_23 (constantI S_ 32 0#32),
    unary main_c_23 main_v177 (broadcastInDim S1600000 ![] bcast_S_S1600000),
    binary main_v1 main_v177 main_v178 (cmpi .slt),
    nullary main_c_24 (constantI S_ 32 100000#32),
    unary main_c_24 main_v179 (broadcastInDim S1600000 ![] bcast_S_S1600000),
    binary main_v1 main_v179 main_v180 addi,
    ternary main_v178 main_v180 main_v1 main_v181 select,
    unary main_v181 main_v182 (broadcastInDim S1600000x1 ![0] bcast_S1600000_S1600000x1_0),
    binary main_v176 main_v182 main_v183 (fun x i => Host.gather gather_S100000x64_S1600000x1_S1600000x64_1_0_n_n_0_1_164 x i),
    nullary main_cst_25 (constant S_ .f32 0x00000000#32),
    unary main_cst_25 main_v184 (broadcastInDim S100000x64 ![] bcast_S_S100000x64),
    unary main_v3 main_v185 (broadcastInDim S1600000x1 ![0] bcast_S1600000_S1600000x1_0),
    ternary main_v184 main_v185 main_v183 main_v186 (fun x i u => Host.scatterAdd scatter_S100000x64_S1600000x1_S1600000x64_1_0_0_1 x i u),
    binary main_v186 main_v169 main_v187 (fun l r => Host.dotGeneral dot_S100000x64_S64x192_S100000x192_1_0_0_1_n_n none l r),
    unary main_v171 main_v188 (broadcastInDim S1x192 ![1] bcast_S192_S1x192_1),
    unary main_v188 main_v189 (broadcastInDim S100000x192 ![0, 1] bcast_S1x192_S100000x192_0_1),
    binary main_v187 main_v189 main_v190 addf,
    binary main_v165 main_v173 main_v191 (fun l r => Host.dotGeneral dot_S100000x64_S64x192_S100000x192_1_0_0_1_n_n none l r),
    unary main_v175 main_v192 (broadcastInDim S1x192 ![1] bcast_S192_S1x192_1),
    unary main_v192 main_v193 (broadcastInDim S100000x192 ![0, 1] bcast_S1x192_S100000x192_0_1),
    binary main_v191 main_v193 main_v194 addf,
    unary main_v190 main_v195 (extractStridedSlice S100000x64 ![0, 0] · slices_S100000x192_S100000x64_0_0),
    unary main_v190 main_v196 (extractStridedSlice S100000x64 ![0, 64] · slices_S100000x192_S100000x64_0_64),
    unary main_v190 main_v197 (extractStridedSlice S100000x64 ![0, 128] · slices_S100000x192_S100000x64_0_128),
    unary main_v194 main_v198 (extractStridedSlice S100000x64 ![0, 0] · slices_S100000x192_S100000x64_0_0),
    unary main_v194 main_v199 (extractStridedSlice S100000x64 ![0, 64] · slices_S100000x192_S100000x64_0_64),
    unary main_v194 main_v200 (extractStridedSlice S100000x64 ![0, 128] · slices_S100000x192_S100000x64_0_128),
    binary main_v195 main_v198 main_v201 addf,
    unary main_v201 main_v202 Host.negf,
    unary main_v202 main_v203 Host.exp,
    nullary main_cst_26 (constant S_ .f32 0x3F800000#32),
    unary main_cst_26 main_v204 (broadcastInDim S100000x64 ![] bcast_S_S100000x64),
    binary main_v204 main_v203 main_v205 addf,
    nullary main_cst_27 (constant S_ .f32 0x3F800000#32),
    unary main_cst_27 main_v206 (broadcastInDim S100000x64 ![] bcast_S_S100000x64),
    binary main_v206 main_v205 main_v207 Host.divf,
    binary main_v196 main_v199 main_v208 addf,
    unary main_v208 main_v209 Host.negf,
    unary main_v209 main_v210 Host.exp,
    nullary main_cst_28 (constant S_ .f32 0x3F800000#32),
    unary main_cst_28 main_v211 (broadcastInDim S100000x64 ![] bcast_S_S100000x64),
    binary main_v211 main_v210 main_v212 addf,
    nullary main_cst_29 (constant S_ .f32 0x3F800000#32),
    unary main_cst_29 main_v213 (broadcastInDim S100000x64 ![] bcast_S_S100000x64),
    binary main_v213 main_v212 main_v214 Host.divf,
    binary main_v207 main_v200 main_v215 mulf,
    binary main_v197 main_v215 main_v216 addf,
    unary main_v216 main_v217 Host.tanh,
    nullary main_cst_30 (constant S_ .f32 0x3F800000#32),
    unary main_cst_30 main_v218 (broadcastInDim S100000x64 ![] bcast_S_S100000x64),
    binary main_v218 main_v214 main_v219 subf,
    binary main_v219 main_v217 main_v220 mulf,
    binary main_v214 main_v165 main_v221 mulf,
    binary main_v220 main_v221 main_v222 addf ]

abbrev segT3 : List (HloOp τ sig (Elt F)) :=
  [ unary main_arg5 main_v223 (extractStridedSlice S1x100x64 ![3, 0, 0] · slices_S5x100x64_S1x100x64_3_0_0),
    reshape main_v223 main_v224 rfl shapeCasts_S1x100x64_S100x64,
    nullary main_c_31 (constantI S_ 32 0#32),
    unary main_c_31 main_v225 (broadcastInDim S100000x2 ![] bcast_S_S100000x2),
    binary main_arg0 main_v225 main_v226 (cmpi .slt),
    nullary main_c_32 (constantI S_ 32 100#32),
    unary main_c_32 main_v227 (broadcastInDim S100000x2 ![] bcast_S_S100000x2),
    binary main_arg0 main_v227 main_v228 addi,
    ternary main_v226 main_v228 main_arg0 main_v229 select,
    unary main_v229 main_v230 (broadcastInDim S100000x2x1 ![0, 1] bcast_S100000x2_S100000x2x1_0_1),
    binary main_v224 main_v230 main_v231 (fun x i => Host.gather gather_S100x64_S100000x2x1_S100000x2x64_2_0_n_n_0_2_164 x i),
    nullary main_cst_33 (constant S_ .f32 0x00000000#32),
    binary main_v231 main_cst_33 main_v232 (fun x v => Host.reduceAdd x v reducesTo_S100000x2x64_S100000x64_d1 h_S_),
    binary main_v222 main_v232 main_v233 (fun a b => concatenate S100000x128 1 [⟨S100000x64, a⟩, ⟨S100000x64, b⟩] concatenates_S100000x64_S100000x64_S100000x128_d1),
    unary main_arg6 main_v234 (extractStridedSlice S1x128x64 ![2, 0, 0] · slices_S4x128x64_S1x128x64_2_0_0),
    reshape main_v234 main_v235 rfl shapeCasts_S1x128x64_S128x64,
    binary main_v233 main_v235 main_v236 (fun l r => Host.dotGeneral dot_S100000x128_S128x64_S100000x64_1_0_0_1_n_n none l r),
    unary main_arg7 main_v237 (extractStridedSlice S1x64 ![2, 0] · slices_S4x64_S1x64_2_0),
    reshape main_v237 main_v238 rfl shapeCasts_S1x64_S64,
    unary main_v238 main_v239 (broadcastInDim S1x64 ![1] bcast_S64_S1x64_1),
    unary main_v239 main_v240 (broadcastInDim S100000x64 ![0, 1] bcast_S1x64_S100000x64_0_1),
    binary main_v236 main_v240 main_v241 addf ]

abbrev segL3 : List (HloOp τ sig (Elt F)) :=
  [ unary main_arg8 main_v242 (extractStridedSlice S1x64x64 ![3, 0, 0] · slices_S5x64x64_S1x64x64_3_0_0),
    reshape main_v242 main_v243 rfl shapeCasts_S1x64x64_S64x64,
    unary main_arg9 main_v244 (extractStridedSlice S1x64x192 ![3, 0, 0] · slices_S5x64x192_S1x64x192_3_0_0),
    reshape main_v244 main_v245 rfl shapeCasts_S1x64x192_S64x192,
    unary main_arg10 main_v246 (extractStridedSlice S1x192 ![3, 0] · slices_S5x192_S1x192_3_0),
    reshape main_v246 main_v247 rfl shapeCasts_S1x192_S192,
    unary main_arg11 main_v248 (extractStridedSlice S1x64x192 ![3, 0, 0] · slices_S5x64x192_S1x64x192_3_0_0),
    reshape main_v248 main_v249 rfl shapeCasts_S1x64x192_S64x192,
    unary main_arg12 main_v250 (extractStridedSlice S1x192 ![3, 0] · slices_S5x192_S1x192_3_0),
    reshape main_v250 main_v251 rfl shapeCasts_S1x192_S192,
    binary main_v241 main_v243 main_v252 (fun l r => Host.dotGeneral dot_S100000x64_S64x64_S100000x64_1_0_0_1_n_n none l r),
    nullary main_c_34 (constantI S_ 32 0#32),
    unary main_c_34 main_v253 (broadcastInDim S1600000 ![] bcast_S_S1600000),
    binary main_v1 main_v253 main_v254 (cmpi .slt),
    nullary main_c_35 (constantI S_ 32 100000#32),
    unary main_c_35 main_v255 (broadcastInDim S1600000 ![] bcast_S_S1600000),
    binary main_v1 main_v255 main_v256 addi,
    ternary main_v254 main_v256 main_v1 main_v257 select,
    unary main_v257 main_v258 (broadcastInDim S1600000x1 ![0] bcast_S1600000_S1600000x1_0),
    binary main_v252 main_v258 main_v259 (fun x i => Host.gather gather_S100000x64_S1600000x1_S1600000x64_1_0_n_n_0_1_164 x i),
    nullary main_cst_36 (constant S_ .f32 0x00000000#32),
    unary main_cst_36 main_v260 (broadcastInDim S100000x64 ![] bcast_S_S100000x64),
    unary main_v3 main_v261 (broadcastInDim S1600000x1 ![0] bcast_S1600000_S1600000x1_0),
    ternary main_v260 main_v261 main_v259 main_v262 (fun x i u => Host.scatterAdd scatter_S100000x64_S1600000x1_S1600000x64_1_0_0_1 x i u),
    binary main_v262 main_v245 main_v263 (fun l r => Host.dotGeneral dot_S100000x64_S64x192_S100000x192_1_0_0_1_n_n none l r),
    unary main_v247 main_v264 (broadcastInDim S1x192 ![1] bcast_S192_S1x192_1),
    unary main_v264 main_v265 (broadcastInDim S100000x192 ![0, 1] bcast_S1x192_S100000x192_0_1),
    binary main_v263 main_v265 main_v266 addf,
    binary main_v241 main_v249 main_v267 (fun l r => Host.dotGeneral dot_S100000x64_S64x192_S100000x192_1_0_0_1_n_n none l r),
    unary main_v251 main_v268 (broadcastInDim S1x192 ![1] bcast_S192_S1x192_1),
    unary main_v268 main_v269 (broadcastInDim S100000x192 ![0, 1] bcast_S1x192_S100000x192_0_1),
    binary main_v267 main_v269 main_v270 addf,
    unary main_v266 main_v271 (extractStridedSlice S100000x64 ![0, 0] · slices_S100000x192_S100000x64_0_0),
    unary main_v266 main_v272 (extractStridedSlice S100000x64 ![0, 64] · slices_S100000x192_S100000x64_0_64),
    unary main_v266 main_v273 (extractStridedSlice S100000x64 ![0, 128] · slices_S100000x192_S100000x64_0_128),
    unary main_v270 main_v274 (extractStridedSlice S100000x64 ![0, 0] · slices_S100000x192_S100000x64_0_0),
    unary main_v270 main_v275 (extractStridedSlice S100000x64 ![0, 64] · slices_S100000x192_S100000x64_0_64),
    unary main_v270 main_v276 (extractStridedSlice S100000x64 ![0, 128] · slices_S100000x192_S100000x64_0_128),
    binary main_v271 main_v274 main_v277 addf,
    unary main_v277 main_v278 Host.negf,
    unary main_v278 main_v279 Host.exp,
    nullary main_cst_37 (constant S_ .f32 0x3F800000#32),
    unary main_cst_37 main_v280 (broadcastInDim S100000x64 ![] bcast_S_S100000x64),
    binary main_v280 main_v279 main_v281 addf,
    nullary main_cst_38 (constant S_ .f32 0x3F800000#32),
    unary main_cst_38 main_v282 (broadcastInDim S100000x64 ![] bcast_S_S100000x64),
    binary main_v282 main_v281 main_v283 Host.divf,
    binary main_v272 main_v275 main_v284 addf,
    unary main_v284 main_v285 Host.negf,
    unary main_v285 main_v286 Host.exp,
    nullary main_cst_39 (constant S_ .f32 0x3F800000#32),
    unary main_cst_39 main_v287 (broadcastInDim S100000x64 ![] bcast_S_S100000x64),
    binary main_v287 main_v286 main_v288 addf,
    nullary main_cst_40 (constant S_ .f32 0x3F800000#32),
    unary main_cst_40 main_v289 (broadcastInDim S100000x64 ![] bcast_S_S100000x64),
    binary main_v289 main_v288 main_v290 Host.divf,
    binary main_v283 main_v276 main_v291 mulf,
    binary main_v273 main_v291 main_v292 addf,
    unary main_v292 main_v293 Host.tanh,
    nullary main_cst_41 (constant S_ .f32 0x3F800000#32),
    unary main_cst_41 main_v294 (broadcastInDim S100000x64 ![] bcast_S_S100000x64),
    binary main_v294 main_v290 main_v295 subf,
    binary main_v295 main_v293 main_v296 mulf,
    binary main_v290 main_v241 main_v297 mulf,
    binary main_v296 main_v297 main_v298 addf ]

abbrev segT4 : List (HloOp τ sig (Elt F)) :=
  [ unary main_arg5 main_v299 (extractStridedSlice S1x100x64 ![4, 0, 0] · slices_S5x100x64_S1x100x64_4_0_0),
    reshape main_v299 main_v300 rfl shapeCasts_S1x100x64_S100x64,
    nullary main_c_42 (constantI S_ 32 0#32),
    unary main_c_42 main_v301 (broadcastInDim S100000x2 ![] bcast_S_S100000x2),
    binary main_arg0 main_v301 main_v302 (cmpi .slt),
    nullary main_c_43 (constantI S_ 32 100#32),
    unary main_c_43 main_v303 (broadcastInDim S100000x2 ![] bcast_S_S100000x2),
    binary main_arg0 main_v303 main_v304 addi,
    ternary main_v302 main_v304 main_arg0 main_v305 select,
    unary main_v305 main_v306 (broadcastInDim S100000x2x1 ![0, 1] bcast_S100000x2_S100000x2x1_0_1),
    binary main_v300 main_v306 main_v307 (fun x i => Host.gather gather_S100x64_S100000x2x1_S100000x2x64_2_0_n_n_0_2_164 x i),
    nullary main_cst_44 (constant S_ .f32 0x00000000#32),
    binary main_v307 main_cst_44 main_v308 (fun x v => Host.reduceAdd x v reducesTo_S100000x2x64_S100000x64_d1 h_S_),
    binary main_v298 main_v308 main_v309 (fun a b => concatenate S100000x128 1 [⟨S100000x64, a⟩, ⟨S100000x64, b⟩] concatenates_S100000x64_S100000x64_S100000x128_d1),
    unary main_arg6 main_v310 (extractStridedSlice S1x128x64 ![3, 0, 0] · slices_S4x128x64_S1x128x64_3_0_0),
    reshape main_v310 main_v311 rfl shapeCasts_S1x128x64_S128x64,
    binary main_v309 main_v311 main_v312 (fun l r => Host.dotGeneral dot_S100000x128_S128x64_S100000x64_1_0_0_1_n_n none l r),
    unary main_arg7 main_v313 (extractStridedSlice S1x64 ![3, 0] · slices_S4x64_S1x64_3_0),
    reshape main_v313 main_v314 rfl shapeCasts_S1x64_S64,
    unary main_v314 main_v315 (broadcastInDim S1x64 ![1] bcast_S64_S1x64_1),
    unary main_v315 main_v316 (broadcastInDim S100000x64 ![0, 1] bcast_S1x64_S100000x64_0_1),
    binary main_v312 main_v316 main_v317 addf ]

abbrev segL4 : List (HloOp τ sig (Elt F)) :=
  [ unary main_arg8 main_v318 (extractStridedSlice S1x64x64 ![4, 0, 0] · slices_S5x64x64_S1x64x64_4_0_0),
    reshape main_v318 main_v319 rfl shapeCasts_S1x64x64_S64x64,
    unary main_arg9 main_v320 (extractStridedSlice S1x64x192 ![4, 0, 0] · slices_S5x64x192_S1x64x192_4_0_0),
    reshape main_v320 main_v321 rfl shapeCasts_S1x64x192_S64x192,
    unary main_arg10 main_v322 (extractStridedSlice S1x192 ![4, 0] · slices_S5x192_S1x192_4_0),
    reshape main_v322 main_v323 rfl shapeCasts_S1x192_S192,
    unary main_arg11 main_v324 (extractStridedSlice S1x64x192 ![4, 0, 0] · slices_S5x64x192_S1x64x192_4_0_0),
    reshape main_v324 main_v325 rfl shapeCasts_S1x64x192_S64x192,
    unary main_arg12 main_v326 (extractStridedSlice S1x192 ![4, 0] · slices_S5x192_S1x192_4_0),
    reshape main_v326 main_v327 rfl shapeCasts_S1x192_S192,
    binary main_v317 main_v319 main_v328 (fun l r => Host.dotGeneral dot_S100000x64_S64x64_S100000x64_1_0_0_1_n_n none l r),
    nullary main_c_45 (constantI S_ 32 0#32),
    unary main_c_45 main_v329 (broadcastInDim S1600000 ![] bcast_S_S1600000),
    binary main_v1 main_v329 main_v330 (cmpi .slt),
    nullary main_c_46 (constantI S_ 32 100000#32),
    unary main_c_46 main_v331 (broadcastInDim S1600000 ![] bcast_S_S1600000),
    binary main_v1 main_v331 main_v332 addi,
    ternary main_v330 main_v332 main_v1 main_v333 select,
    unary main_v333 main_v334 (broadcastInDim S1600000x1 ![0] bcast_S1600000_S1600000x1_0),
    binary main_v328 main_v334 main_v335 (fun x i => Host.gather gather_S100000x64_S1600000x1_S1600000x64_1_0_n_n_0_1_164 x i),
    nullary main_cst_47 (constant S_ .f32 0x00000000#32),
    unary main_cst_47 main_v336 (broadcastInDim S100000x64 ![] bcast_S_S100000x64),
    unary main_v3 main_v337 (broadcastInDim S1600000x1 ![0] bcast_S1600000_S1600000x1_0),
    ternary main_v336 main_v337 main_v335 main_v338 (fun x i u => Host.scatterAdd scatter_S100000x64_S1600000x1_S1600000x64_1_0_0_1 x i u),
    binary main_v338 main_v321 main_v339 (fun l r => Host.dotGeneral dot_S100000x64_S64x192_S100000x192_1_0_0_1_n_n none l r),
    unary main_v323 main_v340 (broadcastInDim S1x192 ![1] bcast_S192_S1x192_1),
    unary main_v340 main_v341 (broadcastInDim S100000x192 ![0, 1] bcast_S1x192_S100000x192_0_1),
    binary main_v339 main_v341 main_v342 addf,
    binary main_v317 main_v325 main_v343 (fun l r => Host.dotGeneral dot_S100000x64_S64x192_S100000x192_1_0_0_1_n_n none l r),
    unary main_v327 main_v344 (broadcastInDim S1x192 ![1] bcast_S192_S1x192_1),
    unary main_v344 main_v345 (broadcastInDim S100000x192 ![0, 1] bcast_S1x192_S100000x192_0_1),
    binary main_v343 main_v345 main_v346 addf,
    unary main_v342 main_v347 (extractStridedSlice S100000x64 ![0, 0] · slices_S100000x192_S100000x64_0_0),
    unary main_v342 main_v348 (extractStridedSlice S100000x64 ![0, 64] · slices_S100000x192_S100000x64_0_64),
    unary main_v342 main_v349 (extractStridedSlice S100000x64 ![0, 128] · slices_S100000x192_S100000x64_0_128),
    unary main_v346 main_v350 (extractStridedSlice S100000x64 ![0, 0] · slices_S100000x192_S100000x64_0_0),
    unary main_v346 main_v351 (extractStridedSlice S100000x64 ![0, 64] · slices_S100000x192_S100000x64_0_64),
    unary main_v346 main_v352 (extractStridedSlice S100000x64 ![0, 128] · slices_S100000x192_S100000x64_0_128),
    binary main_v347 main_v350 main_v353 addf,
    unary main_v353 main_v354 Host.negf,
    unary main_v354 main_v355 Host.exp,
    nullary main_cst_48 (constant S_ .f32 0x3F800000#32),
    unary main_cst_48 main_v356 (broadcastInDim S100000x64 ![] bcast_S_S100000x64),
    binary main_v356 main_v355 main_v357 addf,
    nullary main_cst_49 (constant S_ .f32 0x3F800000#32),
    unary main_cst_49 main_v358 (broadcastInDim S100000x64 ![] bcast_S_S100000x64),
    binary main_v358 main_v357 main_v359 Host.divf,
    binary main_v348 main_v351 main_v360 addf,
    unary main_v360 main_v361 Host.negf,
    unary main_v361 main_v362 Host.exp,
    nullary main_cst_50 (constant S_ .f32 0x3F800000#32),
    unary main_cst_50 main_v363 (broadcastInDim S100000x64 ![] bcast_S_S100000x64),
    binary main_v363 main_v362 main_v364 addf,
    nullary main_cst_51 (constant S_ .f32 0x3F800000#32),
    unary main_cst_51 main_v365 (broadcastInDim S100000x64 ![] bcast_S_S100000x64),
    binary main_v365 main_v364 main_v366 Host.divf,
    binary main_v359 main_v352 main_v367 mulf,
    binary main_v349 main_v367 main_v368 addf,
    unary main_v368 main_v369 Host.tanh,
    nullary main_cst_52 (constant S_ .f32 0x3F800000#32),
    unary main_cst_52 main_v370 (broadcastInDim S100000x64 ![] bcast_S_S100000x64),
    binary main_v370 main_v366 main_v371 subf,
    binary main_v371 main_v369 main_v372 mulf,
    binary main_v366 main_v317 main_v373 mulf,
    binary main_v372 main_v373 main_v374 addf ]

abbrev segP : List (HloOp τ sig (Elt F)) :=
  [ nullary main_cst_53 (constant S_ .f32 0x00000000#32),
    unary main_cst_53 main_v375 (broadcastInDim S20000x64 ![] bcast_S_S20000x64),
    unary main_arg2 main_v376 (broadcastInDim S100000x1 ![0] bcast_S100000_S100000x1_0),
    ternary main_v375 main_v376 main_v374 main_v377 (fun x i u => Host.scatterAdd scatter_S20000x64_S100000x1_S100000x64_1_0_0_1 x i u),
    binary main_v377 main_arg13 main_v378 (fun l r => Host.dotGeneral dot_S20000x64_S64x64_S20000x64_1_0_0_1_n_n none l r),
    unary main_arg14 main_v379 (broadcastInDim S1x64 ![1] bcast_S64_S1x64_1),
    unary main_v379 main_v380 (broadcastInDim S20000x64 ![0, 1] bcast_S1x64_S20000x64_0_1),
    binary main_v378 main_v380 main_v381 addf,
    TRef.nullary main_call0.cst (constant S_ .f32 0x00000000#32),
    TRef.unary main_call0.cst main_call0.v0 (broadcastInDim S20000x64 ![] bcast_S_S20000x64),
    TRef.binary (.of main_v381 : StableHlo.TRef sig ⟨S20000x64, .f32⟩) main_call0.v0 main_call0.v1 maximumf,
    binary main_v382 main_arg15 main_v383 (fun l r => Host.dotGeneral dot_S20000x64_S64x64_S20000x64_1_0_0_1_n_n none l r),
    unary main_arg16 main_v384 (broadcastInDim S1x64 ![1] bcast_S64_S1x64_1),
    unary main_v384 main_v385 (broadcastInDim S20000x64 ![0, 1] bcast_S1x64_S20000x64_0_1),
    binary main_v383 main_v385 main_v386 addf,
    nullary main_cst_54 (constant S_ .f32 0x00000000#32),
    unary main_cst_54 main_v387 (broadcastInDim S2000x64 ![] bcast_S_S2000x64),
    unary main_arg3 main_v388 (broadcastInDim S20000x1 ![0] bcast_S20000_S20000x1_0),
    ternary main_v387 main_v388 main_v386 main_v389 (fun x i u => Host.scatterAdd scatter_S2000x64_S20000x1_S20000x64_1_0_0_1 x i u),
    binary main_v389 main_arg17 main_v390 (fun l r => Host.dotGeneral dot_S2000x64_S64x64_S2000x64_1_0_0_1_n_n none l r),
    unary main_arg18 main_v391 (broadcastInDim S1x64 ![1] bcast_S64_S1x64_1),
    unary main_v391 main_v392 (broadcastInDim S2000x64 ![0, 1] bcast_S1x64_S2000x64_0_1),
    binary main_v390 main_v392 main_v393 addf,
    TRef.nullary main_call1.cst (constant S_ .f32 0x00000000#32),
    TRef.unary main_call1.cst main_call1.v0 (broadcastInDim S2000x64 ![] bcast_S_S2000x64),
    TRef.binary (.of main_v393 : StableHlo.TRef sig ⟨S2000x64, .f32⟩) main_call1.v0 main_call1.v1 maximumf,
    binary main_v394 main_arg19 main_v395 (fun l r => Host.dotGeneral dot_S2000x64_S64x64_S2000x64_1_0_0_1_n_n none l r),
    unary main_arg20 main_v396 (broadcastInDim S1x64 ![1] bcast_S64_S1x64_1),
    unary main_v396 main_v397 (broadcastInDim S2000x64 ![0, 1] bcast_S1x64_S2000x64_0_1),
    binary main_v395 main_v397 main_v398 addf,
    nullary main_cst_55 (constant S_ .f32 0x00000000#32),
    unary main_cst_55 main_v399 (broadcastInDim S64x64 ![] bcast_S_S64x64),
    unary main_arg4 main_v400 (broadcastInDim S2000x1 ![0] bcast_S2000_S2000x1_0),
    ternary main_v399 main_v400 main_v398 main_v401 (fun x i u => Host.scatterAdd scatter_S64x64_S2000x1_S2000x64_1_0_0_1 x i u),
    binary main_v401 main_arg21 main_v402 (fun l r => Host.dotGeneral dot_S64x64_S64x32_S64x32_1_0_0_1_n_n none l r),
    unary main_arg22 main_v403 (broadcastInDim S1x32 ![1] bcast_S32_S1x32_1),
    unary main_v403 main_v404 (broadcastInDim S64x32 ![0, 1] bcast_S1x32_S64x32_0_1),
    binary main_v402 main_v404 main_v405 addf,
    TRef.nullary main_call2.cst (constant S_ .f32 0x00000000#32),
    TRef.unary main_call2.cst main_call2.v0 (broadcastInDim S64x32 ![] bcast_S_S64x32),
    TRef.binary (.of main_v405 : StableHlo.TRef sig ⟨S64x32, .f32⟩) main_call2.v0 main_call2.v1 (cmpf .ogt),
    TRef.nullary main_call2.cst_0 (constant S_ .f32 0x00000000#32),
    TRef.unary main_call2.cst_0 main_call2.v2 (broadcastInDim S64x32 ![] bcast_S_S64x32),
    TRef.binary (.of main_v405 : StableHlo.TRef sig ⟨S64x32, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S64x32 ![] bcast_S_S64x32),
    TRef.ternary main_call2.v3 main_call2.call0.v1 (.of main_v405 : StableHlo.TRef sig ⟨S64x32, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S64x32 ![] bcast_S_S64x32),
    TRef.binary main_call2.v6 main_call2.v5 main_call2.v7 mulf,
    TRef.ternary main_call2.v1 (.of main_v405 : StableHlo.TRef sig ⟨S64x32, .f32⟩) main_call2.v7 main_call2.call1.v0 select,
    binary main_v406 main_arg23 main_v407 (fun l r => Host.dotGeneral dot_S64x32_S32x16_S64x16_1_0_0_1_n_n none l r),
    unary main_arg24 main_v408 (broadcastInDim S1x16 ![1] bcast_S16_S1x16_1),
    unary main_v408 main_v409 (broadcastInDim S64x16 ![0, 1] bcast_S1x16_S64x16_0_1),
    binary main_v407 main_v409 main_v410 addf,
    TRef.nullary main_call3.cst (constant S_ .f32 0x00000000#32),
    TRef.unary main_call3.cst main_call3.v0 (broadcastInDim S64x16 ![] bcast_S_S64x16),
    TRef.binary (.of main_v410 : StableHlo.TRef sig ⟨S64x16, .f32⟩) main_call3.v0 main_call3.v1 (cmpf .ogt),
    TRef.nullary main_call3.cst_0 (constant S_ .f32 0x00000000#32),
    TRef.unary main_call3.cst_0 main_call3.v2 (broadcastInDim S64x16 ![] bcast_S_S64x16),
    TRef.binary (.of main_v410 : StableHlo.TRef sig ⟨S64x16, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S64x16 ![] bcast_S_S64x16),
    TRef.ternary main_call3.v3 main_call3.call0.v1 (.of main_v410 : StableHlo.TRef sig ⟨S64x16, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S64x16 ![] bcast_S_S64x16),
    TRef.binary main_call3.v6 main_call3.v5 main_call3.v7 mulf,
    TRef.ternary main_call3.v1 (.of main_v410 : StableHlo.TRef sig ⟨S64x16, .f32⟩) main_call3.v7 main_call3.call1.v0 select,
    binary main_v411 main_arg25 main_v412 (fun l r => Host.dotGeneral dot_S64x16_S16x1_S64x1_1_0_0_1_n_n none l r),
    unary main_arg26 main_v413 (broadcastInDim S1x1 ![1] bcast_S1_S1x1_1),
    unary main_v413 main_v414 (broadcastInDim S64x1 ![0, 1] bcast_S1x1_S64x1_0_1),
    binary main_v412 main_v414 main_v415 addf ]

abbrev ops : List (HloOp τ sig (Elt F)) :=
  segS0 ++ segL0 ++ segT1 ++ segL1 ++ segT2 ++ segL2 ++ segT3 ++ segL3 ++ segT4 ++ segL4 ++ segP

theorem ops_sub : (ops : List (HloOp τ sig (Elt F))).Forall fun op => op.bufs ⊆ tcRefs τ sig := by
  simp only [ops, segS0, segL0, segT1, segL1, segT2, segL2, segT3, segL3, segT4, segL4, segP, List.forall_append,
    List.Forall, nullary_bufs_sub, unary_bufs_sub, binary_bufs_sub, ternary_bufs_sub, reshape_bufs_sub, and_self]

theorem ops_fresh : ∀ op ∈ (ops : List (HloOp τ sig (Elt F))), op.fresh = ∅ :=
  List.forall_iff_forall_mem.mp (by
    simp only [ops, List.forall_append]
    repeat' apply And.intro
    all_goals rfl)

end Cert.ReferenceIdeal.RefRun

end
-- ==== Proof.RefRun.lean ====
import proofs.«421876_j2267742732766_4_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after_append (A B : List (HloOp τ sig (Elt F))) (V : Valuation τ sig (Elt F)) :
    after (A ++ B) V = after B (after A V) := by
  induction A generalizing V with
  | nil => rfl
  | cons op A ih => simp only [List.cons_append, after_cons, ih]

theorem after_ops (V : Valuation τ sig (Elt F)) :
    after ops V = after segP (after segL4 (after segT4 (after segL3 (after segT3 (after segL2 (after segT2 (after segL1
      (after segT1 (after segL0 (after segS0 V)))))))))) := by
  simp only [ops, after_append]

set_option maxRecDepth 8192 in
theorem main_part0_eq (c : Dev nD) : main_part0 (F := F) c = seq (segS0 ++ segL0.take 43) := rfl
set_option maxRecDepth 8192 in
theorem main_part1_eq (c : Dev nD) : main_part1 (F := F) c = seq (segL0.drop 43 ++ segT1 ++ segL1.take 16) := rfl
set_option maxRecDepth 8192 in
theorem main_part2_eq (c : Dev nD) : main_part2 (F := F) c = seq (segL1.drop 16 ++ segT2.take 11) := rfl
set_option maxRecDepth 8192 in
theorem main_part3_eq (c : Dev nD) : main_part3 (F := F) c = seq (segT2.drop 11 ++ segL2.take 49) := rfl
set_option maxRecDepth 8192 in
theorem main_part4_eq (c : Dev nD) : main_part4 (F := F) c = seq (segL2.drop 49 ++ segT3 ++ segL3.take 22) := rfl
set_option maxRecDepth 8192 in
theorem main_part5_eq (c : Dev nD) : main_part5 (F := F) c = seq (segL3.drop 22 ++ segT4.take 17) := rfl
set_option maxRecDepth 8192 in
theorem main_part6_eq (c : Dev nD) : main_part6 (F := F) c = seq (segT4.drop 17 ++ segL4.take 55) := rfl
set_option maxRecDepth 8192 in
theorem main_part7_eq (c : Dev nD) : main_part7 (F := F) c = seq (segL4.drop 55 ++ segP) := rfl

theorem take_drop_append {α : Type} (n : Nat) (l r : List α) : l.take n ++ (l.drop n ++ r) = l ++ r := by
  rw [← List.append_assoc, List.take_append_drop]

theorem ops_pieces : (ops : List (HloOp τ sig (Elt F)))
    = (segS0 ++ segL0.take 43) ++ ((segL0.drop 43 ++ segT1 ++ segL1.take 16) ++ ((segL1.drop 16 ++ segT2.take 11)
      ++ ((segT2.drop 11 ++ segL2.take 49) ++ ((segL2.drop 49 ++ segT3 ++ segL3.take 22) ++ ((segL3.drop 22 ++ segT4.take 17)
      ++ ((segT4.drop 17 ++ segL4.take 55) ++ (segL4.drop 55 ++ segP))))))) := by
  simp only [ops, List.append_assoc, take_drop_append]

theorem main_eq (c : Dev nD) : main (F := F) c = seq ops := by
  rw [ops_pieces]
  simp only [main, main_part0_eq c, main_part1_eq c, main_part2_eq c, main_part3_eq c, main_part4_eq c,
    main_part5_eq c, main_part6_eq c, main_part7_eq c, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RFacts.lean ====
import proofs.«421876_j2267742732766_4_alg».proof.Proof.Gen.ReferenceIdeal
import proofs.«421876_j2267742732766_4_alg».proof.Proof.Spec
import Idealize.ShloMosaic.Lib.StableHlo.Run

noncomputable section

namespace Cert.ReferenceIdeal.RVal

open Cert.ReferenceIdeal Idealize.ShloMosaic Idealize.ShloMosaic.ValueIdx Idealize.ShloMosaic.StableHlo

variable (m : (ℓ : Loc nD τ sig) → Buf (Elt Ideal) ℓ)

def argsR (c : Dev nD) : Cert.Spec.Args :=
  Cert.Spec.Args.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))

structure RPersist (c : Dev nD) (W : Valuation τ sig (Elt Ideal)) : Prop where
  arg0 : W (Proc.devRef .tc main_arg0) = m ((c.tc : Thread nD τ).loc main_arg0)
  arg1 : W (Proc.devRef .tc main_arg1) = m ((c.tc : Thread nD τ).loc main_arg1)
  arg2 : W (Proc.devRef .tc main_arg2) = m ((c.tc : Thread nD τ).loc main_arg2)
  arg3 : W (Proc.devRef .tc main_arg3) = m ((c.tc : Thread nD τ).loc main_arg3)
  arg4 : W (Proc.devRef .tc main_arg4) = m ((c.tc : Thread nD τ).loc main_arg4)
  arg5 : W (Proc.devRef .tc main_arg5) = m ((c.tc : Thread nD τ).loc main_arg5)
  arg6 : W (Proc.devRef .tc main_arg6) = m ((c.tc : Thread nD τ).loc main_arg6)
  arg7 : W (Proc.devRef .tc main_arg7) = m ((c.tc : Thread nD τ).loc main_arg7)
  arg8 : W (Proc.devRef .tc main_arg8) = m ((c.tc : Thread nD τ).loc main_arg8)
  arg9 : W (Proc.devRef .tc main_arg9) = m ((c.tc : Thread nD τ).loc main_arg9)
  arg10 : W (Proc.devRef .tc main_arg10) = m ((c.tc : Thread nD τ).loc main_arg10)
  arg11 : W (Proc.devRef .tc main_arg11) = m ((c.tc : Thread nD τ).loc main_arg11)
  arg12 : W (Proc.devRef .tc main_arg12) = m ((c.tc : Thread nD τ).loc main_arg12)
  arg13 : W (Proc.devRef .tc main_arg13) = m ((c.tc : Thread nD τ).loc main_arg13)
  arg14 : W (Proc.devRef .tc main_arg14) = m ((c.tc : Thread nD τ).loc main_arg14)
  arg15 : W (Proc.devRef .tc main_arg15) = m ((c.tc : Thread nD τ).loc main_arg15)
  arg16 : W (Proc.devRef .tc main_arg16) = m ((c.tc : Thread nD τ).loc main_arg16)
  arg17 : W (Proc.devRef .tc main_arg17) = m ((c.tc : Thread nD τ).loc main_arg17)
  arg18 : W (Proc.devRef .tc main_arg18) = m ((c.tc : Thread nD τ).loc main_arg18)
  arg19 : W (Proc.devRef .tc main_arg19) = m ((c.tc : Thread nD τ).loc main_arg19)
  arg20 : W (Proc.devRef .tc main_arg20) = m ((c.tc : Thread nD τ).loc main_arg20)
  arg21 : W (Proc.devRef .tc main_arg21) = m ((c.tc : Thread nD τ).loc main_arg21)
  arg22 : W (Proc.devRef .tc main_arg22) = m ((c.tc : Thread nD τ).loc main_arg22)
  arg23 : W (Proc.devRef .tc main_arg23) = m ((c.tc : Thread nD τ).loc main_arg23)
  arg24 : W (Proc.devRef .tc main_arg24) = m ((c.tc : Thread nD τ).loc main_arg24)
  arg25 : W (Proc.devRef .tc main_arg25) = m ((c.tc : Thread nD τ).loc main_arg25)
  arg26 : W (Proc.devRef .tc main_arg26) = m ((c.tc : Thread nD τ).loc main_arg26)
  src : ∀ e : Fin 1600000, (W (Proc.devRef .tc main_v1) : IVec S1600000 32) (ix1 e) = (argsR m c).src e
  dst : ∀ e : Fin 1600000, (W (Proc.devRef .tc main_v3) : IVec S1600000 32) (ix1 e) = (argsR m c).dst e

structure RLayerIn (c : Dev nD) (W : Valuation τ sig (Elt Ideal)) (xarr : FVec Ideal S100000x64 .f32)
    (X : Cert.Spec.Mat 100000 64) : Prop where
  keep : RPersist m c W
  state : ∀ (i : Fin 100000) (d : Fin 64), xarr (ix2 i d) = X i d

def persistRefs : List (Ref sig .tc) :=
  [main_arg0, main_arg1, main_arg2, main_arg3, main_arg4, main_arg5, main_arg6, main_arg7, main_arg8, main_arg9,
    main_arg10, main_arg11, main_arg12, main_arg13, main_arg14, main_arg15, main_arg16, main_arg17, main_arg18,
    main_arg19, main_arg20, main_arg21, main_arg22, main_arg23, main_arg24, main_arg25, main_arg26, main_v1, main_v3]

-- Each field of `RPersist` reads the contents at one of these buffers only.
theorem RPersist.of_agree {c : Dev nD} {W W' : Valuation τ sig (Elt Ideal)} (h : RPersist m c W)
    (hk : ∀ r ∈ persistRefs, W' (Proc.devRef .tc r) = W (Proc.devRef .tc r)) : RPersist m c W' := by
  cases h
  constructor <;> intros <;> rw [hk] <;> first | assumption | apply_assumption | decide

def Spares (op : HloOp τ sig (Elt Ideal)) : Prop := ∃ y, y ∉ persistRefs ∧ op.writes = {Proc.devRef .tc y}

-- No operation of the stretch writes one of those buffers, so each holds what it held.
theorem RPersist.after {c : Dev nD} {W : Valuation τ sig (Elt Ideal)} (ops : List (HloOp τ sig (Elt Ideal)))
    (hW : ops.Forall Spares) (h : RPersist m c W) : RPersist m c (after ops W) :=
  h.of_agree m fun r hr => after_of_forall_not_mem ops W fun op hop hb => by
    obtain ⟨y, hy, he⟩ := List.forall_iff_forall_mem.mp hW op hop
    rw [he, Finset.mem_singleton] at hb
    exact hy (Proc.devRef_injective _ hb ▸ hr)

end Cert.ReferenceIdeal.RVal

end
-- ==== Proof.LibGatherPairs.lean ====
import Idealize.ShloMosaic.PureOps.Ideal
import Idealize.ShloMosaic.PureOps.Ideal.Laws
import Idealize.ShloMosaic.Lib.ValueIdx
import Idealize.ShloMosaic.Lib.IdealHost
import proofs.«421876_j2267742732766_4_alg».proof.Proof.LibGatherRows

noncomputable section

open scoped BigOperators

namespace Cert.LibGatherPairs

open Idealize.ShloMosaic Idealize.ShloMosaic.ValueIdx Cert.LibGatherRows

section Coordinates

variable {N E P D w : Nat}
  (d : GatherDims (⟨2, ![N, D]⟩ : Shape) (⟨3, ![E, P, 1]⟩ : Shape) (⟨3, ![E, P, D]⟩ : Shape))
  (hoff : d.offsetDims = [2]) (hcoll : d.collapsedSliceDims = [0]) (hob : d.operandBatchingDims = [])
  (hsim : d.startIndexMap = [0]) (hivd : d.indexVectorDim = 2)

include hoff hcoll hob hsim hivd

theorem siIdx_pair (e : Fin E) (p : Fin P) (q : Fin D) (c : Fin d.startIndexMap.length) :
    d.siIdx (ix3 e p q) c = ix3 e p (0 : Fin 1) := by
  obtain ⟨od, cd, ob, sb, sm, iv, ss, wf⟩ := d
  subst hoff hcoll hob hsim hivd
  funext b
  refine Fin.ext ?_
  match b with
  | ⟨0, _⟩ => rfl
  | ⟨1, _⟩ => rfl
  | ⟨2, _⟩ =>
    have hc : c.val < 1 := c.isLt
    show c.val = 0
    omega

theorem start_row (idx : IVec (⟨3, ![E, P, 1]⟩ : Shape) w) (e : Fin E) (p : Fin P) (q : Fin D) :
    d.start (ix3 e p q) idx 0 = min (idx (ix3 e p (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_pair d hoff hcoll hob hsim hivd e p q, hsl]
  rfl

theorem start_col (idx : IVec (⟨3, ![E, P, 1]⟩ : Shape) w) (e : Fin E) (p : Fin P) (q : Fin D) :
    d.start (ix3 e p q) idx 1 = 0 := by
  unfold GatherDims.start
  exact dif_neg fun h => Nat.one_ne_zero (congrArg Fin.val (List.mem_singleton.mp (hsim ▸ h)))

theorem batchCoord_zero (e : Fin E) (p : Fin P) (q : Fin D) (a : Fin 2) : d.batchCoord (ix3 e p q) a = 0 :=
  d.batchCoord_eq_zero _ a (by rw [hob]; exact List.not_mem_nil)

theorem offCoord_row (e : Fin E) (p : Fin P) (q : Fin D) : d.offCoord (ix3 e p q) 0 = 0 :=
  d.offCoord_eq_zero _ 0 fun h => ((d.mem_sKept 0).mp h).1 (by rw [hcoll]; exact List.mem_singleton.mpr rfl)

theorem offCoord_col (e : Fin E) (p : Fin P) (q : Fin D) : d.offCoord (ix3 e p q) 1 = q.val := by
  obtain ⟨od, cd, ob, sb, sm, iv, ss, wf⟩ := d
  subst hoff hcoll hob hsim hivd
  rfl

end Coordinates

theorem gatherPairs_apply {α : Type} {N E P D w : Nat} (hN : 0 < N)
    (d : GatherDims (⟨2, ![N, D]⟩ : Shape) (⟨3, ![E, P, 1]⟩ : Shape) (⟨3, ![E, P, D]⟩ : Shape))
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec (⟨3, ![E, P, 1]⟩ : Shape) w) (e : Fin E) (p : Fin P) (q : Fin D) :
    Host.gather d x idx (ix3 e p q) = x (ix2 (clampRow N hN (idx (ix3 e p (0 : Fin 1)))) q) := by
  unfold Host.gather
  refine congrArg x ?_
  funext a
  refine Fin.ext ?_
  match a with
  | ⟨0, _⟩ =>
    show d.start (ix3 e p q) idx 0 + d.batchCoord (ix3 e p q) 0 + d.offCoord (ix3 e p q) 0
      = min (idx (ix3 e p (0 : Fin 1))).toInt.toNat (N - 1)
    rw [start_row d hoff hcoll hob hsim hivd idx e p q, batchCoord_zero d hoff hcoll hob hsim hivd e p q 0,
      offCoord_row d hoff hcoll hob hsim hivd e p q]
    rfl
  | ⟨1, _⟩ =>
    show d.start (ix3 e p q) idx 1 + d.batchCoord (ix3 e p q) 1 + d.offCoord (ix3 e p q) 1 = q.val
    rw [start_col d hoff hcoll hob hsim hivd idx e p q, batchCoord_zero d hoff hcoll hob hsim hivd e p q 1,
      offCoord_col d hoff hcoll hob hsim hivd e p q]
    omega

theorem lift_mid {E P D : Nat} (h : (⟨3, ![E, P, D]⟩ : Shape).Reduces [1] (⟨2, ![E, D]⟩ : Shape)) (e : Fin E) (q : Fin D)
    (k : Fin ((⟨3, ![E, P, D]⟩ : Shape).size 1)) : h.lift (ix2 e q) k = ix3 e (⟨k.val, k.isLt⟩ : Fin P) q := by
  funext c; apply Fin.ext
  fin_cases c <;> rfl

theorem reduceMid_apply {E P D : Nat} (x : FVec Ideal (⟨3, ![E, P, D]⟩ : Shape) .f32)
    (init : FVec Ideal (⟨0, ![]⟩ : Shape) .f32)
    (h' : (⟨3, ![E, P, D]⟩ : Shape).ReducesTo [1] (⟨2, ![E, D]⟩ : Shape))
    (h : (⟨3, ![E, P, D]⟩ : Shape).Reduces [1] (⟨2, ![E, D]⟩ : Shape))
    (hu : 0 < (⟨0, ![]⟩ : Shape).numel) (e : Fin E) (q : Fin D) :
    Host.reduceAdd x init h' hu (ix2 e q) = init (Shape.Idx.first hu) + ∑ p : Fin P, x (ix3 e p q) := by
  rw [hostReduceAdd_apply, Ideal.hostReduceAdd_single h' h]
  congr 1
  exact Finset.sum_congr rfl fun k _ => congrArg x (lift_mid h e q k)

end Cert.LibGatherPairs

end
-- ==== Proof.RStart.lean ====
import proofs.«421876_j2267742732766_4_alg».proof.Proof.RFacts
import proofs.«421876_j2267742732766_4_alg».proof.Proof.RefOps
import proofs.«421876_j2267742732766_4_alg».proof.Proof.LibGatherPairs
import proofs.«421876_j2267742732766_4_alg».proof.Proof.LibPlainDot
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RVal

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

section Layout

variable {α : Type}

theorem sliceStack_apply {n a b : Nat} (o : Nat) (X : (⟨3, ![n, a, b]⟩ : Shape).Idx → α)
    (h : (⟨3, ![n, a, b]⟩ : Shape).Slices ![o, 0, 0] ⟨3, ![1, a, b]⟩)
    (u : Fin 1) (i : Fin a) (j : Fin b) (k : Fin n) (hk : k.val = o) :
    extractStridedSlice ⟨3, ![1, a, b]⟩ ![o, 0, 0] X h (ix3 u i j) = X (ix3 k i j) :=
  extractStridedSlice_apply _ _ _ _ _ (fun ax => by
    match ax with
    | ⟨0, _⟩ =>
      have hu : u.val = 0 := by omega
      show k.val = o + u.val
      omega
    | ⟨1, _⟩ => exact (Nat.zero_add _).symm
    | ⟨2, _⟩ => exact (Nat.zero_add _).symm)

theorem bcast_ab_ab1_apply {n p : Nat} (hn : n ≠ 1) (hp : p ≠ 1)
    (h : (⟨2, ![n, p]⟩ : Shape).BroadcastsInDim (⟨3, ![n, p, 1]⟩ : Shape) ![0, 1])
    (x : (⟨2, ![n, p]⟩ : Shape).Idx → α) (i : Fin n) (q : Fin p) (u : Fin 1) :
    broadcastInDim (⟨3, ![n, p, 1]⟩ : Shape) ![0, 1] h x (ix3 i q u) = x (ix2 i q) :=
  broadcastInDim_apply _ h x _ (ix2 i q) (fun ax => by
    match ax with
    | ⟨0, _⟩ => exact (if_neg hn).symm
    | ⟨1, _⟩ => exact (if_neg hp).symm)

theorem bcast_1b_ab_apply {a b : Nat} (hb : b ≠ 1)
    (h : (⟨2, ![1, b]⟩ : Shape).BroadcastsInDim (⟨2, ![a, b]⟩ : Shape) ![0, 1])
    (x : (⟨2, ![1, b]⟩ : Shape).Idx → α) (i : Fin a) (j : Fin b) :
    broadcastInDim (⟨2, ![a, b]⟩ : Shape) ![0, 1] h x (ix2 i j) = x (ix2 (0 : Fin 1) j) :=
  broadcastInDim_apply _ h x _ (ix2 (0 : Fin 1) j) (fun ax => by
    match ax with
    | ⟨0, _⟩ => exact (if_pos rfl).symm
    | ⟨1, _⟩ => exact (if_neg hb).symm)

theorem bcast_b_1b_apply {b : Nat} (hb : b ≠ 1)
    (h : (⟨1, ![b]⟩ : Shape).BroadcastsInDim (⟨2, ![1, b]⟩ : Shape) ![1])
    (x : (⟨1, ![b]⟩ : Shape).Idx → α) (u : Fin 1) (j : Fin b) :
    broadcastInDim (⟨2, ![1, b]⟩ : Shape) ![1] h x (ix2 u j) = x (ix1 j) :=
  broadcastInDim_apply _ h x _ (ix1 j) (fun ax => by
    match ax with
    | ⟨0, _⟩ => exact (if_neg hb).symm)

theorem concat64_apply {n : Nat} (x₁ x₂ : (⟨2, ![n, 64]⟩ : Shape).Idx → α)
    (h : Shape.Concatenates [(⟨2, ![n, 64]⟩ : Shape), (⟨2, ![n, 64]⟩ : Shape)] (⟨2, ![n, 128]⟩ : Shape) 1)
    (i : Fin n) (q : Fin 128) :
    concatenate (⟨2, ![n, 128]⟩ : Shape) 1 [⟨(⟨2, ![n, 64]⟩ : Shape), x₁⟩, ⟨(⟨2, ![n, 64]⟩ : Shape), x₂⟩] h (ix2 i q)
      = if hq : q.val < 64 then x₁ (ix2 i ⟨q.val, hq⟩) else x₂ (ix2 i ⟨q.val - 64, by have := q.isLt; omega⟩) := by
  by_cases hq : q.val < 64
  · rw [dif_pos hq]
    exact concatenate_pair_apply_left 1 x₁ x₂ h (ix2 i q) rfl (ix2 i ⟨q.val, hq⟩) (fun b => by
      match b with
      | ⟨0, _⟩ => rfl
      | ⟨1, _⟩ => rfl)
  · rw [dif_neg hq]
    exact concatenate_pair_apply_right 1 x₁ x₂ h (ix2 i q) rfl rfl (ix2 i ⟨q.val - 64, by have := q.isLt; omega⟩)
      (fun b => by
        match b with
        | ⟨0, _⟩ => exact fun _ => rfl
        | ⟨1, _⟩ => exact fun hne => absurd rfl hne)
      (by
        show (q.val - 64) + 64 = q.val
        omega)

end Layout

theorem normWord (w : BitVec 32) :
    Scalar.select (IntOp.cmpi .slt w 0#32) (IntOp.addi w 100#32) w = if w.toInt < 0 then w + 100#32 else w := by
  have h0 : (0#32 : BitVec 32).toInt = 0 := by decide
  by_cases h : w.toInt < 0
  · have hs : IntOp.cmpi .slt w 0#32 = 1#1 := by
      show BitVec.ofBool (decide (w.toInt < (0#32 : BitVec 32).toInt)) = 1#1
      rw [h0, decide_eq_true h]
      rfl
    rw [hs, select_one, if_pos h]
    rfl
  · have hs : IntOp.cmpi .slt w 0#32 = 0#1 := by
      show BitVec.ofBool (decide (w.toInt < (0#32 : BitVec 32).toInt)) = 0#1
      rw [h0, decide_eq_false h]
      rfl
    rw [hs, select_zero, if_neg h]

theorem normCode_apply (z : IVec S100000x2 32)
    (hb0 : S_.BroadcastsInDim S100000x2 (![] : Fin 0 → Fin S100000x2.rank)) (j : S100000x2.Idx) :
    select (cmpi .slt z (broadcastInDim S100000x2 ![] hb0 (constantI S_ 32 0#32)))
        (addi z (broadcastInDim S100000x2 ![] hb0 (constantI S_ 32 100#32))) z j
      = if (z j).toInt < 0 then z j + 100#32 else z j := by
  show Scalar.select (IntOp.cmpi .slt (z j) (broadcastInDim S100000x2 ![] hb0 (constantI S_ 32 0#32) j))
      (IntOp.addi (z j) (broadcastInDim S100000x2 ![] hb0 (constantI S_ 32 100#32) j)) (z j) = _
  rw [broadcastInDim_scalar_apply, broadcastInDim_scalar_apply]
  exact normWord (z j)

abbrev embGather (o : Nat) (hs : S5x100x64.Slices ![o, 0, 0] S1x100x64) (z : IVec S100000x2 32)
    (T : FVec Ideal S5x100x64 .f32) : FVec Ideal S100000x2x64 .f32 :=
  Host.gather gather_S100x64_S100000x2x1_S100000x2x64_2_0_n_n_0_2_164
    (shapeCast S100x64 (extractStridedSlice S1x100x64 ![o, 0, 0] T hs) shapeCasts_S1x100x64_S100x64)
    (broadcastInDim S100000x2x1 ![0, 1] bcast_S100000x2_S100000x2x1_0_1
      (select (cmpi .slt z (broadcastInDim S100000x2 ![] bcast_S_S100000x2 (constantI S_ 32 0#32)))
        (addi z (broadcastInDim S100000x2 ![] bcast_S_S100000x2 (constantI S_ 32 100#32))) z))

abbrev embTerm (o : Nat) (hs : S5x100x64.Slices ![o, 0, 0] S1x100x64) (z : IVec S100000x2 32)
    (T : FVec Ideal S5x100x64 .f32) : FVec Ideal S100000x64 .f32 :=
  Host.reduceAdd (embGather o hs z T) (constant S_ .f32 0x00000000#32) reducesTo_S100000x2x64_S100000x64_d1 h_S_

theorem embGather_apply (o : Nat) (hs : S5x100x64.Slices ![o, 0, 0] S1x100x64) (z : IVec S100000x2 32)
    (T : FVec Ideal S5x100x64 .f32) (l : Fin 5) (hl : l.val = o) (i : Fin 100000) (p : Fin 2) (d : Fin 64) :
    embGather o hs z T (ix3 i p d) = Cert.Spec.cur3 T l (Cert.Spec.tblRow (z (ix2 i p))) d := by
  unfold embGather
  rw [Cert.LibGatherPairs.gatherPairs_apply (by decide) _ rfl rfl rfl rfl rfl, shapeCast_1ab_ab_apply,
    sliceStack_apply o T hs 0 _ d l hl, bcast_ab_ab1_apply (by decide) (by decide), normCode_apply]
  rfl

theorem emb_apply (o : Nat) (hs : S5x100x64.Slices ![o, 0, 0] S1x100x64) (z : IVec S100000x2 32)
    (T : FVec Ideal S5x100x64 .f32) (l : Fin 5) (hl : l.val = o) (i : Fin 100000) (d : Fin 64) :
    embTerm o hs z T (ix2 i d) = Cert.Spec.embR (Cert.Spec.cur z) (Cert.Spec.cur3 T l) i d := by
  have hR : S100000x2x64.Reduces [1] S100000x64 := by decide
  show Host.reduceAdd _ _ reducesTo_S100000x2x64_S100000x64_d1 h_S_ (ix2 i d) = _
  rw [Cert.LibGatherPairs.reduceMid_apply _ _ _ hR, Fin.sum_univ_two, embGather_apply o hs z T l hl,
    embGather_apply o hs z T l hl, constant_apply, Ideal.ofBits_zero_f32, zero_add]
  rfl

abbrev transTerm (o : Nat) (hsW : S4x128x64.Slices ![o, 0, 0] S1x128x64) (hsB : S4x64.Slices ![o, 0] S1x64)
    (xs e : FVec Ideal S100000x64 .f32) (TW : FVec Ideal S4x128x64 .f32) (TB : FVec Ideal S4x64 .f32) :
    FVec Ideal S100000x64 .f32 :=
  addf
    (Host.dotGeneral dot_S100000x128_S128x64_S100000x64_1_0_0_1_n_n none
      (concatenate S100000x128 1 [⟨S100000x64, xs⟩, ⟨S100000x64, e⟩] concatenates_S100000x64_S100000x64_S100000x128_d1)
      (shapeCast S128x64 (extractStridedSlice S1x128x64 ![o, 0, 0] TW hsW) shapeCasts_S1x128x64_S128x64))
    (broadcastInDim S100000x64 ![0, 1] bcast_S1x64_S100000x64_0_1
      (broadcastInDim S1x64 ![1] bcast_S64_S1x64_1
        (shapeCast S64 (extractStridedSlice S1x64 ![o, 0] TB hsB) shapeCasts_S1x64_S64)))

theorem trans_apply (o : Nat) (hsW : S4x128x64.Slices ![o, 0, 0] S1x128x64) (hsB : S4x64.Slices ![o, 0] S1x64)
    (xs e : FVec Ideal S100000x64 .f32) (TW : FVec Ideal S4x128x64 .f32) (TB : FVec Ideal S4x64 .f32)
    (l : Fin 4) (hl : l.val = o) (X E : Cert.Spec.Mat 100000 64)
    (hX : ∀ (i : Fin 100000) (d : Fin 64), xs (ix2 i d) = X i d)
    (hE : ∀ (i : Fin 100000) (d : Fin 64), e (ix2 i d) = E i d) (i : Fin 100000) (d : Fin 64) :
    transTerm o hsW hsB xs e TW TB (ix2 i d)
      = Cert.Spec.affine (Cert.Spec.concat X E) (Cert.Spec.cur3 TW l) (Cert.Spec.cur TB l) i d := by
  show addf (Host.dotGeneral dot_S100000x128_S128x64_S100000x64_1_0_0_1_n_n none _ _) _ (ix2 i d) = _
  rw [addf_apply, Cert.LibPlainDot.hostDot_apply _ rfl rfl rfl rfl rfl rfl, bcast_1b_ab_apply (by decide),
    bcast_b_1b_apply (by decide), shapeCast_1a_a_apply, slice2_axis0_apply o TB hsB 0 d l (hl.trans (Nat.add_zero o).symm)]
  show Cert.Spec.mm _ _ i d + TB (ix2 l d) = Cert.Spec.mm (Cert.Spec.concat X E) (Cert.Spec.cur3 TW l) i d + TB (ix2 l d)
  congr 1
  refine Finset.sum_congr rfl fun q _ => ?_
  show concatenate S100000x128 1 [⟨S100000x64, xs⟩, ⟨S100000x64, e⟩] concatenates_S100000x64_S100000x64_S100000x128_d1 (ix2 i q)
      * shapeCast S128x64 (extractStridedSlice S1x128x64 ![o, 0, 0] TW hsW) shapeCasts_S1x128x64_S128x64 (ix2 q d)
    = Cert.Spec.concat X E i q * TW (ix3 l q d)
  rw [concat64_apply, shapeCast_1ab_ab_apply, sliceStack_apply o TW hsW 0 q d l hl]
  congr 1
  unfold Cert.Spec.concat
  by_cases hq : q.val < 64
  · rw [dif_pos hq, dif_pos hq]
    exact hX i _
  · rw [dif_neg hq, dif_neg hq]
    exact hE i _

variable (m : (ℓ : Loc nD τ sig) → Buf (Elt Ideal) ℓ)

def writtenS0 : List (Ref sig .tc) :=
  [main_v0, main_v1, main_v2, main_v3, main_v4, main_v5, main_c, main_v6, main_v7, main_c_0, main_v8, main_v9, main_v10,
    main_v11, main_v12, main_cst, main_v13]

theorem segS0_writes : (segS0 (F := Ideal)).Forall fun op =>
    op.writes ⊆ (writtenS0.map (Proc.devRef (τ := τ) .tc)).toFinset := by
  simp only [segS0, List.Forall, nullary_writes, unary_writes, binary_writes, ternary_writes, reshape_writes,
    Finset.singleton_subset_iff, List.mem_toFinset]
  repeat' apply And.intro
  all_goals exact List.mem_map.mpr ⟨_, by decide, rfl⟩

theorem rstart (c : Dev nD) :
    RLayerIn m c (after segS0 (launchContents m c)) (after segS0 (launchContents m c) (Proc.devRef .tc main_v13))
      (Cert.Spec.xR0 (argsR m c)) := by
  have e1 : (after (segS0 (F := Ideal)) (launchContents m c) (Proc.devRef .tc main_v1) : IVec S1600000 32)
      = shapeCast S1600000 (extractStridedSlice S1x1600000 ![0, 0] (m ((c.tc : Thread nD τ).loc main_arg1))
          slices_S2x1600000_S1x1600000_0_0) shapeCasts_S1x1600000_S1600000 := by
    dsimp only [segS0]
    after_results <;> rfl
  have e3 : (after (segS0 (F := Ideal)) (launchContents m c) (Proc.devRef .tc main_v3) : IVec S1600000 32)
      = shapeCast S1600000 (extractStridedSlice S1x1600000 ![1, 0] (m ((c.tc : Thread nD τ).loc main_arg1))
          slices_S2x1600000_S1x1600000_1_0) shapeCasts_S1x1600000_S1600000 := by
    dsimp only [segS0]
    after_results <;> rfl
  have e13 : (after (segS0 (F := Ideal)) (launchContents m c) (Proc.devRef .tc main_v13) : FVec Ideal S100000x64 .f32)
      = embTerm 0 slices_S5x100x64_S1x100x64_0_0_0 (m ((c.tc : Thread nD τ).loc main_arg0))
          (m ((c.tc : Thread nD τ).loc main_arg5)) := by
    dsimp only [segS0]
    after_results <;> rfl
  refine ⟨by
    constructor
    case src => intro e; rw [e1, shapeCast_1a_a_apply, slice2_axis0_apply 0 _ _ 0 e 0 rfl]; rfl
    case dst => intro e; rw [e3, shapeCast_1a_a_apply, slice2_axis0_apply 1 _ _ 0 e 1 rfl]; rfl
    all_goals exact after_of_writes_sub segS0 (launchContents m c) segS0_writes (by decide), fun i d => ?_⟩
  rw [e13]
  exact emb_apply 0 _ _ _ 0 rfl i d

-- A stretch that spares the persistent buffers and leaves in `x'` the map's array of `x` takes the state `X` to the affine map of `[X, embedding]`.
theorem rtrans_of (c : Dev nD) (seg : List (HloOp τ sig (Elt Ideal))) (hW : seg.Forall Spares) (o o' : Nat) (l : Fin 4)
    (hl : l.val = o) (l' : Fin 5) (hl' : l'.val = o') {W : Valuation τ sig (Elt Ideal)}
    {x x' : FVec Ideal S100000x64 .f32} {X : Cert.Spec.Mat 100000 64}
    (hsW : S4x128x64.Slices ![o, 0, 0] S1x128x64) (hsB : S4x64.Slices ![o, 0] S1x64)
    (hs : S5x100x64.Slices ![o', 0, 0] S1x100x64)
    (hv : x' = transTerm o hsW hsB x (embTerm o' hs (W (Proc.devRef .tc main_arg0)) (W (Proc.devRef .tc main_arg5)))
      (W (Proc.devRef .tc main_arg6)) (W (Proc.devRef .tc main_arg7)))
    (h : RLayerIn m c W x X) :
    RLayerIn m c (after seg W) x'
      (Cert.Spec.trans (argsR m c) l X (Cert.Spec.embR (argsR m c).z ((argsR m c).zemb l'))) :=
  ⟨h.keep.after m seg hW, fun i d => by
    rw [hv, h.keep.arg0, h.keep.arg5, h.keep.arg6, h.keep.arg7]
    exact trans_apply o _ _ _ _ _ _ l hl X _ h.state (fun i d => emb_apply o' _ _ _ l' hl' i d) i d⟩

end Cert.ReferenceIdeal.RVal

end
-- ==== Proof.RTrans1.lean ====
import proofs.«421876_j2267742732766_4_alg».proof.Proof.RStart

noncomputable section

namespace Cert.ReferenceIdeal.RVal

open Cert.ReferenceIdeal Cert.ReferenceIdeal.Gen Cert.ReferenceIdeal.RefRun Idealize.ShloMosaic Idealize.ShloMosaic.StableHlo

variable (m : (ℓ : Loc nD τ sig) → Buf (Elt Ideal) ℓ)

theorem segT1_spares : (segT1 (F := Ideal)).Forall Spares := by
  simp only [segT1, List.Forall, Spares, nullary_writes, unary_writes, binary_writes, ternary_writes, reshape_writes]
  repeat' apply And.intro
  all_goals exact ⟨_, by decide, rfl⟩

-- The next state's buffer holds the map's array of the state buffer and the next embedding's operands.
theorem rtrans1 (c : Dev nD) (W : Valuation τ sig (Elt Ideal)) (X : Cert.Spec.Mat 100000 64)
    (h : RLayerIn m c W (W (Proc.devRef .tc main_v70)) X) :
    RLayerIn m c (after segT1 W) (after segT1 W (Proc.devRef .tc main_v89))
      (Cert.Spec.trans (argsR m c) 0 X (Cert.Spec.embR (argsR m c).z ((argsR m c).zemb 1))) :=
  rtrans_of m c _ segT1_spares 0 1 0 rfl 1 rfl slices_S4x128x64_S1x128x64_0_0_0 slices_S4x64_S1x64_0_0
    slices_S5x100x64_S1x100x64_1_0_0 (by simp only [segT1]; after_results_simp <;> rfl) h

end Cert.ReferenceIdeal.RVal

end
-- ==== Proof.RTrans2.lean ====
import proofs.«421876_j2267742732766_4_alg».proof.Proof.RStart

noncomputable section

namespace Cert.ReferenceIdeal.RVal

open Cert.ReferenceIdeal Cert.ReferenceIdeal.Gen Cert.ReferenceIdeal.RefRun Idealize.ShloMosaic Idealize.ShloMosaic.StableHlo

variable (m : (ℓ : Loc nD τ sig) → Buf (Elt Ideal) ℓ)

theorem segT2_spares : (segT2 (F := Ideal)).Forall Spares := by
  simp only [segT2, List.Forall, Spares, nullary_writes, unary_writes, binary_writes, ternary_writes, reshape_writes]
  repeat' apply And.intro
  all_goals exact ⟨_, by decide, rfl⟩

-- The next state's buffer holds the map's array of the state buffer and the next embedding's operands.
theorem rtrans2 (c : Dev nD) (W : Valuation τ sig (Elt Ideal)) (X : Cert.Spec.Mat 100000 64)
    (h : RLayerIn m c W (W (Proc.devRef .tc main_v146)) X) :
    RLayerIn m c (after segT2 W) (after segT2 W (Proc.devRef .tc main_v165))
      (Cert.Spec.trans (argsR m c) 1 X (Cert.Spec.embR (argsR m c).z ((argsR m c).zemb 2))) :=
  rtrans_of m c _ segT2_spares 1 2 1 rfl 2 rfl slices_S4x128x64_S1x128x64_1_0_0 slices_S4x64_S1x64_1_0
    slices_S5x100x64_S1x100x64_2_0_0 (by simp only [segT2]; after_results_simp <;> rfl) h

end Cert.ReferenceIdeal.RVal

end
-- ==== Proof.RTrans3.lean ====
import proofs.«421876_j2267742732766_4_alg».proof.Proof.RStart

noncomputable section

namespace Cert.ReferenceIdeal.RVal

open Cert.ReferenceIdeal Cert.ReferenceIdeal.Gen Cert.ReferenceIdeal.RefRun Idealize.ShloMosaic Idealize.ShloMosaic.StableHlo

variable (m : (ℓ : Loc nD τ sig) → Buf (Elt Ideal) ℓ)

theorem segT3_spares : (segT3 (F := Ideal)).Forall Spares := by
  simp only [segT3, List.Forall, Spares, nullary_writes, unary_writes, binary_writes, ternary_writes, reshape_writes]
  repeat' apply And.intro
  all_goals exact ⟨_, by decide, rfl⟩

-- The next state's buffer holds the map's array of the state buffer and the next embedding's operands.
theorem rtrans3 (c : Dev nD) (W : Valuation τ sig (Elt Ideal)) (X : Cert.Spec.Mat 100000 64)
    (h : RLayerIn m c W (W (Proc.devRef .tc main_v222)) X) :
    RLayerIn m c (after segT3 W) (after segT3 W (Proc.devRef .tc main_v241))
      (Cert.Spec.trans (argsR m c) 2 X (Cert.Spec.embR (argsR m c).z ((argsR m c).zemb 3))) :=
  rtrans_of m c _ segT3_spares 2 3 2 rfl 3 rfl slices_S4x128x64_S1x128x64_2_0_0 slices_S4x64_S1x64_2_0
    slices_S5x100x64_S1x100x64_3_0_0 (by simp only [segT3]; after_results_simp <;> rfl) h

end Cert.ReferenceIdeal.RVal

end
-- ==== Proof.RTrans4.lean ====
import proofs.«421876_j2267742732766_4_alg».proof.Proof.RStart

noncomputable section

namespace Cert.ReferenceIdeal.RVal

open Cert.ReferenceIdeal Cert.ReferenceIdeal.Gen Cert.ReferenceIdeal.RefRun Idealize.ShloMosaic Idealize.ShloMosaic.StableHlo

variable (m : (ℓ : Loc nD τ sig) → Buf (Elt Ideal) ℓ)

theorem segT4_spares : (segT4 (F := Ideal)).Forall Spares := by
  simp only [segT4, List.Forall, Spares, nullary_writes, unary_writes, binary_writes, ternary_writes, reshape_writes]
  repeat' apply And.intro
  all_goals exact ⟨_, by decide, rfl⟩

-- The next state's buffer holds the map's array of the state buffer and the next embedding's operands.
theorem rtrans4 (c : Dev nD) (W : Valuation τ sig (Elt Ideal)) (X : Cert.Spec.Mat 100000 64)
    (h : RLayerIn m c W (W (Proc.devRef .tc main_v298)) X) :
    RLayerIn m c (after segT4 W) (after segT4 W (Proc.devRef .tc main_v317))
      (Cert.Spec.trans (argsR m c) 3 X (Cert.Spec.embR (argsR m c).z ((argsR m c).zemb 4))) :=
  rtrans_of m c _ segT4_spares 3 4 3 rfl 4 rfl slices_S4x128x64_S1x128x64_3_0_0 slices_S4x64_S1x64_3_0
    slices_S5x100x64_S1x100x64_4_0_0 (by simp only [segT4]; after_results_simp <;> rfl) h

end Cert.ReferenceIdeal.RVal

end
-- ==== Proof.RUpdLib.lean ====
import proofs.«421876_j2267742732766_4_alg».proof.Proof.RStart
import proofs.«421876_j2267742732766_4_alg».proof.Proof.LibMsgChain

noncomputable section

namespace Cert.RUpdLib

open Cert.ReferenceIdeal Cert.ReferenceIdeal.RVal Idealize.ShloMosaic Idealize.ShloMosaic.ValueIdx Idealize.ShloMosaic.StableHlo

section Elementwise
variable {s : Shape} {φ : FTy}

theorem hostNegf_apply (a : FVec Ideal s φ) (i : s.Idx) : Host.negf a i = -(a i) := rfl
theorem hostExp_apply (a : FVec Ideal s φ) (i : s.Idx) : Host.exp a i = Ideal.exp (a i) := rfl
theorem hostTanh_apply (a : FVec Ideal s φ) (i : s.Idx) : Host.tanh a i = Ideal.tanh (a i) := rfl

end Elementwise

theorem ones_apply {T : Shape} (h : (⟨0, ![]⟩ : Shape).BroadcastsInDim T ![]) (j : T.Idx) :
    broadcastInDim T ![] h (constant (F := Ideal) (⟨0, ![]⟩ : Shape) .f32 0x3F800000#32) j = (1 : EReal) := by
  rw [broadcastInDim_scalar_apply, constant_apply]
  exact Ideal.ofBits_one_f32

section Groups
variable {n : Nat} (X : (⟨2, ![n, 192]⟩ : Shape).Idx → EReal) (r : Fin n) (d : Fin 64)

theorem group0_apply (h : (⟨2, ![n, 192]⟩ : Shape).Slices ![0, 0] ⟨2, ![n, 64]⟩) :
    extractStridedSlice ⟨2, ![n, 64]⟩ ![0, 0] X h (ix2 r d) = X (ix2 r (Cert.Spec.g0 d)) :=
  slice2_axis1_apply 0 X h r d (Cert.Spec.g0 d) (Nat.zero_add _).symm
theorem group1_apply (h : (⟨2, ![n, 192]⟩ : Shape).Slices ![0, 64] ⟨2, ![n, 64]⟩) :
    extractStridedSlice ⟨2, ![n, 64]⟩ ![0, 64] X h (ix2 r d) = X (ix2 r (Cert.Spec.g1 d)) :=
  slice2_axis1_apply 64 X h r d (Cert.Spec.g1 d) rfl
theorem group2_apply (h : (⟨2, ![n, 192]⟩ : Shape).Slices ![0, 128] ⟨2, ![n, 64]⟩) :
    extractStridedSlice ⟨2, ![n, 64]⟩ ![0, 128] X h (ix2 r d) = X (ix2 r (Cert.Spec.g2 d)) :=
  slice2_axis1_apply 128 X h r d (Cert.Spec.g2 d) rfl

end Groups

section Gates
variable {n : Nat}
  (h0 : (⟨2, ![n, 192]⟩ : Shape).Slices ![0, 0] ⟨2, ![n, 64]⟩)
  (h1 : (⟨2, ![n, 192]⟩ : Shape).Slices ![0, 64] ⟨2, ![n, 64]⟩)
  (h2 : (⟨2, ![n, 192]⟩ : Shape).Slices ![0, 128] ⟨2, ![n, 64]⟩)
  (hone : (⟨0, ![]⟩ : Shape).BroadcastsInDim (⟨2, ![n, 64]⟩ : Shape) ![])

def onesArr : FVec Ideal (⟨2, ![n, 64]⟩ : Shape) .f32 :=
  broadcastInDim (⟨2, ![n, 64]⟩ : Shape) ![] hone (constant (F := Ideal) (⟨0, ![]⟩ : Shape) .f32 0x3F800000#32)

def sigArr (z : FVec Ideal (⟨2, ![n, 64]⟩ : Shape) .f32) : FVec Ideal (⟨2, ![n, 64]⟩ : Shape) .f32 :=
  Host.divf (onesArr hone) (addf (onesArr hone) (Host.exp (Host.negf z)))

def gateArr (G H : FVec Ideal (⟨2, ![n, 192]⟩ : Shape) .f32) (x : FVec Ideal (⟨2, ![n, 64]⟩ : Shape) .f32) :
    FVec Ideal (⟨2, ![n, 64]⟩ : Shape) .f32 :=
  addf
    (mulf
      (subf (onesArr hone)
        (sigArr hone (addf (extractStridedSlice ⟨2, ![n, 64]⟩ ![0, 64] G h1) (extractStridedSlice ⟨2, ![n, 64]⟩ ![0, 64] H h1))))
      (Host.tanh
        (addf (extractStridedSlice ⟨2, ![n, 64]⟩ ![0, 128] G h2)
          (mulf
            (sigArr hone (addf (extractStridedSlice ⟨2, ![n, 64]⟩ ![0, 0] G h0) (extractStridedSlice ⟨2, ![n, 64]⟩ ![0, 0] H h0)))
            (extractStridedSlice ⟨2, ![n, 64]⟩ ![0, 128] H h2)))))
    (mulf
      (sigArr hone (addf (extractStridedSlice ⟨2, ![n, 64]⟩ ![0, 64] G h1) (extractStridedSlice ⟨2, ![n, 64]⟩ ![0, 64] H h1)))
      x)

theorem gateArr_apply (G H : FVec Ideal (⟨2, ![n, 192]⟩ : Shape) .f32) (x : FVec Ideal (⟨2, ![n, 64]⟩ : Shape) .f32)
    (i : Fin n) (d : Fin 64) :
    gateArr h0 h1 h2 hone G H x (ix2 i d)
      = Cert.Spec.gru (Cert.Spec.cur G) (Cert.Spec.cur H) (Cert.Spec.cur x) i d := by
  have h1 : ∀ j, onesArr hone j = (1 : EReal) := fun j => ones_apply hone j
  unfold gateArr sigArr
  simp only [addf_apply, mulf_apply, subf_apply, hostDivf_apply, hostNegf_apply, hostExp_apply, hostTanh_apply,
    h1, group0_apply, group1_apply, group2_apply]
  rfl

end Gates

def stackMat {a b : Nat} (l : Nat) (A : FVec Ideal (⟨3, ![5, a, b]⟩ : Shape) .f32)
    (h : (⟨3, ![5, a, b]⟩ : Shape).Slices ![l, 0, 0] ⟨3, ![1, a, b]⟩)
    (h' : (⟨3, ![1, a, b]⟩ : Shape).ShapeCasts ⟨2, ![a, b]⟩) : FVec Ideal (⟨2, ![a, b]⟩ : Shape) .f32 :=
  shapeCast ⟨2, ![a, b]⟩ (extractStridedSlice ⟨3, ![1, a, b]⟩ ![l, 0, 0] A h) h'

-- The cast drops the leading unit axis, and the slice starts at member l.
theorem stackMat_cur {a b : Nat} (l : Nat) (A : FVec Ideal (⟨3, ![5, a, b]⟩ : Shape) .f32)
    (h : (⟨3, ![5, a, b]⟩ : Shape).Slices ![l, 0, 0] ⟨3, ![1, a, b]⟩)
    (h' : (⟨3, ![1, a, b]⟩ : Shape).ShapeCasts ⟨2, ![a, b]⟩) (l' : Fin 5) (hl : l'.val = l) :
    Cert.Spec.cur (stackMat l A h h') = Cert.Spec.cur3 A l' :=
  funext fun i => funext fun j => by
    show shapeCast _ (extractStridedSlice _ _ A h) h' (ix2 i j) = A (ix3 l' i j)
    rw [shapeCast_1ab_ab_apply]
    exact sliceStack_apply l A h 0 i j l' hl

def stackBias {n b : Nat} (l : Nat) (B : FVec Ideal (⟨2, ![5, b]⟩ : Shape) .f32)
    (h : (⟨2, ![5, b]⟩ : Shape).Slices ![l, 0] ⟨2, ![1, b]⟩)
    (h' : (⟨2, ![1, b]⟩ : Shape).ShapeCasts ⟨1, ![b]⟩)
    (hb1 : (⟨1, ![b]⟩ : Shape).BroadcastsInDim (⟨2, ![1, b]⟩ : Shape) (![1] : Fin 1 → Fin 2))
    (hb2 : (⟨2, ![1, b]⟩ : Shape).BroadcastsInDim (⟨2, ![n, b]⟩ : Shape) (![0, 1] : Fin 2 → Fin 2)) :
    FVec Ideal (⟨2, ![n, b]⟩ : Shape) .f32 :=
  broadcastInDim (⟨2, ![n, b]⟩ : Shape) ![0, 1] hb2
    (broadcastInDim (⟨2, ![1, b]⟩ : Shape) ![1] hb1
      (shapeCast ⟨1, ![b]⟩ (extractStridedSlice ⟨2, ![1, b]⟩ ![l, 0] B h) h'))

-- The tall repetition reads the one row, the one row the vector, the cast drops the unit axis, the slice starts at member l.
theorem stackBias_cur {n b : Nat} (hb : b ≠ 1) (l : Nat) (B : FVec Ideal (⟨2, ![5, b]⟩ : Shape) .f32)
    (h : (⟨2, ![5, b]⟩ : Shape).Slices ![l, 0] ⟨2, ![1, b]⟩)
    (h' : (⟨2, ![1, b]⟩ : Shape).ShapeCasts ⟨1, ![b]⟩)
    (hb1 : (⟨1, ![b]⟩ : Shape).BroadcastsInDim (⟨2, ![1, b]⟩ : Shape) (![1] : Fin 1 → Fin 2))
    (hb2 : (⟨2, ![1, b]⟩ : Shape).BroadcastsInDim (⟨2, ![n, b]⟩ : Shape) (![0, 1] : Fin 2 → Fin 2))
    (l' : Fin 5) (hl : l'.val = l) (i : Fin n) (j : Fin b) :
    Cert.Spec.cur (stackBias l B h h' hb1 hb2) i j = Cert.Spec.cur B l' j := by
  show stackBias l B h h' hb1 hb2 (ix2 i j) = B (ix2 l' j)
  unfold stackBias
  rw [bcast_1b_ab_apply hb, bcast_b_1b_apply hb, shapeCast_1a_a_apply]
  exact slice2_axis0_apply l B h (0 : Fin 1) j l' (hl.trans (Nat.add_zero l).symm)

theorem addf_cur {a b : Nat} {φ : FTy} (A B : FVec Ideal (⟨2, ![a, b]⟩ : Shape) φ) (i : Fin a) (j : Fin b) :
    Cert.Spec.cur (addf A B) i j = Cert.Spec.cur A i j + Cert.Spec.cur B i j := rfl

theorem dot64_cur (L : FVec Ideal S100000x64 .f32) (R : FVec Ideal S64x64 .f32) :
    Cert.Spec.cur (Host.dotGeneral dot_S100000x64_S64x64_S100000x64_1_0_0_1_n_n none L R)
      = Cert.Spec.mm (Cert.Spec.cur L) (Cert.Spec.cur R) :=
  funext fun i => funext fun j =>
    Cert.LibPlainDot.hostDot_apply dot_S100000x64_S64x64_S100000x64_1_0_0_1_n_n rfl rfl rfl rfl rfl rfl none L R i j

theorem dot192_cur (L : FVec Ideal S100000x64 .f32) (R : FVec Ideal S64x192 .f32) :
    Cert.Spec.cur (Host.dotGeneral dot_S100000x64_S64x192_S100000x192_1_0_0_1_n_n none L R)
      = Cert.Spec.mm (Cert.Spec.cur L) (Cert.Spec.cur R) :=
  funext fun i => funext fun j =>
    Cert.LibPlainDot.hostDot_apply dot_S100000x64_S64x192_S100000x192_1_0_0_1_n_n rfl rfl rfl rfl rfl rfl none L R i j

theorem gru_congr {n : Nat} {G G' H H' : Cert.Spec.Mat n 192} {x : Cert.Spec.Mat n 64}
    (hG : ∀ i j, G i j = G' i j) (hH : ∀ i j, H i j = H' i j) (i : Fin n) (d : Fin 64) :
    Cert.Spec.gru G H x i d = Cert.Spec.gru G' H' x i d := by
  rw [show G = G' from funext fun i => funext fun j => hG i j, show H = H' from funext fun i => funext fun j => hH i j]

section Messages
variable (hz : S_.BroadcastsInDim S100000x64 (![] : Fin 0 → Fin 2))
  (hbe : S_.BroadcastsInDim S1600000 (![] : Fin 0 → Fin 1))
  (hbc : S1600000.BroadcastsInDim S1600000x1 (![0] : Fin 1 → Fin 2))

def msgArr (y : FVec Ideal S100000x64 .f32) (s t : IVec S1600000 32) : FVec Ideal S100000x64 .f32 :=
  Host.scatterAdd scatter_S100000x64_S1600000x1_S1600000x64_1_0_0_1
    (broadcastInDim S100000x64 ![] hz (constant (F := Ideal) S_ .f32 0x00000000#32))
    (broadcastInDim S1600000x1 ![0] hbc t)
    (Host.gather gather_S100000x64_S1600000x1_S1600000x64_1_0_n_n_0_1_164 y
      (broadcastInDim S1600000x1 ![0] hbc
        (select (cmpi .slt s (broadcastInDim S1600000 ![] hbe (constantI S_ 32 0#32)))
          (addi s (broadcastInDim S1600000 ![] hbe (constantI S_ 32 100000#32))) s)))

theorem msgArr_cur (y : FVec Ideal S100000x64 .f32) (s t : IVec S1600000 32) :
    Cert.Spec.cur (msgArr hz hbe hbc y s t)
      = Cert.Spec.msg (by decide) 100000#32 (Cert.Spec.cur y) (Cert.Spec.vec s) (Cert.Spec.vec t) :=
  funext fun v => funext fun q =>
    Cert.LibMsgChain.msgChain_apply (by decide) 100000#32
      gather_S100000x64_S1600000x1_S1600000x64_1_0_n_n_0_1_164 rfl rfl rfl rfl rfl
      scatter_S100000x64_S1600000x1_S1600000x64_1_0_0_1 rfl rfl rfl rfl hz hbe hbc y s t v q

end Messages

def layerArr (l : Nat) (x : FVec Ideal S100000x64 .f32) (A8 : FVec Ideal S5x64x64 .f32) (A9 : FVec Ideal S5x64x192 .f32)
    (A10 : FVec Ideal S5x192 .f32) (A11 : FVec Ideal S5x64x192 .f32) (A12 : FVec Ideal S5x192 .f32)
    (s t : IVec S1600000 32) (h8 : S5x64x64.Slices ![l, 0, 0] S1x64x64) (h9 : S5x64x192.Slices ![l, 0, 0] S1x64x192)
    (h10 : S5x192.Slices ![l, 0] S1x192) : FVec Ideal S100000x64 .f32 :=
  gateArr Gen.slices_S100000x192_S100000x64_0_0 Gen.slices_S100000x192_S100000x64_0_64
    Gen.slices_S100000x192_S100000x64_0_128 Gen.bcast_S_S100000x64
    (addf
      (Host.dotGeneral dot_S100000x64_S64x192_S100000x192_1_0_0_1_n_n none
        (msgArr Gen.bcast_S_S100000x64 Gen.bcast_S_S1600000 Gen.bcast_S1600000_S1600000x1_0
          (Host.dotGeneral dot_S100000x64_S64x64_S100000x64_1_0_0_1_n_n none x
            (stackMat l A8 h8 Gen.shapeCasts_S1x64x64_S64x64)) s t)
        (stackMat l A9 h9 Gen.shapeCasts_S1x64x192_S64x192))
      (stackBias l A10 h10 Gen.shapeCasts_S1x192_S192 Gen.bcast_S192_S1x192_1 Gen.bcast_S1x192_S100000x192_0_1))
    (addf
      (Host.dotGeneral dot_S100000x64_S64x192_S100000x192_1_0_0_1_n_n none x
        (stackMat l A11 h9 Gen.shapeCasts_S1x64x192_S64x192))
      (stackBias l A12 h10 Gen.shapeCasts_S1x192_S192 Gen.bcast_S192_S1x192_1 Gen.bcast_S1x192_S100000x192_0_1))
    x

-- The gates are the cell of G and H; G is the messages' product plus a bias, H the state's; each stack member is the stack read at l.
theorem layerArr_apply (l : Nat) (l' : Fin 5) (hl : l'.val = l)
    (x : FVec Ideal S100000x64 .f32) (A8 : FVec Ideal S5x64x64 .f32) (A9 : FVec Ideal S5x64x192 .f32)
    (A10 : FVec Ideal S5x192 .f32) (A11 : FVec Ideal S5x64x192 .f32) (A12 : FVec Ideal S5x192 .f32)
    (s t : IVec S1600000 32) (h8 : S5x64x64.Slices ![l, 0, 0] S1x64x64) (h9 : S5x64x192.Slices ![l, 0, 0] S1x64x192)
    (h10 : S5x192.Slices ![l, 0] S1x192) (i : Fin 100000) (d : Fin 64) :
    layerArr l x A8 A9 A10 A11 A12 s t h8 h9 h10 (ix2 i d)
      = Cert.Spec.gruStep
          (Cert.Spec.mm
            (Cert.Spec.msg (by decide) 100000#32 (Cert.Spec.mm (Cert.Spec.cur x) (Cert.Spec.cur3 A8 l'))
              (Cert.Spec.vec s) (Cert.Spec.vec t))
            (Cert.Spec.cur3 A9 l'))
          (Cert.Spec.cur x) (Cert.Spec.cur A10 l') (Cert.Spec.cur3 A11 l') (Cert.Spec.cur A12 l') i d := by
  unfold layerArr
  rw [gateArr_apply]
  unfold Cert.Spec.gruStep
  refine gru_congr (fun i j => ?_) (fun i j => ?_) i d
  · rw [addf_cur, dot192_cur, msgArr_cur, dot64_cur, stackMat_cur l A8 h8 _ l' hl, stackMat_cur l A9 h9 _ l' hl,
      stackBias_cur (by decide) l A10 h10 _ _ _ l' hl]
    rfl
  · rw [addf_cur, dot192_cur, stackMat_cur l A11 h9 _ l' hl, stackBias_cur (by decide) l A12 h10 _ _ _ l' hl]
    rfl

end Cert.RUpdLib

namespace Cert.ReferenceIdeal.RVal

open Cert.ReferenceIdeal Cert.RUpdLib Idealize.ShloMosaic Idealize.ShloMosaic.ValueIdx Idealize.ShloMosaic.StableHlo

variable (m : (ℓ : Loc nD τ sig) → Buf (Elt Ideal) ℓ)

-- A stretch that spares the persistent buffers and leaves in `x'` the round's array of `x` takes the state `X` to the reference's update of `X`.
theorem rlayer (c : Dev nD) (seg : List (HloOp τ sig (Elt Ideal))) (hW : seg.Forall Spares) (l : Nat) (l' : Fin 5)
    (hl : l'.val = l) {W : Valuation τ sig (Elt Ideal)} {x x' : FVec Ideal S100000x64 .f32} {X : Cert.Spec.Mat 100000 64}
    {h8 : S5x64x64.Slices ![l, 0, 0] S1x64x64} {h9 : S5x64x192.Slices ![l, 0, 0] S1x64x192}
    {h10 : S5x192.Slices ![l, 0] S1x192}
    (hv : x' = layerArr l x (W (Proc.devRef .tc main_arg8)) (W (Proc.devRef .tc main_arg9))
      (W (Proc.devRef .tc main_arg10)) (W (Proc.devRef .tc main_arg11)) (W (Proc.devRef .tc main_arg12))
      (W (Proc.devRef .tc main_v1)) (W (Proc.devRef .tc main_v3)) h8 h9 h10)
    (h : RLayerIn m c W x X) : RLayerIn m c (after seg W) x' (Cert.Spec.updR (argsR m c) l' X) where
  keep := h.keep.after m seg hW
  state := fun i d => by
    have hx : Cert.Spec.cur x = X := funext fun p => funext fun q => h.state p q
    have hs : Cert.Spec.vec (W (Proc.devRef .tc main_v1) : IVec S1600000 32) = (argsR m c).src :=
      funext fun e => h.keep.src e
    have ht : Cert.Spec.vec (W (Proc.devRef .tc main_v3) : IVec S1600000 32) = (argsR m c).dst :=
      funext fun e => h.keep.dst e
    rw [hv, layerArr_apply l l' hl, h.keep.arg8, h.keep.arg9, h.keep.arg10, h.keep.arg11, h.keep.arg12, hx, hs, ht]
    rfl

end Cert.ReferenceIdeal.RVal

end
-- ==== Proof.RUpd0.lean ====
import proofs.«421876_j2267742732766_4_alg».proof.Proof.RUpdLib

noncomputable section

namespace Cert.ReferenceIdeal.RVal

open Cert.ReferenceIdeal Idealize.ShloMosaic Idealize.ShloMosaic.StableHlo

variable (m : (ℓ : Loc nD τ sig) → Buf (Elt Ideal) ℓ)

theorem segL0_spares : (RefRun.segL0 (F := Ideal)).Forall Spares := by
  simp only [RefRun.segL0, List.Forall, Spares, nullary_writes, unary_writes, binary_writes, ternary_writes,
    reshape_writes]
  repeat' apply And.intro
  all_goals exact ⟨_, by decide, rfl⟩

-- The result buffer holds the round's array of the state buffer: each operation's result read off at its own buffer.
theorem rupd0 (c : Dev nD) (W : Valuation τ sig (Elt Ideal)) (X : Cert.Spec.Mat 100000 64)
    (h : RLayerIn m c W (W (Proc.devRef .tc main_v13)) X) :
    RLayerIn m c (after RefRun.segL0 W) (after RefRun.segL0 W (Proc.devRef .tc main_v70))
      (Cert.Spec.updR (argsR m c) 0 X) :=
  rlayer m c _ segL0_spares 0 0 rfl (by simp only [RefRun.segL0]; after_results_simp; rfl) h

end Cert.ReferenceIdeal.RVal

end
-- ==== Proof.RUpd1.lean ====
import proofs.«421876_j2267742732766_4_alg».proof.Proof.RUpdLib

noncomputable section

namespace Cert.ReferenceIdeal.RVal

open Cert.ReferenceIdeal Idealize.ShloMosaic Idealize.ShloMosaic.StableHlo

variable (m : (ℓ : Loc nD τ sig) → Buf (Elt Ideal) ℓ)

theorem segL1_spares : (RefRun.segL1 (F := Ideal)).Forall Spares := by
  simp only [RefRun.segL1, List.Forall, Spares, nullary_writes, unary_writes, binary_writes, ternary_writes,
    reshape_writes]
  repeat' apply And.intro
  all_goals exact ⟨_, by decide, rfl⟩

-- The result buffer holds the round's array of the state buffer: each operation's result read off at its own buffer.
theorem rupd1 (c : Dev nD) (W : Valuation τ sig (Elt Ideal)) (X : Cert.Spec.Mat 100000 64)
    (h : RLayerIn m c W (W (Proc.devRef .tc main_v89)) X) :
    RLayerIn m c (after RefRun.segL1 W) (after RefRun.segL1 W (Proc.devRef .tc main_v146))
      (Cert.Spec.updR (argsR m c) 1 X) :=
  rlayer m c _ segL1_spares 1 1 rfl (by simp only [RefRun.segL1]; after_results_simp; rfl) h

end Cert.ReferenceIdeal.RVal

end
-- ==== Proof.RUpd2.lean ====
import proofs.«421876_j2267742732766_4_alg».proof.Proof.RUpdLib

noncomputable section

namespace Cert.ReferenceIdeal.RVal

open Cert.ReferenceIdeal Idealize.ShloMosaic Idealize.ShloMosaic.StableHlo

variable (m : (ℓ : Loc nD τ sig) → Buf (Elt Ideal) ℓ)

theorem segL2_spares : (RefRun.segL2 (F := Ideal)).Forall Spares := by
  simp only [RefRun.segL2, List.Forall, Spares, nullary_writes, unary_writes, binary_writes, ternary_writes,
    reshape_writes]
  repeat' apply And.intro
  all_goals exact ⟨_, by decide, rfl⟩

-- The result buffer holds the round's array of the state buffer: each operation's result read off at its own buffer.
theorem rupd2 (c : Dev nD) (W : Valuation τ sig (Elt Ideal)) (X : Cert.Spec.Mat 100000 64)
    (h : RLayerIn m c W (W (Proc.devRef .tc main_v165)) X) :
    RLayerIn m c (after RefRun.segL2 W) (after RefRun.segL2 W (Proc.devRef .tc main_v222))
      (Cert.Spec.updR (argsR m c) 2 X) :=
  rlayer m c _ segL2_spares 2 2 rfl (by simp only [RefRun.segL2]; after_results_simp; rfl) h

end Cert.ReferenceIdeal.RVal

end
-- ==== Proof.RUpd3.lean ====
import proofs.«421876_j2267742732766_4_alg».proof.Proof.RUpdLib

noncomputable section

namespace Cert.ReferenceIdeal.RVal

open Cert.ReferenceIdeal Idealize.ShloMosaic Idealize.ShloMosaic.StableHlo

variable (m : (ℓ : Loc nD τ sig) → Buf (Elt Ideal) ℓ)

theorem segL3_spares : (RefRun.segL3 (F := Ideal)).Forall Spares := by
  simp only [RefRun.segL3, List.Forall, Spares, nullary_writes, unary_writes, binary_writes, ternary_writes,
    reshape_writes]
  repeat' apply And.intro
  all_goals exact ⟨_, by decide, rfl⟩

-- The result buffer holds the round's array of the state buffer: each operation's result read off at its own buffer.
theorem rupd3 (c : Dev nD) (W : Valuation τ sig (Elt Ideal)) (X : Cert.Spec.Mat 100000 64)
    (h : RLayerIn m c W (W (Proc.devRef .tc main_v241)) X) :
    RLayerIn m c (after RefRun.segL3 W) (after RefRun.segL3 W (Proc.devRef .tc main_v298))
      (Cert.Spec.updR (argsR m c) 3 X) :=
  rlayer m c _ segL3_spares 3 3 rfl (by simp only [RefRun.segL3]; after_results_simp; rfl) h

end Cert.ReferenceIdeal.RVal

end
-- ==== Proof.RUpd4.lean ====
import proofs.«421876_j2267742732766_4_alg».proof.Proof.RUpdLib

noncomputable section

namespace Cert.ReferenceIdeal.RVal

open Cert.ReferenceIdeal Idealize.ShloMosaic Idealize.ShloMosaic.StableHlo

variable (m : (ℓ : Loc nD τ sig) → Buf (Elt Ideal) ℓ)

theorem segL4_spares : (RefRun.segL4 (F := Ideal)).Forall Spares := by
  simp only [RefRun.segL4, List.Forall, Spares, nullary_writes, unary_writes, binary_writes, ternary_writes,
    reshape_writes]
  repeat' apply And.intro
  all_goals exact ⟨_, by decide, rfl⟩

-- The result buffer holds the round's array of the state buffer: each operation's result read off at its own buffer.
theorem rupd4 (c : Dev nD) (W : Valuation τ sig (Elt Ideal)) (X : Cert.Spec.Mat 100000 64)
    (h : RLayerIn m c W (W (Proc.devRef .tc main_v317)) X) :
    RLayerIn m c (after RefRun.segL4 W) (after RefRun.segL4 W (Proc.devRef .tc main_v374))
      (Cert.Spec.updR (argsR m c) 4 X) :=
  rlayer m c _ segL4_spares 4 4 rfl (by simp only [RefRun.segL4]; after_results_simp; rfl) h

end Cert.ReferenceIdeal.RVal

end
-- ==== Proof.RTailLib.lean ====
import proofs.«421876_j2267742732766_4_alg».proof.Proof.Spec
import proofs.«421876_j2267742732766_4_alg».proof.Proof.LibPlainDot
import proofs.«421876_j2267742732766_4_alg».proof.Proof.LibMsgChain
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.RTailLib

open Idealize.ShloMosaic Idealize.ShloMosaic.ValueIdx

theorem biasRows_apply {α : Type} {M N : Nat}
    (h1 : (⟨1, ![N]⟩ : Shape).BroadcastsInDim (⟨2, ![1, N]⟩ : Shape) (![1] : Fin 1 → Fin 2))
    (h2 : (⟨2, ![1, N]⟩ : Shape).BroadcastsInDim (⟨2, ![M, N]⟩ : Shape) (![0, 1] : Fin 2 → Fin 2))
    (b : (⟨1, ![N]⟩ : Shape).Idx → α) (i : Fin M) (j : Fin N) :
    broadcastInDim (⟨2, ![M, N]⟩ : Shape) ![0, 1] h2 (broadcastInDim (⟨2, ![1, N]⟩ : Shape) ![1] h1 b) (ix2 i j)
      = b (ix1 j) := by
  refine (broadcastInDim_apply ![0, 1] h2 _ (ix2 i j) (ix2 (0 : Fin 1) j) fun a => ?_).trans
    (broadcastInDim_apply ![1] h1 b (ix2 (0 : Fin 1) j) (ix1 j) fun a => ?_)
  · match a with
    | ⟨0, _⟩ =>
      show (0 : ℕ) = if (1 : ℕ) = 1 then 0 else i.val
      rw [if_pos rfl]
    | ⟨1, _⟩ =>
      show j.val = if N = 1 then 0 else j.val
      by_cases hN : N = 1
      · rw [if_pos hN]; have := j.isLt; omega
      · rw [if_neg hN]
  · match a with
    | ⟨0, _⟩ =>
      show j.val = if N = 1 then 0 else j.val
      by_cases hN : N = 1
      · rw [if_pos hN]; have := j.isLt; omega
      · rw [if_neg hN]

section Affine

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

theorem affine_apply_of (prec : Option ContractPrecision)
    (h1 : (⟨1, ![N]⟩ : Shape).BroadcastsInDim (⟨2, ![1, N]⟩ : Shape) (![1] : Fin 1 → Fin 2))
    (h2 : (⟨2, ![1, N]⟩ : Shape).BroadcastsInDim (⟨2, ![M, N]⟩ : Shape) (![0, 1] : Fin 2 → Fin 2))
    (l : FVec Ideal (⟨2, ![M, K]⟩ : Shape) .f32) (r : FVec Ideal (⟨2, ![K, N]⟩ : Shape) .f32)
    (b : FVec Ideal (⟨1, ![N]⟩ : Shape) .f32) (X : Cert.Spec.Mat M K) (hX : ∀ p q, l (ix2 p q) = X p q)
    (i : Fin M) (j : Fin N) :
    addf (Host.dotGeneral d prec l r)
        (broadcastInDim (⟨2, ![M, N]⟩ : Shape) ![0, 1] h2 (broadcastInDim (⟨2, ![1, N]⟩ : Shape) ![1] h1 b)) (ix2 i j)
      = Cert.Spec.affine X (Cert.Spec.cur r) (Cert.Spec.vec b) i j := by
  rw [addf_apply, Cert.LibPlainDot.hostDot_apply d hlc hrc hln hrn hlb hrb prec l r i j, biasRows_apply h1 h2 b i j,
    show Cert.Spec.cur l = X from funext fun p => funext fun q => hX p q]
  rfl

end Affine

theorem relu_apply_of {s : Shape} (hb : (⟨0, ![]⟩ : Shape).BroadcastsInDim s (![] : Fin 0 → Fin s.rank))
    (x : FVec Ideal s .f32) (i : s.Idx) (X : EReal) (hX : x i = X) :
    maximumf x (broadcastInDim s ![] hb (constant (F := Ideal) (⟨0, ![]⟩ : Shape) .f32 0x00000000#32)) i
      = max X 0 := by
  rw [maximumf_apply, broadcastInDim_scalar_apply, constant_apply, Ideal.ofBits_zero_f32, hX]

theorem zeros_apply {s : Shape} (hb : (⟨0, ![]⟩ : Shape).BroadcastsInDim s (![] : Fin 0 → Fin s.rank)) (i : s.Idx) :
    broadcastInDim s ![] hb (constant (F := Ideal) (⟨0, ![]⟩ : Shape) .f32 0x00000000#32) i = (0 : EReal) := by
  rw [broadcastInDim_scalar_apply, constant_apply, Ideal.ofBits_zero_f32]

theorem ones_apply {s : Shape} (hb : (⟨0, ![]⟩ : Shape).BroadcastsInDim s (![] : Fin 0 → Fin s.rank)) (i : s.Idx) :
    broadcastInDim s ![] hb (constant (F := Ideal) (⟨0, ![]⟩ : Shape) .f32 0x3F800000#32) i = (1 : EReal) := by
  rw [broadcastInDim_scalar_apply, constant_apply, Ideal.ofBits_one_f32]

theorem cmp_ogt_zero_of_pos {a : EReal} (h : 0 < a) : Ideal.cmp .ogt a 0 = 1#1 := by
  simp [Ideal.cmp, h]
theorem cmp_ogt_zero_of_not_pos {a : EReal} (h : ¬ 0 < a) : Ideal.cmp .ogt a 0 = 0#1 := by
  simp [Ideal.cmp, h]

theorem elu_apply_of {s : Shape} (x z0 z1 z2 one : FVec Ideal s .f32) (i : s.Idx)
    (h0 : z0 i = 0) (h1 : z1 i = 0) (h2 : z2 i = 0) (ho : one i = 1) (X : EReal) (hX : x i = X) :
    select (cmpf .ogt x z0) x (mulf one (Host.expm1 (select (cmpf .ogt x z1) z2 x))) i
      = if 0 < X then X else Ideal.exp X - 1 := by
  show Scalar.select (Ideal.cmp .ogt (x i) (z0 i)) (x i)
      (one i * (Ideal.exp (Scalar.select (Ideal.cmp .ogt (x i) (z1 i)) (z2 i) (x i)) - 1)) = _
  rw [h0, h1, h2, ho, hX]
  by_cases hp : 0 < X
  · rw [cmp_ogt_zero_of_pos hp, select_one, if_pos hp]
  · rw [cmp_ogt_zero_of_not_pos hp, select_zero, select_zero, if_neg hp, one_mul]

theorem pool_apply_of {N S : Nat}
    (sd : ScatterDims (⟨2, ![S, 64]⟩ : Shape) (⟨2, ![N, 1]⟩ : Shape) (⟨2, ![N, 64]⟩ : Shape))
    (huw : sd.updateWindowDims = [1]) (hiw : sd.insertedWindowDims = [0])
    (hsd : sd.scatterDimsToOperandDims = [0]) (hiv : sd.indexVectorDim = 1)
    (hb0 : (⟨0, ![]⟩ : Shape).BroadcastsInDim (⟨2, ![S, 64]⟩ : Shape) (![] : Fin 0 → Fin 2))
    (hb1 : (⟨1, ![N]⟩ : Shape).BroadcastsInDim (⟨2, ![N, 1]⟩ : Shape) (![0] : Fin 1 → Fin 2))
    (x : FVec Ideal (⟨2, ![N, 64]⟩ : Shape) .f32) (ids : IVec (⟨1, ![N]⟩ : Shape) 32)
    (X : Cert.Spec.Mat N 64) (hX : ∀ e q, x (ix2 e q) = X e q) (v : Fin S) (c : Fin 64) :
    Host.scatterAdd sd
        (broadcastInDim (⟨2, ![S, 64]⟩ : Shape) ![] hb0 (constant (F := Ideal) (⟨0, ![]⟩ : Shape) .f32 0x00000000#32))
        (broadcastInDim (⟨2, ![N, 1]⟩ : Shape) ![0] hb1 ids) x (ix2 v c)
      = Cert.Spec.pool X (Cert.Spec.vec ids) v c := by
  rw [Cert.LibMsgChain.poolChain_apply sd huw hiw hsd hiv hb0 hb1 x ids v c]
  have hx : Cert.Spec.cur x = X := funext fun e => funext fun q => hX e q
  rw [hx]

section Mlp

variable {M : Nat}
  (d1 d2 : DotDims (⟨2, ![M, 64]⟩ : Shape) (⟨2, ![64, 64]⟩ : Shape) (⟨2, ![M, 64]⟩ : Shape))
  (hlc1 : d1.lhsContracting = [1]) (hrc1 : d1.rhsContracting = [0]) (hln1 : d1.lhsNonContracting = [0])
  (hrn1 : d1.rhsNonContracting = [1]) (hlb1 : d1.lhsBatch = []) (hrb1 : d1.rhsBatch = [])
  (hlc2 : d2.lhsContracting = [1]) (hrc2 : d2.rhsContracting = [0]) (hln2 : d2.lhsNonContracting = [0])
  (hrn2 : d2.rhsNonContracting = [1]) (hlb2 : d2.lhsBatch = []) (hrb2 : d2.rhsBatch = [])

include hlc1 hrc1 hln1 hrn1 hlb1 hrb1 hlc2 hrc2 hln2 hrn2 hlb2 hrb2

theorem mlp_apply_of (prec1 prec2 : Option ContractPrecision)
    (g1 : (⟨1, ![64]⟩ : Shape).BroadcastsInDim (⟨2, ![1, 64]⟩ : Shape) (![1] : Fin 1 → Fin 2))
    (g2 : (⟨2, ![1, 64]⟩ : Shape).BroadcastsInDim (⟨2, ![M, 64]⟩ : Shape) (![0, 1] : Fin 2 → Fin 2))
    (k1 : (⟨1, ![64]⟩ : Shape).BroadcastsInDim (⟨2, ![1, 64]⟩ : Shape) (![1] : Fin 1 → Fin 2))
    (k2 : (⟨2, ![1, 64]⟩ : Shape).BroadcastsInDim (⟨2, ![M, 64]⟩ : Shape) (![0, 1] : Fin 2 → Fin 2))
    (hb : (⟨0, ![]⟩ : Shape).BroadcastsInDim (⟨2, ![M, 64]⟩ : Shape) (![] : Fin 0 → Fin 2))
    (x : FVec Ideal (⟨2, ![M, 64]⟩ : Shape) .f32) (W1 : FVec Ideal (⟨2, ![64, 64]⟩ : Shape) .f32)
    (b1 : FVec Ideal (⟨1, ![64]⟩ : Shape) .f32) (W2 : FVec Ideal (⟨2, ![64, 64]⟩ : Shape) .f32)
    (b2 : FVec Ideal (⟨1, ![64]⟩ : Shape) .f32) (X : Cert.Spec.Mat M 64) (hX : ∀ p q, x (ix2 p q) = X p q)
    (i : Fin M) (j : Fin 64) :
    addf (Host.dotGeneral d2 prec2
          (maximumf
            (addf (Host.dotGeneral d1 prec1 x W1)
              (broadcastInDim (⟨2, ![M, 64]⟩ : Shape) ![0, 1] g2 (broadcastInDim (⟨2, ![1, 64]⟩ : Shape) ![1] g1 b1)))
            (broadcastInDim (⟨2, ![M, 64]⟩ : Shape) ![] hb (constant (F := Ideal) (⟨0, ![]⟩ : Shape) .f32 0x00000000#32)))
          W2)
        (broadcastInDim (⟨2, ![M, 64]⟩ : Shape) ![0, 1] k2 (broadcastInDim (⟨2, ![1, 64]⟩ : Shape) ![1] k1 b2)) (ix2 i j)
      = Cert.Spec.mlp X (Cert.Spec.cur W1) (Cert.Spec.vec b1) (Cert.Spec.cur W2) (Cert.Spec.vec b2) i j := by
  refine affine_apply_of d2 hlc2 hrc2 hln2 hrn2 hlb2 hrb2 prec2 k1 k2 _ W2 b2
    (Cert.Spec.relu (Cert.Spec.affine X (Cert.Spec.cur W1) (Cert.Spec.vec b1))) (fun p q => ?_) i j
  refine relu_apply_of hb _ (ix2 p q) (Cert.Spec.affine X (Cert.Spec.cur W1) (Cert.Spec.vec b1) p q) ?_
  exact affine_apply_of d1 hlc1 hrc1 hln1 hrn1 hlb1 hrb1 prec1 g1 g2 x W1 b1 X hX p q

end Mlp

end Cert.RTailLib

end
-- ==== Proof.RTail.lean ====
import proofs.«421876_j2267742732766_4_alg».proof.Proof.RFacts
import proofs.«421876_j2267742732766_4_alg».proof.Proof.RefOps
import proofs.«421876_j2267742732766_4_alg».proof.Proof.RTailLib
import Idealize.ShloMosaic.Lib.StableHlo.Run

set_option maxRecDepth 16384

noncomputable section

namespace Cert.ReferenceIdeal.RVal

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

variable (m : (ℓ : Loc nD τ sig) → Buf (Elt Ideal) ℓ)

set_option maxHeartbeats 4000000 in
-- The composed term is read outermost operation first, down to the state, over the argument buffers as launched.
theorem rtail (c : Dev nD) (W : Valuation τ sig (Elt Ideal)) (Y : Cert.Spec.Mat 100000 64)
    (h : RLayerIn m c W (W (Proc.devRef .tc main_v374)) Y) (i : Fin 64) (d : Fin 1) :
    (after (segP (F := Ideal)) W (Proc.devRef .tc main_v415) : FVec Ideal S64x1 .f32) (ix2 i d)
      = Cert.Spec.tail (argsR m c) Y i d := by
  after_results_simp
  try simp only [TRef.ofBuf, TRef.toBuf, cast_eq]
  rw [h.keep.arg2, h.keep.arg3, h.keep.arg4, h.keep.arg13, h.keep.arg14, h.keep.arg15, h.keep.arg16, h.keep.arg17,
    h.keep.arg18, h.keep.arg19, h.keep.arg20, h.keep.arg21, h.keep.arg22, h.keep.arg23, h.keep.arg24, h.keep.arg25,
    h.keep.arg26]
  refine Cert.RTailLib.affine_apply_of dot_S64x16_S16x1_S64x1_1_0_0_1_n_n rfl rfl rfl rfl rfl rfl none
    bcast_S1_S1x1_1 bcast_S1x1_S64x1_0_1 _ _ _ _ (fun p q => ?_) i d
  refine Cert.RTailLib.elu_apply_of _ _ _ _ _ (ix2 p q) ?_ ?_ ?_ ?_ _ ?_
  · exact Cert.RTailLib.zeros_apply _ _
  · exact Cert.RTailLib.zeros_apply _ _
  · exact Cert.RTailLib.zeros_apply _ _
  · exact Cert.RTailLib.ones_apply _ _
  refine Cert.RTailLib.affine_apply_of dot_S64x32_S32x16_S64x16_1_0_0_1_n_n rfl rfl rfl rfl rfl rfl none
    bcast_S16_S1x16_1 bcast_S1x16_S64x16_0_1 _ _ _ _ (fun p q => ?_) p q
  refine Cert.RTailLib.elu_apply_of _ _ _ _ _ (ix2 p q) ?_ ?_ ?_ ?_ _ ?_
  · exact Cert.RTailLib.zeros_apply _ _
  · exact Cert.RTailLib.zeros_apply _ _
  · exact Cert.RTailLib.zeros_apply _ _
  · exact Cert.RTailLib.ones_apply _ _
  refine Cert.RTailLib.affine_apply_of dot_S64x64_S64x32_S64x32_1_0_0_1_n_n rfl rfl rfl rfl rfl rfl none
    bcast_S32_S1x32_1 bcast_S1x32_S64x32_0_1 _ _ _ _ (fun p q => ?_) p q
  refine Cert.RTailLib.pool_apply_of scatter_S64x64_S2000x1_S2000x64_1_0_0_1 rfl rfl rfl rfl
    bcast_S_S64x64 bcast_S2000_S2000x1_0 _ _ _ (fun p q => ?_) p q
  refine Cert.RTailLib.mlp_apply_of dot_S2000x64_S64x64_S2000x64_1_0_0_1_n_n dot_S2000x64_S64x64_S2000x64_1_0_0_1_n_n
    rfl rfl rfl rfl rfl rfl rfl rfl rfl rfl rfl rfl none none
    bcast_S64_S1x64_1 bcast_S1x64_S2000x64_0_1 bcast_S64_S1x64_1 bcast_S1x64_S2000x64_0_1 bcast_S_S2000x64
    _ _ _ _ _ _ (fun p q => ?_) p q
  refine Cert.RTailLib.pool_apply_of scatter_S2000x64_S20000x1_S20000x64_1_0_0_1 rfl rfl rfl rfl
    bcast_S_S2000x64 bcast_S20000_S20000x1_0 _ _ _ (fun p q => ?_) p q
  refine Cert.RTailLib.mlp_apply_of dot_S20000x64_S64x64_S20000x64_1_0_0_1_n_n dot_S20000x64_S64x64_S20000x64_1_0_0_1_n_n
    rfl rfl rfl rfl rfl rfl rfl rfl rfl rfl rfl rfl none none
    bcast_S64_S1x64_1 bcast_S1x64_S20000x64_0_1 bcast_S64_S1x64_1 bcast_S1x64_S20000x64_0_1 bcast_S_S20000x64
    _ _ _ _ _ _ (fun p q => ?_) p q
  exact Cert.RTailLib.pool_apply_of scatter_S20000x64_S100000x1_S100000x64_1_0_0_1 rfl rfl rfl rfl
    bcast_S_S20000x64 bcast_S100000_S100000x1_0 _ _ Y h.state p q

end Cert.ReferenceIdeal.RVal

end
-- ==== Proof.RTailArgs.lean ====
import proofs.«421876_j2267742732766_4_alg».proof.Proof.RFacts
import proofs.«421876_j2267742732766_4_alg».proof.Proof.RefOps

noncomputable section

namespace Cert.ReferenceIdeal.RVal

open Cert.ReferenceIdeal Cert.ReferenceIdeal.RefRun Idealize.ShloMosaic Idealize.ShloMosaic.StableHlo

theorem segP_spares : (segP (F := Ideal)).Forall Spares := by
  simp only [segP, List.Forall, Spares, nullary_writes, unary_writes, binary_writes, ternary_writes, reshape_writes]
  repeat' apply And.intro
  all_goals exact ⟨_, by decide, rfl⟩

end Cert.ReferenceIdeal.RVal

end
-- ==== Proof.RValue.lean ====
import proofs.«421876_j2267742732766_4_alg».proof.Proof.RefRun
import proofs.«421876_j2267742732766_4_alg».proof.Proof.RStart
import proofs.«421876_j2267742732766_4_alg».proof.Proof.RTrans1
import proofs.«421876_j2267742732766_4_alg».proof.Proof.RTrans2
import proofs.«421876_j2267742732766_4_alg».proof.Proof.RTrans3
import proofs.«421876_j2267742732766_4_alg».proof.Proof.RTrans4
import proofs.«421876_j2267742732766_4_alg».proof.Proof.RUpd0
import proofs.«421876_j2267742732766_4_alg».proof.Proof.RUpd1
import proofs.«421876_j2267742732766_4_alg».proof.Proof.RUpd2
import proofs.«421876_j2267742732766_4_alg».proof.Proof.RUpd3
import proofs.«421876_j2267742732766_4_alg».proof.Proof.RUpd4
import proofs.«421876_j2267742732766_4_alg».proof.Proof.RTail
import proofs.«421876_j2267742732766_4_alg».proof.Proof.RTailArgs

noncomputable section

namespace Cert.ReferenceIdeal.RVal

open Cert.ReferenceIdeal Idealize.ShloMosaic Idealize.ShloMosaic.ValueIdx Idealize.ShloMosaic.StableHlo Idealize.SL.Sem

variable (m : (ℓ : Loc nD τ sig) → Buf (Elt Ideal) ℓ)

theorem before_tail (c : Dev nD) :
    let W := after RefRun.segL4 (after RefRun.segT4 (after RefRun.segL3 (after RefRun.segT3 (after RefRun.segL2 (after RefRun.segT2
      (after RefRun.segL1 (after RefRun.segT1 (after RefRun.segL0 (after RefRun.segS0 (launchContents m c))))))))))
    RLayerIn m c W (W (Proc.devRef .tc main_v374)) (Cert.Spec.updR (argsR m c) 4 (Cert.Spec.xR4 (argsR m c))) := by
  intro W
  exact rupd4 m c _ _ (rtrans4 m c _ _ (rupd3 m c _ _ (rtrans3 m c _ _ (rupd2 m c _ _ (rtrans2 m c _ _
    (rupd1 m c _ _ (rtrans1 m c _ _ (rupd0 m c _ _ (rstart m c)))))))))

theorem reference_value (c : Dev nD) (i : Fin 64) (d : Fin 1) :
    (after RefRun.ops (launchContents m c) (Proc.devRef .tc main_v415) : FVec Ideal S64x1 .f32) (ix2 i d)
      = Cert.Spec.outR (argsR m c) i d := by
  rw [RefRun.after_ops]
  exact rtail m c _ _ (before_tail m c) i d

theorem reference_keeps (c : Dev nD) : RPersist m c (after RefRun.ops (launchContents m c)) := by
  rw [RefRun.after_ops]
  exact (before_tail m c).keep.after m _ segP_spares

end Cert.ReferenceIdeal.RVal

end
-- ==== Proof.BridgeEmb.lean ====
import Idealize.ShloMosaic.PureOps.Ideal
import Idealize.ShloMosaic.Lib.ValueIdx
import proofs.«421876_j2267742732766_4_alg».proof.Proof.Spec

noncomputable section

open scoped BigOperators

namespace Cert.Spec

open Idealize.ShloMosaic

def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.one : IsReal (1 : EReal) := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih (fun i hi => h i (Finset.mem_insert_of_mem hi)))

theorem IsReal.ite {p : Prop} [Decidable p] {x y : EReal} (hx : IsReal x) (hy : IsReal y) :
    IsReal (if p then x else y) := by
  split
  · exact hx
  · exact hy

theorem IsReal.max {x y : EReal} (hx : IsReal x) (hy : IsReal y) : IsReal (max x y) := by
  rw [max_def]
  exact IsReal.ite hy hx

theorem IsReal.exp {x : EReal} (hx : IsReal x) : IsReal (Ideal.exp x) := by
  obtain ⟨a, rfl⟩ := hx
  exact ⟨Real.exp a, Ideal.exp_coe a⟩

theorem IsReal.tanh {x : EReal} (hx : IsReal x) : IsReal (Ideal.tanh x) := by
  obtain ⟨a, rfl⟩ := hx
  exact ⟨Real.tanh a, Ideal.tanh_coe a⟩

theorem IsReal.logistic {x : EReal} (hx : IsReal x) : IsReal (Ideal.logistic x) := by
  obtain ⟨a, rfl⟩ := hx
  exact ⟨(1 + Real.exp (-a))⁻¹, Ideal.logistic_coe a⟩

theorem mm_real {a k b : Nat} {A : Mat a k} {B : Mat k b} (hA : ∀ i j, IsReal (A i j))
    (hB : ∀ i j, IsReal (B i j)) : ∀ i j, IsReal (mm A B i j) :=
  fun i j => IsReal.sum _ _ (fun q _ => (hA i q).mul (hB q j))

theorem addRow_real {a b : Nat} {A : Mat a b} {v : Vc b} (hA : ∀ i j, IsReal (A i j)) (hv : ∀ j, IsReal (v j)) :
    ∀ i j, IsReal (addRow A v i j) :=
  fun i j => (hA i j).add (hv j)

theorem affine_real {a k b : Nat} {x : Mat a k} {W : Mat k b} {v : Vc b} (hx : ∀ i j, IsReal (x i j))
    (hW : ∀ i j, IsReal (W i j)) (hv : ∀ j, IsReal (v j)) : ∀ i j, IsReal (affine x W v i j) :=
  addRow_real (mm_real hx hW) hv

theorem concat_real {a : Nat} {A B : Mat a 64} (hA : ∀ i j, IsReal (A i j)) (hB : ∀ i j, IsReal (B i j)) :
    ∀ i j, IsReal (concat A B i j) := by
  intro i j
  unfold concat
  by_cases h : j.val < 64
  · rw [dif_pos h]; exact hA _ _
  · rw [dif_neg h]; exact hB _ _

theorem pool_real {n s : Nat} {x : Mat n 64} (ids : Fin n → BitVec 32) (hx : ∀ i j, IsReal (x i j)) :
    ∀ v c, IsReal (pool (s := s) x ids v c) :=
  fun v c => IsReal.sum _ _ (fun e _ => IsReal.ite (hx e c) IsReal.zero)

theorem msg_real {n e : Nat} (hn : 0 < n) (nw : BitVec 32) {x : Mat n 64} (src dst : Fin e → BitVec 32)
    (hx : ∀ i j, IsReal (x i j)) : ∀ v c, IsReal (msg hn nw x src dst v c) :=
  pool_real dst (fun k c => hx (srcRow n hn nw (src k)) c)

theorem gru_real {n : Nat} {G H : Mat n 192} {x : Mat n 64} (hG : ∀ i j, IsReal (G i j))
    (hH : ∀ i j, IsReal (H i j)) (hx : ∀ i j, IsReal (x i j)) : ∀ i d, IsReal (gru G H x i d) := by
  intro i d
  have hr := ((hG i (g0 d)).add (hH i (g0 d))).logistic
  have hu := ((hG i (g1 d)).add (hH i (g1 d))).logistic
  have hc := ((hG i (g2 d)).add (hr.mul (hH i (g2 d)))).tanh
  exact ((IsReal.one.sub hu).mul hc).add (hu.mul (hx i d))

theorem gruStep_real {n : Nat} {P : Mat n 192} {x : Mat n 64} {bih : Vc 192} {Whh : Mat 64 192} {bhh : Vc 192}
    (hP : ∀ i j, IsReal (P i j)) (hx : ∀ i j, IsReal (x i j)) (hbih : ∀ j, IsReal (bih j))
    (hWhh : ∀ i j, IsReal (Whh i j)) (hbhh : ∀ j, IsReal (bhh j)) : ∀ i d, IsReal (gruStep P x bih Whh bhh i d) :=
  gru_real (addRow_real hP hbih) (affine_real hx hWhh hbhh) hx

theorem toNat_of_range (w : BitVec 32) (h0 : 0 ≤ w.toInt) (h1 : w.toInt < 100) :
    w.toNat < 100 ∧ w.toInt = (w.toNat : ℤ) := by
  have hc := BitVec.toInt_eq_toNat_cond w
  have hlt := w.isLt
  by_cases h : 2 * w.toNat < 2 ^ 32
  · rw [if_pos h] at hc
    omega
  · rw [if_neg h] at hc
    omega

theorem tblRow_of_range (w : BitVec 32) (h0 : 0 ≤ w.toInt) (h1 : w.toInt < 100) (hlt : w.toNat < 100) :
    tblRow w = ⟨w.toNat, hlt⟩ := by
  obtain ⟨_, he⟩ := toNat_of_range w h0 h1
  apply Fin.ext
  show min (if w.toInt < 0 then w + 100#32 else w).toInt.toNat 99 = w.toNat
  rw [if_neg (not_lt.mpr h0), he, Int.toNat_natCast]
  omega

theorem oneHot_sum (w : BitVec 32) (tbl : Mat 100 64) (d : Fin 64) (h0 : 0 ≤ w.toInt) (h1 : w.toInt < 100) :
    ∑ k : Fin 100, oneHot w k * tbl k d = tbl (tblRow w) d := by
  obtain ⟨hlt, _⟩ := toNat_of_range w h0 h1
  rw [tblRow_of_range w h0 h1 hlt]
  rw [Finset.sum_eq_single (⟨w.toNat, hlt⟩ : Fin 100)]
  ·
    have hw : w = BitVec.ofNat 32 w.toNat := by
      apply BitVec.eq_of_toNat_eq
      rw [BitVec.toNat_ofNat]
      have := w.isLt
      omega
    have hone : oneHot w ⟨w.toNat, hlt⟩ = 1 := if_pos hw
    rw [hone, one_mul]
  ·
    intro k _ hk
    have hne : ¬ w = BitVec.ofNat 32 k.val := by
      intro hw
      apply hk
      apply Fin.ext
      have := congrArg BitVec.toNat hw
      rw [BitVec.toNat_ofNat] at this
      have hk100 := k.isLt
      show k.val = w.toNat
      omega
    have hzero : oneHot w k = 0 := if_neg hne
    rw [hzero, zero_mul]
  · intro h
    exact absurd (Finset.mem_univ _) h

theorem embK_eq_embR {n : Nat} (z : Fin n → Fin 2 → BitVec 32) (tbl : Mat 100 64)
    (hz : ∀ i c, 0 ≤ (z i c).toInt ∧ (z i c).toInt < 100) : embK z tbl = embR z tbl := by
  funext i d
  show (∑ k : Fin 100, oneHot (z i 0) k * tbl k d) + (∑ k : Fin 100, oneHot (z i 1) k * tbl k d)
      = tbl (tblRow (z i 0)) d + tbl (tblRow (z i 1)) d
  rw [oneHot_sum (z i 0) tbl d (hz i 0).1 (hz i 0).2, oneHot_sum (z i 1) tbl d (hz i 1).1 (hz i 1).2]

theorem embR_real {n : Nat} (z : Fin n → Fin 2 → BitVec 32) (tbl : Mat 100 64)
    (ht : ∀ k d, ∃ r : ℝ, tbl k d = (r : EReal)) : ∀ i d, ∃ r : ℝ, embR z tbl i d = (r : EReal) :=
  fun i d => IsReal.add (ht (tblRow (z i 0)) d) (ht (tblRow (z i 1)) d)

end Cert.Spec

end
-- ==== Proof.BridgeLaw.lean ====
import proofs.«421876_j2267742732766_4_alg».proof.Proof.Spec
import proofs.«421876_j2267742732766_4_alg».proof.Proof.BridgeEmb
import Mathlib.Algebra.BigOperators.Group.Finset.Sigma
import Mathlib.Algebra.BigOperators.Ring.Finset
import Mathlib.Tactic.Ring

noncomputable section

open scoped BigOperators

namespace Cert.BridgeLaw

open Cert.Spec

theorem coe_sum {ι : Type} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

theorem coe_ite (p : Prop) [Decidable p] (r : ℝ) :
    (if p then (r : EReal) else 0) = ((if p then r else 0 : ℝ) : EReal) := by
  by_cases h : p
  · rw [if_pos h, if_pos h]
  · rw [if_neg h, if_neg h, EReal.coe_zero]

def up {a b : Nat} (A : Fin a → Fin b → ℝ) : Mat a b := fun i j => (A i j : EReal)

def mmR {a k b : Nat} (A : Fin a → Fin k → ℝ) (B : Fin k → Fin b → ℝ) : Fin a → Fin b → ℝ :=
  fun i j => ∑ q : Fin k, A i q * B q j

def msgR {n e : Nat} (hn : 0 < n) (nw : BitVec 32) (X : Fin n → Fin 64 → ℝ) (src dst : Fin e → BitVec 32) :
    Fin n → Fin 64 → ℝ :=
  fun v c => ∑ k : Fin e, if (dst k).toInt = (v.val : ℤ) then X (srcRow n hn nw (src k)) c else 0

theorem mm_up {a k b : Nat} (A : Fin a → Fin k → ℝ) (B : Fin k → Fin b → ℝ) : mm (up A) (up B) = up (mmR A B) := by
  funext i j
  show (∑ q : Fin k, (A i q : EReal) * (B q j : EReal)) = ((∑ q : Fin k, A i q * B q j : ℝ) : EReal)
  rw [coe_sum]
  exact Finset.sum_congr rfl fun q _ => (EReal.coe_mul _ _).symm

theorem msg_up {n e : Nat} (hn : 0 < n) (nw : BitVec 32) (X : Fin n → Fin 64 → ℝ) (src dst : Fin e → BitVec 32) :
    msg hn nw (up X) src dst = up (msgR hn nw X src dst) := by
  funext v c
  show (∑ k : Fin e, if (dst k).toInt = (v.val : ℤ) then (X (srcRow n hn nw (src k)) c : EReal) else 0)
    = ((∑ k : Fin e, if (dst k).toInt = (v.val : ℤ) then X (srcRow n hn nw (src k)) c else 0 : ℝ) : EReal)
  rw [coe_sum]
  exact Finset.sum_congr rfl fun k _ => coe_ite _ _

theorem sum_law {n e : Nat} (P : Fin e → Prop) [DecidablePred P] (s : Fin e → Fin n)
    (xr : Fin n → Fin 64 → ℝ) (cr : Fin 64 → Fin 64 → ℝ) (wr : Fin 64 → Fin 192 → ℝ) (j : Fin 192) :
    ∑ q : Fin 64, (∑ k : Fin e, if P k then (∑ p : Fin 64, xr (s k) p * cr p q) else 0) * wr q j
      = ∑ p : Fin 64, (∑ k : Fin e, if P k then xr (s k) p else 0) * (∑ q : Fin 64, cr p q * wr q j) := by
  have hL : ∀ q : Fin 64, (∑ k : Fin e, if P k then (∑ p : Fin 64, xr (s k) p * cr p q) else 0) * wr q j
      = ∑ k : Fin e, if P k then (∑ p : Fin 64, xr (s k) p * cr p q * wr q j) else 0 := by
    intro q
    rw [Finset.sum_mul]
    refine Finset.sum_congr rfl fun k _ => ?_
    by_cases h : P k
    · rw [if_pos h, if_pos h, Finset.sum_mul]
    · rw [if_neg h, if_neg h, zero_mul]
  have hR : ∀ p : Fin 64, (∑ k : Fin e, if P k then xr (s k) p else 0) * (∑ q : Fin 64, cr p q * wr q j)
      = ∑ k : Fin e, if P k then (∑ q : Fin 64, xr (s k) p * cr p q * wr q j) else 0 := by
    intro p
    rw [Finset.sum_mul]
    refine Finset.sum_congr rfl fun k _ => ?_
    by_cases h : P k
    · rw [if_pos h, if_pos h, Finset.mul_sum]
      exact Finset.sum_congr rfl fun q _ => by ring
    · rw [if_neg h, if_neg h, zero_mul]
  calc ∑ q : Fin 64, (∑ k : Fin e, if P k then (∑ p : Fin 64, xr (s k) p * cr p q) else 0) * wr q j
      = ∑ q : Fin 64, ∑ k : Fin e, if P k then (∑ p : Fin 64, xr (s k) p * cr p q * wr q j) else 0 :=
        Finset.sum_congr rfl fun q _ => hL q
    _ = ∑ k : Fin e, ∑ q : Fin 64, if P k then (∑ p : Fin 64, xr (s k) p * cr p q * wr q j) else 0 :=
        Finset.sum_comm
    _ = ∑ k : Fin e, ∑ p : Fin 64, if P k then (∑ q : Fin 64, xr (s k) p * cr p q * wr q j) else 0 := by
        refine Finset.sum_congr rfl fun k _ => ?_
        by_cases h : P k
        · simp only [if_pos h]
          exact Finset.sum_comm
        · simp only [if_neg h, Finset.sum_const_zero]
    _ = ∑ p : Fin 64, ∑ k : Fin e, if P k then (∑ q : Fin 64, xr (s k) p * cr p q * wr q j) else 0 :=
        Finset.sum_comm
    _ = ∑ p : Fin 64, (∑ k : Fin e, if P k then xr (s k) p else 0) * (∑ q : Fin 64, cr p q * wr q j) :=
        (Finset.sum_congr rfl fun p _ => hR p).symm

theorem law_real {n e : Nat} (hn : 0 < n) (nw : BitVec 32) (X : Fin n → Fin 64 → ℝ) (src dst : Fin e → BitVec 32)
    (C : Fin 64 → Fin 64 → ℝ) (W : Fin 64 → Fin 192 → ℝ) :
    mmR (msgR hn nw (mmR X C) src dst) W = mmR (msgR hn nw X src dst) (mmR C W) := by
  funext v j
  exact sum_law (fun k => (dst k).toInt = (v.val : ℤ)) (fun k => srcRow n hn nw (src k)) X C W j

theorem msg_law {n e : Nat} (hn : 0 < n) (nw : BitVec 32) (x : Cert.Spec.Mat n 64) (src dst : Fin e → BitVec 32)
    (cW : Cert.Spec.Mat 64 64) (Wih : Cert.Spec.Mat 64 192)
    (hx : ∀ i d, ∃ r : ℝ, x i d = (r : EReal)) (hc : ∀ i d, ∃ r : ℝ, cW i d = (r : EReal))
    (hw : ∀ i d, ∃ r : ℝ, Wih i d = (r : EReal)) :
    Cert.Spec.mm (Cert.Spec.msg hn nw (Cert.Spec.mm x cW) src dst) Wih
      = Cert.Spec.mm (Cert.Spec.msg hn nw x src dst) (Cert.Spec.mm cW Wih) := by
  choose xr hxr using hx
  choose cr hcr using hc
  choose wr hwr using hw
  obtain rfl : x = up xr := funext fun i => funext fun d => hxr i d
  obtain rfl : cW = up cr := funext fun i => funext fun d => hcr i d
  obtain rfl : Wih = up wr := funext fun i => funext fun d => hwr i d
  rw [mm_up, msg_up, mm_up, msg_up, mm_up, mm_up, law_real]

theorem updK_eq_updR (a : Cert.Spec.Args) (hf : a.Finite) (l : Fin 5) (x : Cert.Spec.Mat 100000 64)
    (hx : ∀ i d, ∃ r : ℝ, x i d = (r : EReal)) : Cert.Spec.updK a l x = Cert.Spec.updR a l x := by
  unfold updK updR msgA
  rw [msg_law _ _ x a.src a.dst (a.cW l) (a.Wih l) hx (hf.cW l) (hf.Wih l)]

theorem updR_real (a : Cert.Spec.Args) (hf : a.Finite) (l : Fin 5) (x : Cert.Spec.Mat 100000 64)
    (hx : ∀ i d, ∃ r : ℝ, x i d = (r : EReal)) : ∀ i d, ∃ r : ℝ, Cert.Spec.updR a l x i d = (r : EReal) := by
  unfold updR msgA
  exact gruStep_real (mm_real (msg_real _ _ _ _ (mm_real hx (hf.cW l))) (hf.Wih l)) hx (hf.bih l) (hf.Whh l)
    (hf.bhh l)

theorem trans_real (a : Cert.Spec.Args) (hf : a.Finite) (l : Fin 4) (xg ze : Cert.Spec.Mat 100000 64)
    (hxg : ∀ i d, ∃ r : ℝ, xg i d = (r : EReal)) (hze : ∀ i d, ∃ r : ℝ, ze i d = (r : EReal)) :
    ∀ i d, ∃ r : ℝ, Cert.Spec.trans a l xg ze i d = (r : EReal) := by
  unfold Cert.Spec.trans
  exact affine_real (concat_real hxg hze) (hf.tW l) (hf.tb l)

theorem next_eq (a : Cert.Spec.Args) (hf : a.Finite) (hz : a.ZRange) (l : Fin 4) (m j : Fin 5)
    (xk xr : Cert.Spec.Mat 100000 64) (h : xk = xr) (hr : ∀ i d, ∃ r : ℝ, xr i d = (r : EReal)) :
    Cert.Spec.trans a l (updK a m xk) (embK a.z (a.zemb j))
      = Cert.Spec.trans a l (updR a m xr) (embR a.z (a.zemb j)) := by
  subst h
  rw [updK_eq_updR a hf m xk hr, embK_eq_embR a.z (a.zemb j) hz]

theorem next_real (a : Cert.Spec.Args) (hf : a.Finite) (l : Fin 4) (m j : Fin 5) (xr : Cert.Spec.Mat 100000 64)
    (hr : ∀ i d, ∃ r : ℝ, xr i d = (r : EReal)) :
    ∀ i d, ∃ r : ℝ, Cert.Spec.trans a l (updR a m xr) (embR a.z (a.zemb j)) i d = (r : EReal) :=
  trans_real a hf l _ _ (updR_real a hf m xr hr) (embR_real a.z (a.zemb j) (hf.zemb j))

theorem xK0_eq (a : Cert.Spec.Args) (hz : a.ZRange) : xK0 a = xR0 a := embK_eq_embR a.z (a.zemb 0) hz
theorem xR0_real (a : Cert.Spec.Args) (hf : a.Finite) : ∀ i d, ∃ r : ℝ, xR0 a i d = (r : EReal) :=
  embR_real a.z (a.zemb 0) (hf.zemb 0)

theorem xK1_eq (a : Cert.Spec.Args) (hf : a.Finite) (hz : a.ZRange) : xK1 a = xR1 a :=
  next_eq a hf hz 0 0 1 _ _ (xK0_eq a hz) (xR0_real a hf)
theorem xR1_real (a : Cert.Spec.Args) (hf : a.Finite) : ∀ i d, ∃ r : ℝ, xR1 a i d = (r : EReal) :=
  next_real a hf 0 0 1 _ (xR0_real a hf)

theorem xK2_eq (a : Cert.Spec.Args) (hf : a.Finite) (hz : a.ZRange) : xK2 a = xR2 a :=
  next_eq a hf hz 1 1 2 _ _ (xK1_eq a hf hz) (xR1_real a hf)
theorem xR2_real (a : Cert.Spec.Args) (hf : a.Finite) : ∀ i d, ∃ r : ℝ, xR2 a i d = (r : EReal) :=
  next_real a hf 1 1 2 _ (xR1_real a hf)

theorem xK3_eq (a : Cert.Spec.Args) (hf : a.Finite) (hz : a.ZRange) : xK3 a = xR3 a :=
  next_eq a hf hz 2 2 3 _ _ (xK2_eq a hf hz) (xR2_real a hf)
theorem xR3_real (a : Cert.Spec.Args) (hf : a.Finite) : ∀ i d, ∃ r : ℝ, xR3 a i d = (r : EReal) :=
  next_real a hf 2 2 3 _ (xR2_real a hf)

theorem xK4_eq (a : Cert.Spec.Args) (hf : a.Finite) (hz : a.ZRange) : xK4 a = xR4 a :=
  next_eq a hf hz 3 3 4 _ _ (xK3_eq a hf hz) (xR3_real a hf)
theorem xR4_real (a : Cert.Spec.Args) (hf : a.Finite) : ∀ i d, ∃ r : ℝ, xR4 a i d = (r : EReal) :=
  next_real a hf 3 3 4 _ (xR3_real a hf)

theorem outK_eq_outR (a : Cert.Spec.Args) (hf : a.Finite) (hz : a.ZRange) : Cert.Spec.outK a = Cert.Spec.outR a := by
  unfold outK outR
  rw [xK4_eq a hf hz, updK_eq_updR a hf 4 (xR4 a) (xR4_real a hf)]

end Cert.BridgeLaw

end
-- ==== Proof.PreDecode.lean ====
import proofs.«421876_j2267742732766_4_alg».proof.Pre_finite_inputs
import proofs.«421876_j2267742732766_4_alg».proof.Proof.Spec
import Idealize.ShloMosaic.Lib.ReduceAll
import Idealize.ShloMosaic.Lib.StableHlo.Predicate
import Idealize.ShloMosaic.Lib.ValueIdx

set_option maxRecDepth 16384

noncomputable section

namespace Cert.PreDecode

open Idealize.ShloMosaic Idealize.ShloMosaic.ValueIdx

abbrev S0 : Shape := ⟨0, ![]⟩

instance : Subsingleton S0.Idx := ⟨fun a b => funext fun d => d.elim0⟩

theorem inf_word : Ideal.ofBits .f32 0x7F800000#32 = (⊤ : EReal) := by simp [Ideal.ofBits, Ideal.ieee]

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  have h' : Ideal.cmp .olt (max (x : EReal) (-x)) (Ideal.ofBits .f32 0x7F800000#32) = 1#1 := h
  rw [inf_word] at h'
  simp only [Ideal.cmp, StableHlo.Predicate.ofBool_eq_one_iff, decide_eq_true_eq] at h'
  exact real_of_abs_lt_top x h'

theorem finite_of_all {S : Shape} {axes : List (Fin S.rank)} (x : FVec Ideal S .f32)
    (hb : S0.BroadcastsInDim S (![] : Fin 0 → Fin S.rank)) (hr : S.ReducesTo axes S0) (hu : 0 < S0.numel)
    (h : Host.reduce IntOp.andi (cmpf .olt (Host.absf x) (broadcastInDim S ![] hb (constant S0 .f32 0x7F800000#32)))
        (constantI S0 1 1#1) hr hu ix0 = 1#1) (i : S.Idx) : ∃ r : ℝ, x i = (r : EReal) :=
  real_of_cmp (x i) (Host.reduce_andi_all _ _ hr hu ix0 h i)

theorem range_of_all {S : Shape} {axes : List (Fin S.rank)} (z : IVec S 32) (lo hi : BitVec 32)
    (hb : S0.BroadcastsInDim S (![] : Fin 0 → Fin S.rank)) (hr : S.ReducesTo axes S0) (hu : 0 < S0.numel)
    (h : Host.reduce IntOp.andi
        (andi (cmpi .sge z (broadcastInDim S ![] hb (constantI S0 32 lo)))
          (cmpi .slt z (broadcastInDim S ![] hb (constantI S0 32 hi))))
        (constantI S0 1 1#1) hr hu ix0 = 1#1) (i : S.Idx) :
    lo.toInt ≤ (z i).toInt ∧ (z i).toInt < hi.toInt := by
  have e : IntOp.andi (IntOp.cmpi .sge (z i) lo) (IntOp.cmpi .slt (z i) hi) = 1#1 :=
    Host.reduce_andi_all _ _ hr hu ix0 h i
  obtain ⟨h0, h1⟩ := IntOp.andi_eq_one.1 e
  exact ⟨IntOp.cmpi_sge.1 h0, IntOp.cmpi_slt.1 h1⟩

theorem andi_at (x y : IVec S0 1) (j : S0.Idx) : andi x y j = 1#1 ↔ x j = 1#1 ∧ y j = 1#1 := IntOp.andi_eq_one

variable [Cert.Pre_finite_inputs.Facts]

open Cert.Pre_finite_inputs in
theorem args_ok
    (a0 : IVec S100000x2 32) (a1 : IVec S2x1600000 32) (a2 : IVec S100000 32) (a3 : IVec S20000 32)
    (a4 : IVec S2000 32) (a5 : FVec Ideal S5x100x64 .f32) (a6 : FVec Ideal S4x128x64 .f32)
    (a7 : FVec Ideal S4x64 .f32) (a8 : FVec Ideal S5x64x64 .f32) (a9 : FVec Ideal S5x64x192 .f32)
    (a10 : FVec Ideal S5x192 .f32) (a11 : FVec Ideal S5x64x192 .f32) (a12 : FVec Ideal S5x192 .f32)
    (a13 : FVec Ideal S64x64 .f32) (a14 : FVec Ideal S64 .f32) (a15 : FVec Ideal S64x64 .f32)
    (a16 : FVec Ideal S64 .f32) (a17 : FVec Ideal S64x64 .f32) (a18 : FVec Ideal S64 .f32)
    (a19 : FVec Ideal S64x64 .f32) (a20 : FVec Ideal S64 .f32) (a21 : FVec Ideal S64x32 .f32)
    (a22 : FVec Ideal S32 .f32) (a23 : FVec Ideal S32x16 .f32) (a24 : FVec Ideal S16 .f32)
    (a25 : FVec Ideal S16x1 .f32) (a26 : FVec Ideal S1 .f32)
    (h : fn (F := Ideal) a0 a1 a2 a3 a4 a5 a6 a7 a8 a9 a10 a11 a12 a13 a14 a15 a16 a17 a18 a19 a20 a21 a22 a23 a24 a25 a26 = fun _ => 1#1) :
    (Cert.Spec.Args.ofArrays a0 a1 a2 a3 a4 a5 a6 a7 a8 a9 a10 a11 a12 a13 a14 a15 a16 a17 a18 a19 a20 a21 a22 a23 a24 a25 a26).Finite
      ∧ (Cert.Spec.Args.ofArrays a0 a1 a2 a3 a4 a5 a6 a7 a8 a9 a10 a11 a12 a13 a14 a15 a16 a17 a18 a19 a20 a21 a22 a23 a24 a25 a26).ZRange := by
  have e := congrFun h ix0
  dsimp only [fn, fn_part1, fn_part2, fn_part3, fn_part4, fn_part5, fn_part6] at e
  obtain ⟨e, hz⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, -⟩ := (andi_at _ _ _).1 e
  obtain ⟨e, h12⟩ := (andi_at _ _ _).1 e
  obtain ⟨e, h11⟩ := (andi_at _ _ _).1 e
  obtain ⟨e, h10⟩ := (andi_at _ _ _).1 e
  obtain ⟨e, h9⟩ := (andi_at _ _ _).1 e
  obtain ⟨e, h8⟩ := (andi_at _ _ _).1 e
  obtain ⟨e, h7⟩ := (andi_at _ _ _).1 e
  obtain ⟨h5, h6⟩ := (andi_at _ _ _).1 e
  refine ⟨⟨?_, ?_, ?_, ?_, ?_, ?_, ?_, ?_⟩, ?_⟩
  · exact fun l k d => finite_of_all a5 _ _ _ h5 (ix3 l k d)
  · exact fun l k d => finite_of_all a6 _ _ _ h6 (ix3 l k d)
  · exact fun l d => finite_of_all a7 _ _ _ h7 (ix2 l d)
  · exact fun l k d => finite_of_all a8 _ _ _ h8 (ix3 l k d)
  · exact fun l k d => finite_of_all a9 _ _ _ h9 (ix3 l k d)
  · exact fun l d => finite_of_all a10 _ _ _ h10 (ix2 l d)
  · exact fun l k d => finite_of_all a11 _ _ _ h11 (ix3 l k d)
  · exact fun l d => finite_of_all a12 _ _ _ h12 (ix2 l d)
  · intro i c
    have e0 : (0#32 : BitVec 32).toInt = 0 := by decide
    have e1 : (100#32 : BitVec 32).toInt = 100 := by decide
    have r := range_of_all a0 0#32 100#32 _ _ _ hz (ix2 i c)
    rw [e0, e1] at r
    exact r

end Cert.PreDecode

end
-- ==== Proof.lean ====
import proofs.«421876_j2267742732766_4_alg».proof.Defs
import proofs.«421876_j2267742732766_4_alg».proof.Proof.Gen.Kernel
import proofs.«421876_j2267742732766_4_alg».proof.Proof.Gen.Kernel.Skeleton
import proofs.«421876_j2267742732766_4_alg».proof.Proof.Gen.Kernel.Launch
import proofs.«421876_j2267742732766_4_alg».proof.Proof.Gen.Kernel.Points
import proofs.«421876_j2267742732766_4_alg».proof.Proof.Gen.Kernel.Frame
import proofs.«421876_j2267742732766_4_alg».proof.Proof.Gen.KernelIdeal
import proofs.«421876_j2267742732766_4_alg».proof.Proof.Gen.KernelIdeal.Skeleton
import proofs.«421876_j2267742732766_4_alg».proof.Proof.Gen.KernelIdeal.Launch
import proofs.«421876_j2267742732766_4_alg».proof.Proof.Gen.KernelIdeal.Points
import proofs.«421876_j2267742732766_4_alg».proof.Proof.Gen.KernelIdeal.Frame
import proofs.«421876_j2267742732766_4_alg».proof.Proof.Gen.ReferenceIdeal
import proofs.«421876_j2267742732766_4_alg».proof.Proof.Gen.Pre_finite_inputs
import proofs.«421876_j2267742732766_4_alg».proof.Proof.KValue
import proofs.«421876_j2267742732766_4_alg».proof.Proof.RValue
import proofs.«421876_j2267742732766_4_alg».proof.Proof.BridgeLaw
import proofs.«421876_j2267742732766_4_alg».proof.Proof.PreDecode
import Idealize.ShloMosaic.Adequacy
import Idealize.ShloMosaic.Init

noncomputable section

namespace Cert.Proof

open Idealize.ShloMosaic Idealize.ShloMosaic.ValueIdx Idealize.SL.Sem

private theorem ext64x1 (A B : (⟨2, ![64, 1]⟩ : Shape).Idx → EReal)
    (h : ∀ (i : Fin 64) (d : Fin 1), A (ix2 i d) = B (ix2 i d)) : A = B :=
  funext fun j => (congrArg A (eq_ix2 j)).trans ((h (j 0) (j 1)).trans (congrArg B (eq_ix2 j)).symm)

theorem frame_k : Cert.frame_Kernel := fun m ρ _ => Cert.Kernel.Gen.frame m ρ

theorem frame_ki : Cert.frame_KernelIdeal := fun m ρ _ => Cert.KernelIdeal.Gen.frame m ρ

-- The reference is one straight line of host operations: it ends, and none of them writes an argument array.
theorem frame_ri : Cert.frame_ReferenceIdeal := fun m ρ _ =>
  (θ_run Cert.ReferenceIdeal.defs _ _).mono (fun r h c => by
      have hk := Cert.ReferenceIdeal.RVal.reference_keeps m c
      have hc := h c
      generalize StableHlo.after _ _ = W at hk hc
      cases hk
      repeat' apply And.intro
      all_goals exact (hc _).trans ‹_›)
    (Cert.ReferenceIdeal.RefRun.run_all (F := Ideal) m ρ)

theorem preserves : Cert.preserves_Kernel_KernelIdeal := trivial

-- Each program ends with its reading of the network; the two agree where the float inputs are finite and the node codes index the tables.
theorem algebraic : Cert.algebraic_KernelIdeal_ReferenceIdeal := by
  intro m ρ m' ρ' hpre hagree
  refine ⟨fun c => Cert.KernelIdeal.Gen.W18 m ρ c (Proc.devRef .tc Cert.KernelIdeal.main_v159),
    Cert.KernelIdeal.Gen.valueRun (F := Ideal) m ρ, ?_⟩
  refine (θ_run Cert.ReferenceIdeal.defs _ _).mono (fun r h c => ?_) (Cert.ReferenceIdeal.RefRun.run_all (F := Ideal) m' ρ')
  refine ⟨?_, by
    have hk := Cert.ReferenceIdeal.RVal.reference_keeps m' c
    have hc := h c
    generalize StableHlo.after _ _ = W at hk hc
    cases hk
    repeat' apply And.intro
    all_goals exact (hc _).trans ‹_›⟩
  rw [h c Cert.ReferenceIdeal.main_v415]
  have hargs : Cert.ReferenceIdeal.RVal.argsR m' c = Cert.KernelIdeal.KVal.argsK m c := by
    obtain ⟨e0, e1, e2, e3, e4, e5, e6, e7, e8, e9, e10, e11, e12, e13, e14, e15, e16, e17, e18, e19, e20, e21, e22, e23, e24, e25, e26⟩ := hagree c
    unfold Cert.ReferenceIdeal.RVal.argsR Cert.KernelIdeal.KVal.argsK
    rw [e0, e1, e2, e3, e4, e5, e6, e7, e8, e9, e10, e11, e12, e13, e14, e15, e16, e17, e18, e19, e20, e21, e22, e23, e24, e25, e26]
  obtain ⟨hf, hz⟩ := Cert.PreDecode.args_ok _ _ _ _ _ _ _ _ _ _ _ _ _ _ _ _ _ _ _ _ _ _ _ _ _ _ _ (hpre c)
  have key : ∀ (i : Fin 64) (d : Fin 1),
      (StableHlo.after Cert.ReferenceIdeal.RefRun.ops (StableHlo.launchContents m' c)
          (Proc.devRef .tc Cert.ReferenceIdeal.main_v415) : FVec Ideal Cert.ReferenceIdeal.S64x1 .f32) (ix2 i d)
        = (Cert.KernelIdeal.Gen.W18 m ρ c (Proc.devRef .tc Cert.KernelIdeal.main_v159) :
            FVec Ideal Cert.KernelIdeal.S64x1 .f32) (ix2 i d) := by
    intro i d
    rw [Cert.ReferenceIdeal.RVal.reference_value m' c i d, Cert.KernelIdeal.KVal.kernel_value m ρ c i d, hargs]
    exact (congrFun (congrFun (Cert.BridgeLaw.outK_eq_outR _ hf hz) i) d).symm
  exact ext64x1 _ _ key

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
